-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S256x3 : Shape := ⟨2, ![256, 3]⟩
abbrev S3 : Shape := ⟨1, ![3]⟩
abbrev S50000 : Shape := ⟨1, ![50000]⟩
abbrev S2x100000 : Shape := ⟨2, ![2, 100000]⟩
abbrev S100000 : Shape := ⟨1, ![100000]⟩
abbrev S600000 : Shape := ⟨1, ![600000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S50000 : S_.BroadcastsInDim S50000 (![] : Fin 0 → Fin S50000.rank)
  reducesTo_S50000_S_d0 : S50000.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v33 : IVec S600000 1) : IVec S_ 1 :=
  let main_c_12 : IVec S_ 1 := constantI S_ 1 1#1
  let main_v34 : IVec S_ 1 := (fun x v => Host.reduce IntOp.andi x v reducesTo_S600000_S_d0 h_S_) main_v33 main_c_12
  let main_v35 : IVec S_ 1 := andi main_v28 main_v34
  main_v35

def fn_part1 {F : FTy → Type} [FloatOps F] (main_arg4 : FVec F S3 .f32) (main_arg5 : FVec F S50000 .f32) (main_arg10 : IVec S600000 32) (main_v13 : IVec S_ 1) (main_v16 : IVec S256x3 1) : IVec S_ 1 :=
  let main_c_5 : IVec S_ 1 := constantI S_ 1 1#1
  let main_v17 : IVec S_ 1 := (fun x v => Host.reduce IntOp.andi x v reducesTo_S256x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S50000 .f32 := Host.absf main_arg5
  let main_cst_8 : FVec F S_ .f32 := constant S_ .f32 0x7F800000#32
  let main_v25 : FVec F S50000 .f32 := broadcastInDim S50000 ![] bcast_S_S50000 main_cst_8
  let main_v26 : IVec S50000 1 := cmpf .olt main_v24 main_v25
  let main_c_9 : IVec S_ 1 := constantI S_ 1 1#1
  let main_v27 : IVec S_ 1 := (fun x v => Host.reduce IntOp.andi x v reducesTo_S50000_S_d0 h_S_) main_v26 main_c_9
  let main_v28 : IVec S_ 1 := andi main_v23 main_v27
  let main_c_10 : IVec S_ 32 := constantI S_ 32 0#32
  let main_v29 : IVec S600000 32 := broadcastInDim S600000 ![] bcast_S_S600000 main_c_10
  let main_v30 : IVec S600000 1 := cmpi .sge main_arg10 main_v29
  let main_c_11 : IVec S_ 32 := constantI S_ 32 3#32
  let main_v31 : IVec S600000 32 := broadcastInDim S600000 ![] bcast_S_S600000 main_c_11
  let main_v32 : IVec S600000 1 := cmpi .slt main_arg10 main_v31
  let main_v33 : IVec S600000 1 := andi main_v30 main_v32
  fn_part2 (F := F) main_v28 main_v33

def fn {F : FTy → Type} [FloatOps F] (main_arg0 : FVec F S50000x512 .f32) (main_arg1 : FVec F S512x128 .f32) (main_arg2 : FVec F S128 .f32) (main_arg3 : FVec F S256x3 .f32) (main_arg4 : FVec F S3 .f32) (main_arg5 : FVec F S50000 .f32) (main_arg6 : IVec S2x100000 32) (main_arg7 : IVec S2x100000 32) (main_arg8 : IVec S100000 32) (main_arg9 : IVec S100000 32) (main_arg10 : IVec S600000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x3 .f32 := Host.absf main_arg3
  let main_cst_4 : FVec F S_ .f32 := constant S_ .f32 0x7F800000#32
  let main_v15 : FVec F S256x3 .f32 := broadcastInDim S256x3 ![] bcast_S_S256x3 main_cst_4
  let main_v16 : IVec S256x3 1 := cmpf .olt main_v14 main_v15
  fn_part1 (F := F) main_arg4 main_arg5 main_arg10 main_v13 main_v16
-- ==== Kernel.lean ====
abbrev S50000x512 : Shape := ⟨2, ![50000, 512]⟩
abbrev S512x128 : Shape := ⟨2, ![512, 128]⟩
abbrev S128 : Shape := ⟨1, ![128]⟩
abbrev S256x3 : Shape := ⟨2, ![256, 3]⟩
abbrev S3 : Shape := ⟨1, ![3]⟩
abbrev S50000 : Shape := ⟨1, ![50000]⟩
abbrev S2x100000 : Shape := ⟨2, ![2, 100000]⟩
abbrev S100000 : Shape := ⟨1, ![100000]⟩
abbrev S600000 : Shape := ⟨1, ![600000]⟩
abbrev S128x3 : Shape := ⟨2, ![128, 3]⟩
abbrev S50000x128 : Shape := ⟨2, ![50000, 128]⟩
abbrev S50000x3 : Shape := ⟨2, ![50000, 3]⟩
abbrev S2000x512 : Shape := ⟨2, ![2000, 512]⟩
abbrev S2000x128 : Shape := ⟨2, ![2000, 128]⟩
abbrev S2000x3 : Shape := ⟨2, ![2000, 3]⟩
abbrev S1x128 : Shape := ⟨2, ![1, 128]⟩
abbrev S1x100000 : Shape := ⟨2, ![1, 100000]⟩
abbrev S_ : Shape := ⟨0, ![]⟩
abbrev S100000x1 : Shape := ⟨2, ![100000, 1]⟩
abbrev S100000x128 : Shape := ⟨2, ![100000, 128]⟩
abbrev S2x8x128 : Shape := ⟨3, ![2, 8, 128]⟩
abbrev S5000x128 : Shape := ⟨2, ![5000, 128]⟩
abbrev S5000x1 : Shape := ⟨2, ![5000, 1]⟩
abbrev S1x8x128 : Shape := ⟨3, ![1, 8, 128]⟩
abbrev S1x1 : Shape := ⟨2, ![1, 1]⟩
abbrev S5000 : Shape := ⟨1, ![5000]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S100000x3 : Shape := ⟨2, ![100000, 3]⟩
abbrev S600000x3 : Shape := ⟨2, ![600000, 3]⟩
abbrev S1x3 : Shape := ⟨2, ![1, 3]⟩
abbrev S600000x1 : Shape := ⟨2, ![600000, 1]⟩
abbrev S10000x3 : Shape := ⟨2, ![10000, 3]⟩
abbrev S10000x1 : Shape := ⟨2, ![10000, 1]⟩
abbrev S10000 : Shape := ⟨1, ![10000]⟩

abbrev nBuf : Space → Nat
  | .hbm => 205
  | .vmem => 43
  | .smem => 0
  | _ => 0

abbrev hbmTy0_0 (i : Nat) : BufTy := match i % 128 with
  | 0 => ⟨S50000x512, .f32⟩
  | 1 => ⟨S512x128, .f32⟩
  | 2 => ⟨S128, .f32⟩
  | 3 => ⟨S256x3, .f32⟩
  | 4 => ⟨S3, .f32⟩
  | 5 => ⟨S50000, .f32⟩
  | 6 => ⟨S2x100000, .i32⟩
  | 7 => ⟨S2x100000, .i32⟩
  | 8 => ⟨S100000, .i32⟩
  | 9 => ⟨S100000, .i32⟩
  | 10 => ⟨S600000, .i32⟩
  | 11 => ⟨S128x3, .f32⟩
  | 12 => ⟨S128x3, .f32⟩
  | 13 => ⟨S50000x128, .f32⟩
  | 14 => ⟨S50000x128, .bf16⟩
  | 15 => ⟨S50000x3, .f32⟩
  | 16 => ⟨S50000x3, .f32⟩
  | 17 => ⟨S1x100000, .i32⟩
  | 18 => ⟨S100000, .i32⟩
  | 19 => ⟨S1x100000, .i32⟩
  | 20 => ⟨S100000, .i32⟩
  | 21 => ⟨S1x100000, .i32⟩
  | 22 => ⟨S100000, .i32⟩
  | 23 => ⟨S1x100000, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x128, .bf16⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .bf16⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x128, .bf16⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x128, .bf16⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000, .f32⟩
  | 97 => ⟨S100000x1, .f32⟩
  | 98 => ⟨S100000x1, .f32⟩
  | 99 => ⟨S2x8x128, .f32⟩
  | 100 => ⟨S2x1x1, .f32⟩
  | 101 => ⟨S2, .f32⟩
  | 102 => ⟨S_, .f32⟩
  | 103 => ⟨S_, .f32⟩
  | 104 => ⟨S100000x1, .f32⟩
  | 105 => ⟨S100000x1, .f32⟩
  | 106 => ⟨S2x8x128, .f32⟩
  | 107 => ⟨S2x1x1, .f32⟩
  | 108 => ⟨S2, .f32⟩
  | 109 => ⟨S_, .f32⟩
  | 110 => ⟨S_, .f32⟩
  | 111 => ⟨S_, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x3, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S50000x512, .f32⟩

abbrev hbmTy0_1 (i : Nat) : BufTy := match i % 128 with
  | 0 => ⟨S100000x1, .i32⟩
  | 1 => ⟨S100000x3, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x3, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x3, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x3, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x3, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x3, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x3, .f32⟩
  | 56 => ⟨S100000x3, .f32⟩
  | 57 => ⟨S100000x3, .f32⟩
  | 58 => ⟨S100000x3, .f32⟩
  | 59 => ⟨S100000x3, .f32⟩
  | 60 => ⟨S100000x3, .f32⟩
  | 61 => ⟨S100000x3, .f32⟩
  | 62 => ⟨S600000x3, .f32⟩
  | 63 => ⟨S1x3, .f32⟩
  | 64 => ⟨S600000x3, .f32⟩
  | 65 => ⟨S600000x3, .f32⟩
  | 66 => ⟨S600000x1, .i32⟩
  | 67 => ⟨S2x8x128, .f32⟩
  | 68 => ⟨S2x1x1, .f32⟩
  | 69 => ⟨S2, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S128x3, .f32⟩
  | .local _ .vmem, ⟨5, _⟩ => ⟨S128x3, .f32⟩
  | .local _ .vmem, ⟨6, _⟩ => ⟨S2000x128, .f32⟩
  | .local _ .vmem, ⟨7, _⟩ => ⟨S2000x128, .f32⟩
  | .local _ .vmem, ⟨8, _⟩ => ⟨S2000x128, .bf16⟩
  | .local _ .vmem, ⟨9, _⟩ => ⟨S2000x128, .bf16⟩
  | .local _ .vmem, ⟨10, _⟩ => ⟨S2000x3, .f32⟩
  | .local _ .vmem, ⟨11, _⟩ => ⟨S2000x3, .f32⟩
  | .local _ .vmem, ⟨12, _⟩ => ⟨S2000x3, .f32⟩
  | .local _ .vmem, ⟨13, _⟩ => ⟨S2000x3, .f32⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .bf16⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S1x8x128, .f32⟩
  | .local _ .vmem, ⟨23, _⟩ => ⟨S1x8x128, .f32⟩
  | .local _ .vmem, ⟨24, _⟩ => ⟨S1x1, .f32⟩
  | .local _ .vmem, ⟨25, _⟩ => ⟨S5000x128, .bf16⟩
  | .local _ .vmem, ⟨26, _⟩ => ⟨S5000x128, .bf16⟩
  | .local _ .vmem, ⟨27, _⟩ => ⟨S5000x128, .bf16⟩
  | .local _ .vmem, ⟨28, _⟩ => ⟨S5000x128, .bf16⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S1x8x128, .f32⟩
  | .local _ .vmem, ⟨34, _⟩ => ⟨S1x8x128, .f32⟩
  | .local _ .vmem, ⟨35, _⟩ => ⟨S1x1, .f32⟩
  | .local _ .vmem, ⟨36, _⟩ => ⟨S10000x3, .f32⟩
  | .local _ .vmem, ⟨37, _⟩ => ⟨S10000x3, .f32⟩
  | .local _ .vmem, ⟨38, _⟩ => ⟨S10000x1, .i32⟩
  | .local _ .vmem, ⟨39, _⟩ => ⟨S10000x1, .i32⟩
  | .local _ .vmem, ⟨40, _⟩ => ⟨S1x8x128, .f32⟩
  | .local _ .vmem, ⟨41, _⟩ => ⟨S1x8x128, .f32⟩
  | .local _ .vmem, ⟨42, _⟩ => ⟨S1x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_c_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_20 : Ref sig .tc := ⟨.hbm, 130, rfl⟩
abbrev main_v94 : Ref sig .tc := ⟨.hbm, 131, rfl⟩
abbrev main_v95 : Ref sig .tc := ⟨.hbm, 132, rfl⟩
abbrev main_c_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_24 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_26 : Ref sig .tc := ⟨.hbm, 157, rfl⟩
abbrev main_v115 : Ref sig .tc := ⟨.hbm, 158, rfl⟩
abbrev main_v116 : Ref sig .tc := ⟨.hbm, 159, rfl⟩
abbrev main_c_27 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_28 : Ref sig .tc := ⟨.hbm, 166, rfl⟩
abbrev main_v122 : Ref sig .tc := ⟨.hbm, 167, rfl⟩
abbrev main_v123 : Ref sig .tc := ⟨.hbm, 168, rfl⟩
abbrev main_c_29 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_30 : Ref sig .tc := ⟨.hbm, 175, rfl⟩
abbrev main_v129 : Ref sig .tc := ⟨.hbm, 176, rfl⟩
abbrev main_v130 : Ref sig .tc := ⟨.hbm, 177, rfl⟩
abbrev main_c_31 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_32 : Ref sig .tc := ⟨.hbm, 198, rfl⟩
abbrev main_v150 : Ref sig .tc := ⟨.hbm, 199, rfl⟩
abbrev main_cst_33 : Ref sig .tc := ⟨.hbm, 200, rfl⟩
abbrev main_v151 : Ref sig .tc := ⟨.hbm, 201, rfl⟩
abbrev main_cst_34 : Ref sig .tc := ⟨.hbm, 202, rfl⟩
abbrev main_v152 : Ref sig .tc := ⟨.hbm, 203, rfl⟩
abbrev main_v153 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_scratch0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 10], ![false, false]⟩

def k1_cond3 (i : grid1.Coords) : BitVec 1 :=
  let arg1 : BitVec 32 := BitVec.ofNat 32 (i 1).val
  let c9_i32 : BitVec 32 := 9#32
  let v46 : BitVec 1 := Scalar.cmpi .eq arg1 c9_i32
  let v47 : BitVec 32 := Scalar.extui v46
  let c0_i32_19 : BitVec 32 := 0#32
  let v48 : BitVec 1 := Scalar.cmpi .ne v47 c0_i32_19
  v48

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 10], ![false, false]⟩

def k2_cond3 (i : grid2.Coords) : BitVec 1 :=
  let arg1 : BitVec 32 := BitVec.ofNat 32 (i 1).val
  let c9_i32 : BitVec 32 := 9#32
  let v46 : BitVec 1 := Scalar.cmpi .eq arg1 c9_i32
  let v47 : BitVec 32 := Scalar.extui v46
  let c0_i32_19 : BitVec 32 := 0#32
  let v48 : BitVec 1 := Scalar.cmpi .ne v47 c0_i32_19
  v48

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 30], ![false, false]⟩

def k3_cond3 (i : grid3.Coords) : BitVec 1 :=
  let arg1 : BitVec 32 := BitVec.ofNat 32 (i 1).val
  let c29_i32 : BitVec 32 := 29#32
  let v31 : BitVec 1 := Scalar.cmpi .eq arg1 c29_i32
  let v32 : BitVec 32 := Scalar.extui v31
  let c0_i32_11 : BitVec 32 := 0#32
  let v33 : BitVec 1 := Scalar.cmpi .ne v32 c0_i32_11
  v33

def cc3_transform_0 (i : grid3.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S10000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  slices_S256x3_S128x3_0_0 : S256x3.Slices ![0, 0] S128x3
  slices_S256x3_S128x3_128_0 : S256x3.Slices ![128, 0] S128x3
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S2000x3_S2000x3_0_0 : ∀ a, (![0, 0] : Fin 2 → Nat) a + S2000x3.size a ≤ S2000x3.size a
  h_S2000x3 : 0 < S2000x3.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x1_S1 : S5000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  concatenates_S100000x3_S100000x3_S100000x3_S100000x3_S100000x3_S100000x3_S600000x3_d0 : Shape.Concatenates [S100000x3, S100000x3, S100000x3, S100000x3, S100000x3, S100000x3] S600000x3 0
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  shapeCasts_S600000_S600000x1 : S600000.ShapeCasts S600000x1
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  reduces_S10000x3_S10000 : S10000x3.Reduces [1] S10000
  shapeCasts_S10000_S10000x1 : S10000.ShapeCasts S10000x1
  broadcasts_S10000x1_S10000x3 : S10000x1.Broadcasts S10000x3
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x3_d1_w32 : S10000x3.Iotas .tc 32 [1]
  reduces_S10000x1_S1 : S10000x1.Reduces [0] S1
  dot_S2000x512_S512x128_S2000x128_1_0_0_1_n_n_wf : DotDims.WF S2000x512 S512x128 S2000x128 [1] [0] [0] [1] [] []
  dot_S2000x128_S128x3_S2000x3_1_0_0_1_n_n_wf : DotDims.WF S2000x128 S128x3 S2000x3 [1] [0] [0] [1] [] []
  gather_S50000x128_S100000x1_S100000x128_1_0_n_n_0_1_1128_wf : GatherDims.WF S50000x128 S100000x1 S100000x128 [1] [0] [] [0] [] 1 ![1, 128]
  gather_S50000_S100000x1_S100000_n_0_n_n_0_1_1_wf : GatherDims.WF S50000 S100000x1 S100000 [] [0] [] [0] [] 1 ![1]
  gather_S50000x3_S100000x1_S100000x3_1_0_n_n_0_1_13_wf : GatherDims.WF S50000x3 S100000x1 S100000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x3.size a ≤ S128x3.size a
  hwx0_4 : ∀ i : grid0.Coords, EltTy.bits .f32 = 32 ∨ (Rect.block (s := S128x3) S128x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x3.size a ≤ S50000x3.size a
  hwx0_7 : ∀ i : grid0.Coords, EltTy.bits .f32 = 32 ∨ (Rect.block (s := S50000x3) S2000x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x3.size a ≤ S50000x3.size a
  hwx0_8 : ∀ i : grid0.Coords, EltTy.bits .f32 = 32 ∨ (Rect.block (s := S50000x3) S2000x3.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S2x8x128.size a
  hwx1_4 : ∀ i : grid1.Coords, EltTy.bits .f32 = 32 ∨ (Rect.block (s := S2x8x128) S1x8x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x128.size a ≤ S2x8x128.size a
  hwx2_4 : ∀ i : grid2.Coords, EltTy.bits .f32 = 32 ∨ (Rect.block (s := S2x8x128) S1x8x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x3.size a ≤ S600000x3.size a
  hwx3_0 : ∀ i : grid3.Coords, EltTy.bits .f32 = 32 ∨ (Rect.block (s := S600000x3) S10000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S600000x1.size a
  hwx3_1 : ∀ i : grid3.Coords, EltTy.bits .i32 = 32 ∨ (Rect.block (s := S600000x1) S10000x1.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x8x128.size a ≤ S2x8x128.size a
  hwx3_2 : ∀ i : grid3.Coords, EltTy.bits .f32 = 32 ∨ (Rect.block (s := S2x8x128) S1x8x128.size (cc3_transform_2 i) (hinb3_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def gather_S50000x3_S100000x1_S100000x3_1_0_n_n_0_1_13 : GatherDims S50000x3 S100000x1 S100000x3 where
  offsetDims := [1]
  collapsedSliceDims := [0]
  operandBatchingDims := []
  startIndicesBatchingDims := []
  startIndexMap := [0]
  indexVectorDim := 1
  sliceSizes := ![1, 3]
  wf := gather_S50000x3_S100000x1_S100000x3_1_0_n_n_0_1_13_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S2000x3.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_3) S2000x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v74) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

abbrev win3_0 : Pipeline.Window sig grid3 :=
  Pipeline.Window.ofSpec (Memref.whole main_v145) S10000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v146) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v147) S1x8x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond3 i == 1#1) | ⟨_ + 3, h⟩ => absurd h (Nat.not_lt.2 (Nat.le_add_left _ _))

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S256x3 : Shape := ⟨2, ![256, 3]⟩
abbrev S3 : Shape := ⟨1, ![3]⟩
abbrev S50000 : Shape := ⟨1, ![50000]⟩
abbrev S2x100000 : Shape := ⟨2, ![2, 100000]⟩
abbrev S100000 : Shape := ⟨1, ![100000]⟩
abbrev S600000 : Shape := ⟨1, ![600000]⟩
abbrev S50000x128 : Shape := ⟨2, ![50000, 128]⟩
abbrev S1x128 : Shape := ⟨2, ![1, 128]⟩
abbrev S1x100000 : Shape := ⟨2, ![1, 100000]⟩
abbrev S_ : Shape := ⟨0, ![]⟩
abbrev S100000x1 : Shape := ⟨2, ![100000, 1]⟩
abbrev S100000x128 : Shape := ⟨2, ![100000, 128]⟩
abbrev S100000x256 : Shape := ⟨2, ![100000, 256]⟩
abbrev S600000x256 : Shape := ⟨2, ![600000, 256]⟩
abbrev S600000x3 : Shape := ⟨2, ![600000, 3]⟩
abbrev S1x3 : Shape := ⟨2, ![1, 3]⟩
abbrev S600000x1 : Shape := ⟨2, ![600000, 1]⟩
abbrev S600000x1x1 : Shape := ⟨3, ![600000, 1, 1]⟩
abbrev S1 : Shape := ⟨1, ![1]⟩
abbrev S1x1x1 : Shape := ⟨3, ![1, 1, 1]⟩

abbrev nBuf : Space → Nat
  | .hbm => 275
  | .vmem => 0
  | .smem => 0
  | _ => 0

abbrev hbmTy0_0 (i : Nat) : BufTy := match i % 128 with
  | 0 => ⟨S50000x512, .f32⟩
  | 1 => ⟨S512x128, .f32⟩
  | 2 => ⟨S128, .f32⟩
  | 3 => ⟨S256x3, .f32⟩
  | 4 => ⟨S3, .f32⟩
  | 5 => ⟨S50000, .f32⟩
  | 6 => ⟨S2x100000, .i32⟩
  | 7 => ⟨S2x100000, .i32⟩
  | 8 => ⟨S100000, .i32⟩
  | 9 => ⟨S100000, .i32⟩
  | 10 => ⟨S600000, .i32⟩
  | 11 => ⟨S50000x128, .f32⟩
  | 12 => ⟨S1x128, .f32⟩
  | 13 => ⟨S50000x128, .f32⟩
  | 14 => ⟨S50000x128, .f32⟩
  | 15 => ⟨S1x100000, .i32⟩
  | 16 => ⟨S100000, .i32⟩
  | 17 => ⟨S1x100000, .i32⟩
  | 18 => ⟨S100000, .i32⟩
  | 19 => ⟨S1x100000, .i32⟩
  | 20 => ⟨S100000, .i32⟩
  | 21 => ⟨S1x100000, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x128, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x128, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x128, .f32⟩
  | 77 => ⟨S100000x256, .f32⟩
  | 78 => ⟨S100000x256, .f32⟩
  | 79 => ⟨S100000x256, .f32⟩
  | 80 => ⟨S100000x256, .f32⟩
  | 81 => ⟨S100000x256, .f32⟩
  | 82 => ⟨S100000x256, .f32⟩
  | 83 => ⟨S600000x256, .f32⟩
  | 84 => ⟨S600000x3, .f32⟩
  | 85 => ⟨S1x3, .f32⟩
  | 86 => ⟨S600000x3, .f32⟩
  | 87 => ⟨S600000x3, .f32⟩
  | 88 => ⟨S_, .f32⟩
  | 89 => ⟨S600000, .f32⟩
  | 90 => ⟨S_, .f32⟩
  | 91 => ⟨S600000, .f32⟩
  | 92 => ⟨S600000, .f32⟩
  | 93 => ⟨S600000x1, .f32⟩
  | 94 => ⟨S600000x3, .f32⟩
  | 95 => ⟨S600000x3, .f32⟩
  | 96 => ⟨S600000x3, .f32⟩
  | 97 => ⟨S_, .f32⟩
  | 98 => ⟨S600000, .f32⟩
  | 99 => ⟨S600000x1, .f32⟩
  | 100 => ⟨S600000x1, .f32⟩
  | 101 => ⟨S600000x3, .f32⟩
  | 102 => ⟨S600000x3, .f32⟩
  | 103 => ⟨S600000x1, .i32⟩
  | 104 => ⟨S_, .i32⟩
  | 105 => ⟨S600000x1, .i32⟩
  | 106 => ⟨S600000x1, .i1⟩
  | 107 => ⟨S_, .i32⟩
  | 108 => ⟨S600000x1, .i32⟩
  | 109 => ⟨S600000x1, .i32⟩
  | 110 => ⟨S600000x1, .i32⟩
  | 111 => ⟨S600000x1x1, .i32⟩
  | 112 => ⟨S1, .i32⟩
  | 113 => ⟨S_, .i32⟩
  | 114 => ⟨S600000x1x1, .i32⟩
  | 115 => ⟨S600000x1x1, .i1⟩
  | 116 => ⟨S1x1x1, .i32⟩
  | 117 => ⟨S600000x1x1, .i32⟩
  | 118 => ⟨S600000x1x1, .i1⟩
  | 119 => ⟨S600000x1x1, .i1⟩
  | 120 => ⟨S_, .i1⟩
  | 121 => ⟨S600000x1, .i1⟩
  | 122 => ⟨S600000x1, .f32⟩
  | 123 => ⟨S_, .f32⟩
  | 124 => ⟨S600000x1, .f32⟩
  | 125 => ⟨S600000x1, .f32⟩
  | 126 => ⟨S600000, .f32⟩
  | 127 => ⟨S_, .f32⟩
  | _ => ⟨S50000x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x128, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x128, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x128, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x128, .f32⟩
  | 37 => ⟨S_, .f32⟩
  | 38 => ⟨S100000, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000, .f32⟩
  | 62 => ⟨S100000, .f32⟩
  | 63 => ⟨S_, .f32⟩
  | 64 => ⟨S100000, .f32⟩
  | 65 => ⟨S100000, .f32⟩
  | 66 => ⟨S100000, .f32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x128, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x128, .f32⟩
  | 85 => ⟨S100000x128, .f32⟩
  | 86 => ⟨S_, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000x128, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S100000x128, .f32⟩
  | 100 => ⟨S_, .f32⟩
  | 101 => ⟨S100000, .f32⟩
  | 102 => ⟨S100000, .f32⟩
  | 103 => ⟨S100000, .f32⟩
  | 104 => ⟨S_, .f32⟩
  | 105 => ⟨S100000, .f32⟩
  | 106 => ⟨S100000, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000, .f32⟩
  | 125 => ⟨S100000, .f32⟩
  | 126 => ⟨S_, .f32⟩
  | 127 => ⟨S100000, .f32⟩
  | _ => ⟨S50000x512, .f32⟩

abbrev hbmTy0_2 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S100000, .f32⟩
  | 6 => ⟨S_, .f32⟩
  | 7 => ⟨S_, .f32⟩
  | 8 => ⟨S_, .f32⟩
  | 9 => ⟨S_, .f32⟩
  | 10 => ⟨S100000, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call0_cst : Ref sig .tc := ⟨.hbm, 88, rfl⟩
abbrev main_call0_v0 : Ref sig .tc := ⟨.hbm, 89, rfl⟩
abbrev main_call0_cst_0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_cst_1 : Ref sig .tc := ⟨.hbm, 97, rfl⟩
abbrev main_call0_v7 : Ref sig .tc := ⟨.hbm, 98, rfl⟩
abbrev main_call0_v8 : Ref sig .tc := ⟨.hbm, 99, rfl⟩
abbrev main_call0_v9 : Ref sig .tc := ⟨.hbm, 100, rfl⟩
abbrev main_call0_v10 : Ref sig .tc := ⟨.hbm, 101, rfl⟩
abbrev main_v65 : Ref sig .tc := ⟨.hbm, 102, rfl⟩
abbrev main_v66 : Ref sig .tc := ⟨.hbm, 103, rfl⟩
abbrev main_call1_c : Ref sig .tc := ⟨.hbm, 104, rfl⟩
abbrev main_call1_v0 : Ref sig .tc := ⟨.hbm, 105, rfl⟩
abbrev main_call1_v1 : Ref sig .tc := ⟨.hbm, 106, rfl⟩
abbrev main_call1_c_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_c_1 : Ref sig .tc := ⟨.hbm, 112, rfl⟩
abbrev main_call1_c_2 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_3 : Ref sig .tc := ⟨.hbm, 120, rfl⟩
abbrev main_call1_v12 : Ref sig .tc := ⟨.hbm, 121, rfl⟩
abbrev main_call1_v13 : Ref sig .tc := ⟨.hbm, 122, rfl⟩
abbrev main_call1_cst : Ref sig .tc := ⟨.hbm, 123, rfl⟩
abbrev main_call1_v14 : Ref sig .tc := ⟨.hbm, 124, rfl⟩
abbrev main_v67 : Ref sig .tc := ⟨.hbm, 125, rfl⟩
abbrev main_v68 : Ref sig .tc := ⟨.hbm, 126, rfl⟩
abbrev main_cst : Ref sig .tc := ⟨.hbm, 127, rfl⟩
abbrev main_v69 : Ref sig .tc := ⟨.hbm, 128, rfl⟩
abbrev main_cst_11 : Ref sig .tc := ⟨.hbm, 129, rfl⟩
abbrev main_v70 : Ref sig .tc := ⟨.hbm, 130, rfl⟩
abbrev main_v71 : Ref sig .tc := ⟨.hbm, 131, rfl⟩
abbrev main_c_12 : Ref sig .tc := ⟨.hbm, 132, rfl⟩
abbrev main_v72 : Ref sig .tc := ⟨.hbm, 133, rfl⟩
abbrev main_v73 : Ref sig .tc := ⟨.hbm, 134, rfl⟩
abbrev main_c_13 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_c_14 : Ref sig .tc := ⟨.hbm, 141, rfl⟩
abbrev main_v79 : Ref sig .tc := ⟨.hbm, 142, rfl⟩
abbrev main_v80 : Ref sig .tc := ⟨.hbm, 143, rfl⟩
abbrev main_c_15 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call2_v0 : Ref sig .tc := ⟨.hbm, 150, rfl⟩
abbrev main_call2_cst : Ref sig .tc := ⟨.hbm, 151, rfl⟩
abbrev main_call2_v1 : Ref sig .tc := ⟨.hbm, 152, rfl⟩
abbrev main_v86 : Ref sig .tc := ⟨.hbm, 153, rfl⟩
abbrev main_cst_16 : Ref sig .tc := ⟨.hbm, 154, rfl⟩
abbrev main_v87 : Ref sig .tc := ⟨.hbm, 155, rfl⟩
abbrev main_v88 : Ref sig .tc := ⟨.hbm, 156, rfl⟩
abbrev main_call3_v0 : Ref sig .tc := ⟨.hbm, 157, rfl⟩
abbrev main_call3_cst : Ref sig .tc := ⟨.hbm, 158, rfl⟩
abbrev main_call3_v1 : Ref sig .tc := ⟨.hbm, 159, rfl⟩
abbrev main_v89 : Ref sig .tc := ⟨.hbm, 160, rfl⟩
abbrev main_cst_17 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_18 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_cst_19 : Ref sig .tc := ⟨.hbm, 169, rfl⟩
abbrev main_v96 : Ref sig .tc := ⟨.hbm, 170, rfl⟩
abbrev main_v97 : Ref sig .tc := ⟨.hbm, 171, rfl⟩
abbrev main_c_20 : Ref sig .tc := ⟨.hbm, 172, rfl⟩
abbrev main_v98 : Ref sig .tc := ⟨.hbm, 173, rfl⟩
abbrev main_v99 : Ref sig .tc := ⟨.hbm, 174, rfl⟩
abbrev main_c_21 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_c_22 : Ref sig .tc := ⟨.hbm, 181, rfl⟩
abbrev main_v105 : Ref sig .tc := ⟨.hbm, 182, rfl⟩
abbrev main_v106 : Ref sig .tc := ⟨.hbm, 183, rfl⟩
abbrev main_c_23 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_cst_24 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_c_25 : Ref sig .tc := ⟨.hbm, 195, rfl⟩
abbrev main_v116 : Ref sig .tc := ⟨.hbm, 196, rfl⟩
abbrev main_v117 : Ref sig .tc := ⟨.hbm, 197, rfl⟩
abbrev main_c_26 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_c_27 : Ref sig .tc := ⟨.hbm, 204, rfl⟩
abbrev main_v123 : Ref sig .tc := ⟨.hbm, 205, rfl⟩
abbrev main_v124 : Ref sig .tc := ⟨.hbm, 206, rfl⟩
abbrev main_c_28 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_call4_v0 : Ref sig .tc := ⟨.hbm, 213, rfl⟩
abbrev main_call4_cst : Ref sig .tc := ⟨.hbm, 214, rfl⟩
abbrev main_call4_v1 : Ref sig .tc := ⟨.hbm, 215, rfl⟩
abbrev main_v130 : Ref sig .tc := ⟨.hbm, 216, rfl⟩
abbrev main_cst_29 : Ref sig .tc := ⟨.hbm, 217, rfl⟩
abbrev main_v131 : Ref sig .tc := ⟨.hbm, 218, rfl⟩
abbrev main_v132 : Ref sig .tc := ⟨.hbm, 219, rfl⟩
abbrev main_call5_v0 : Ref sig .tc := ⟨.hbm, 220, rfl⟩
abbrev main_call5_cst : Ref sig .tc := ⟨.hbm, 221, rfl⟩
abbrev main_call5_v1 : Ref sig .tc := ⟨.hbm, 222, rfl⟩
abbrev main_v133 : Ref sig .tc := ⟨.hbm, 223, rfl⟩
abbrev main_cst_30 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_cst_31 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_cst_32 : Ref sig .tc := ⟨.hbm, 232, rfl⟩
abbrev main_v140 : Ref sig .tc := ⟨.hbm, 233, rfl⟩
abbrev main_v141 : Ref sig .tc := ⟨.hbm, 234, rfl⟩
abbrev main_c_33 : Ref sig .tc := ⟨.hbm, 235, rfl⟩
abbrev main_v142 : Ref sig .tc := ⟨.hbm, 236, rfl⟩
abbrev main_v143 : Ref sig .tc := ⟨.hbm, 237, rfl⟩
abbrev main_c_34 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_35 : Ref sig .tc := ⟨.hbm, 244, rfl⟩
abbrev main_v149 : Ref sig .tc := ⟨.hbm, 245, rfl⟩
abbrev main_v150 : Ref sig .tc := ⟨.hbm, 246, rfl⟩
abbrev main_c_36 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_cst_37 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_cst_38 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_cst_39 : Ref sig .tc := ⟨.hbm, 262, rfl⟩
abbrev main_v163 : Ref sig .tc := ⟨.hbm, 263, rfl⟩
abbrev main_cst_40 : Ref sig .tc := ⟨.hbm, 264, rfl⟩
abbrev main_v164 : Ref sig .tc := ⟨.hbm, 265, rfl⟩
abbrev main_v165 : Ref sig .tc := ⟨.hbm, 266, rfl⟩
abbrev main_cst_41 : Ref sig .tc := ⟨.hbm, 267, rfl⟩
abbrev main_v166 : Ref sig .tc := ⟨.hbm, 268, rfl⟩
abbrev main_cst_42 : Ref sig .tc := ⟨.hbm, 269, rfl⟩
abbrev main_v167 : Ref sig .tc := ⟨.hbm, 270, rfl⟩
abbrev main_v168 : Ref sig .tc := ⟨.hbm, 271, rfl⟩
abbrev main_cst_43 : Ref sig .tc := ⟨.hbm, 272, rfl⟩
abbrev main_v169 : Ref sig .tc := ⟨.hbm, 273, rfl⟩
abbrev main_v170 : Ref sig .tc := ⟨.hbm, 274, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  concatenates_S100000x256_S100000x256_S100000x256_S100000x256_S100000x256_S100000x256_S600000x256_d0 : Shape.Concatenates [S100000x256, S100000x256, S100000x256, S100000x256, S100000x256, S100000x256] S600000x256 0
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  reducesTo_S600000x3_S600000_d1 : S600000x3.ReducesTo [1] S600000
  h_S_ : 0 < S_.numel
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x3_0_1 : S600000x1.BroadcastsInDim S600000x3 (![0, 1] : Fin 2 → Fin S600000x3.rank)
  bcast_S_S600000x1 : S_.BroadcastsInDim S600000x1 (![] : Fin 0 → Fin S600000x1.rank)
  shapeCasts_S600000x1_S600000x1x1 : S600000x1.ShapeCasts S600000x1x1
  bcast_S_S600000x1x1 : S_.BroadcastsInDim S600000x1x1 (![] : Fin 0 → Fin S600000x1x1.rank)
  bcast_S1_S1x1x1_2 : S1.BroadcastsInDim S1x1x1 (![2] : Fin 1 → Fin S1x1x1.rank)
  bcast_S1x1x1_S600000x1x1_0_1_2 : S1x1x1.BroadcastsInDim S600000x1x1 (![0, 1, 2] : Fin 3 → Fin S600000x1x1.rank)
  reducesTo_S600000x1x1_S600000x1_d2 : S600000x1x1.ReducesTo [2] S600000x1
  shapeCasts_S600000x1_S600000 : S600000x1.ShapeCasts S600000
  reducesTo_S600000_S_d0 : S600000.ReducesTo [0] S_
  reducesTo_S100000x128_S100000_d1 : S100000x128.ReducesTo [1] S100000
  reducesTo_S100000_S_d0 : S100000.ReducesTo [0] S_
  dot_S50000x512_S512x128_S50000x128_1_0_0_1_n_n_wf : DotDims.WF S50000x512 S512x128 S50000x128 [1] [0] [0] [1] [] []
  gather_S50000x128_S100000x1_S100000x128_1_0_n_n_0_1_1128_wf : GatherDims.WF S50000x128 S100000x1 S100000x128 [1] [0] [] [0] [] 1 ![1, 128]
  dot_S600000x256_S256x3_S600000x3_1_0_0_1_n_n_wf : DotDims.WF S600000x256 S256x3 S600000x3 [1] [0] [0] [1] [] []
  gather_S600000x3_S600000x1x1_S600000x1_n_1_0_0_1_2_11_wf : GatherDims.WF S600000x3 S600000x1x1 S600000x1 [] [1] [0] [1] [0] 2 ![1, 1]
  gather_S50000_S100000x1_S100000_n_0_n_n_0_1_1_wf : GatherDims.WF S50000 S100000x1 S100000 [] [0] [] [0] [] 1 ![1]

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S600000x256_S256x3_S600000x3_1_0_0_1_n_n : DotDims S600000x256 S256x3 S600000x3 where
  lhsContracting := [1]
  rhsContracting := [0]
  lhsNonContracting := [0]
  rhsNonContracting := [1]
  lhsBatch := []
  rhsBatch := []
  wf := dot_S600000x256_S256x3_S600000x3_1_0_0_1_n_n_wf
def gather_S600000x3_S600000x1x1_S600000x1_n_1_0_0_1_2_11 : GatherDims S600000x3 S600000x1x1 S600000x1 where
  offsetDims := []
  collapsedSliceDims := [1]
  operandBatchingDims := [0]
  startIndicesBatchingDims := [0]
  startIndexMap := [1]
  indexVectorDim := 2
  sliceSizes := ![1, 1]
  wf := gather_S600000x3_S600000x1x1_S600000x1_n_1_0_0_1_2_11_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf

class Facts : Prop extends Facts₀ where

variable [Facts]
-- ==== Proof.LibBody.lean ====
import Idealize.ShloMosaic.Lib.Pipeline.FrameBody
import Idealize.ShloMosaic.Lib.Pipeline.Value

namespace LibBody

open Idealize.ShloMosaic

variable {Val : EltTy → Type} [∀ e, Nonempty (Val e)] {sig : RefSig} {κ : Kind} {sp : Space} {S : Shape} {e : EltTy}

theorem offs1_zero : (![0] : Fin 1 → Nat) = fun _ => 0 := funext fun a => by fin_cases a <;> rfl
theorem offs2_zero : (![0, 0] : Fin 2 → Nat) = fun _ => 0 := funext fun a => by fin_cases a <;> rfl
theorem offs3_zero : (![0, 0, 0] : Fin 3 → Nat) = fun _ => 0 := funext fun a => by fin_cases a <;> rfl

-- a word's test for zero and its test for non-zero exclude each other
theorem isZero_iff_not_nonZero (a : BitVec 32) :
    (Scalar.cmpi .ne (Scalar.extui (Scalar.cmpi .eq a 0#32)) 0#32 = 1#1)
      ↔ ¬(Scalar.cmpi .ne (Scalar.extui (Scalar.cmpi .ne a 0#32)) 0#32 = 1#1) := by
  unfold Scalar.cmpi Scalar.extui IntOp.cmpi
  simp only [bne]
  cases (a == 0#32) <;> decide

-- the rectangle of the whole shape at zero offsets meets every index
theorem load_whole (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

-- the last store covers every index, so nothing older shows through
theorem read_stored_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end LibBody
-- ==== Proof.K.Reg0.lean ====
import proofs.«404240_j51247549776505_4_alg».proof.Proof.Gen.Kernel.Launch
import proofs.«404240_j51247549776505_4_alg».proof.Proof.Gen.Kernel.Skeleton
import proofs.«404240_j51247549776505_4_alg».proof.Proof.Gen.Kernel.Points
import proofs.«404240_j51247549776505_4_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (c : Dev nD) (t : Fin cfg0.N) : Vec F S2000x128 .f32 := k0_pay1 (iblk0 V c 0 t) (iblk0 V c 1 t) (iblk0 V c 2 t)
def out0_6 (c : Dev nD) (t : Fin cfg0.N) : Vec F S2000x128 .bf16 := k0_pay2 (iblk0 V c 0 t) (iblk0 V c 1 t) (iblk0 V c 2 t)
def out0_7 (c : Dev nD) (t : Fin cfg0.N) : Vec F S2000x3 .f32 := k0_pay3 (iblk0 V c 0 t) (iblk0 V c 1 t) (iblk0 V c 2 t) (iblk0 V c 3 t)
def out0_8 (c : Dev nD) (t : Fin cfg0.N) : Vec F S2000x3 .f32 := k0_pay4 (iblk0 V c 0 t) (iblk0 V c 1 t) (iblk0 V c 2 t) (iblk0 V c 4 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
    | ⟨8, _⟩ => out0_8 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
theorem after0_8 (c : Dev nD) (t : Fin cfg0.N) : (dat0 V c).after 8 t = out0_8 V c t := by dsimp only [dat0]

theorem before0_0 (c : Dev nD) (t : Fin cfg0.N) (d) : (dat0 V c).before 0 t d = iblk0 V c 0 t :=
  (dat0 V c).before_fetched 0 t (fetch0_0 t) d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

set_option maxHeartbeats 1000000 in
theorem sound_kernel0 (c : Dev nD) (t : Fin cfg0.N)
    (x0 : Vec F S2000x512 .f32) (x1 : Vec F S512x128 .f32) (x2 : Vec F S128 .f32) (x3 : Vec F S128x3 .f32) (x4 : Vec F S128x3 .f32)
    (E : Set ℕ) (K : PUnit → sProp 𝕄) :
    iprop(owns (c : Thread nD τ) (st0_0 t) fullShare x0 ∗ owns (c : Thread nD τ) (st0_1 t) fullShare x1 ∗ owns (c : Thread nD τ) (st0_2 t) fullShare x2
        ∗ owns (c : Thread nD τ) (st0_3 t) fullShare x3 ∗ owns (c : Thread nD τ) (st0_4 t) fullShare x4
        ∗ (∃ d, owns (c : Thread nD τ) (st0_5 t) fullShare d) ∗ (∃ d, owns (c : Thread nD τ) (st0_6 t) fullShare d)
        ∗ (∃ d, owns (c : Thread nD τ) (st0_7 t) fullShare d) ∗ (∃ d, owns (c : Thread nD τ) (st0_8 t) fullShare d)
        ∗ (iprop(owns (c : Thread nD τ) (st0_0 t) fullShare x0 ∗ owns (c : Thread nD τ) (st0_1 t) fullShare x1 ∗ owns (c : Thread nD τ) (st0_2 t) fullShare x2
            ∗ owns (c : Thread nD τ) (st0_3 t) fullShare x3 ∗ owns (c : Thread nD τ) (st0_4 t) fullShare x4
            ∗ owns (c : Thread nD τ) (st0_5 t) fullShare (k0_pay1 x0 x1 x2) ∗ owns (c : Thread nD τ) (st0_6 t) fullShare (k0_pay2 x0 x1 x2)
            ∗ owns (c : Thread nD τ) (st0_7 t) fullShare (k0_pay3 x0 x1 x2 x3) ∗ owns (c : Thread nD τ) (st0_8 t) fullShare (k0_pay4 x0 x1 x2 x4)) -∗ K ⟨⟩))
      ⊢ wp frame (wpE (defs₀ (F := F)) Variants.none c none) E (bodyAt0 t) K := by
  unfold bodyAt0
  simp only [cc0__z_proj_kernel_eq_skeleton]; unfold cc0__z_proj_kernel_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf1 hf2 hf3 hf4 hf5
  sl_exec
  sl_step
  sl_unfold_words
  simp only [load_whole (S := S2000x512) _ _ offs2_zero, load_whole (S := S512x128) _ _ offs2_zero, load_whole (S := S128) _ _ offs1_zero,
    load_whole (S := S128x3) _ _ offs2_zero]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact read_stored_whole (S := S2000x128) _ _ offs2_zero _ _ _
  isplitl [H7]
  · iexists _; isplitr
    swap; · iexact H7
    ipureintro; exact read_stored_whole (S := S2000x128) _ _ offs2_zero _ _ _
  isplitl [H8]
  · iexists _; isplitr
    swap; · iexact H8
    ipureintro; exact read_stored_whole (S := S2000x3) _ _ offs2_zero _ _ _
  iexists _; isplitr
  swap; · iexact H9
  ipureintro; exact read_stored_whole (S := S2000x3) _ _ offs2_zero _ _ _

theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_5, after0_6, after0_7, after0_8]
  unfold out0_5 out0_6 out0_7 out0_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c t (iblk0 V c 0 t) (iblk0 V c 1 t) (iblk0 V c 2 t) (iblk0 V c 3 t) (iblk0 V c 4 t) Set.univ _)
  iframe H0 H1 H2 H3 H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  iframe HΦ Ho H5 H6 H7 H8
  isplitl [H0]; · iexact H0
  isplitl [H1]; · iexact H1
  isplitl [H2]; · iexact H2
  isplitl [H3]; · iexact H3
  iexact H4

end Cert.Kernel.Hand

end
-- ==== Proof.K.Reg1.lean ====
import proofs.«404240_j51247549776505_4_alg».proof.Proof.Gen.Kernel.Launch
import proofs.«404240_j51247549776505_4_alg».proof.Proof.Gen.Kernel.Skeleton
import proofs.«404240_j51247549776505_4_alg».proof.Proof.Gen.Kernel.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1x1 .f32 := Memref.whole cc1_scratch0

def part1 (c : Dev nD) (t : Fin cfg1.N) : Vec F S1x1 .f32 := k1_pay4 (iblk1 V c 0 t) (iblk1 V c 1 t) (iblk1 V c 2 t) (iblk1 V c 3 t)

def acc1 (c : Dev nD) : (n : ℕ) → n < cfg1.N → Vec F S1x1 .f32
  | 0, hn => k1_pay1 (part1 V c ⟨0, hn⟩)
  | n + 1, hn =>
    if (n + 1) % 10 = 0 then k1_pay1 (part1 V c ⟨n + 1, hn⟩)
    else k1_pay2 (part1 V c ⟨n + 1, hn⟩) (acc1 c n (Nat.lt_of_succ_lt hn))

theorem acc1_first (c : Dev nD) (t : Fin cfg1.N) (h : t.val % 10 = 0) :
    acc1 V c t.val t.isLt = k1_pay1 (part1 V c t) := by
  obtain ⟨n, hn⟩ := t
  cases n with
  | zero => rfl
  | succ n => exact if_pos h

theorem acc1_next (c : Dev nD) (t : Fin cfg1.N) (h : t.val % 10 ≠ 0) :
    acc1 V c t.val t.isLt = k1_pay2 (part1 V c t) (acc1 V c (t.val - 1) (Nat.lt_of_le_of_lt (Nat.sub_le _ _) t.isLt)) := by
  obtain ⟨n, hn⟩ := t
  cases n with
  | zero => exact absurd (Nat.zero_mod _) h
  | succ n => exact if_neg h

def out1 (c : Dev nD) (t : Fin cfg1.N) : Vec F S1x8x128 .f32 := k1_pay3 (acc1 V c t.val t.isLt)

def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem after1_4 (c : Dev nD) (t : Fin cfg1.N) : (dat1 V c).after 4 t = out1 V c t := by dsimp only [dat1]

theorem PhiA1_eq (c : Dev nD) :
    (Pipeline.ΦA spec1 c : sProp 𝕄)
      = iprop(iprop(iprop(∃ d, owns (c : Thread nD τ) scM1 fullShare d) ∗ Pipeline.scopedRestBut spec1 c [cc1_scratch0]) ∗ (∃ r, prngReg c r)) := by
  unfold Pipeline.ΦA; rw [scopedRest1_split]; simp only [scM1, owns_whole]; try rfl

-- the cell is owned before every point, after the first at what the point before left
theorem Phi1_open (c : Dev nD) (n : ℕ) (h : n ≤ cfg1.N) :
    Phi1 V c n h ⊢ iprop(∃ d, ⌜∀ hz : n ≠ 0, d = acc1 V c (n - 1) (by omega)⌝ ∗ owns (c : Thread nD τ) scM1 fullShare d
      ∗ Pipeline.scopedRestBut spec1 c [cc1_scratch0] ∗ (∃ r, prngReg c r)) := by
  cases n with
  | zero =>
    unfold Phi1; rw [PhiA1_eq]
    iintro ⟨⟨⟨%d, HS⟩, HR⟩, Hg⟩
    iexists d; isplitr; · ipureintro; exact fun hz => absurd rfl hz
    iframe
  | succ n =>
    unfold Phi1
    iintro ⟨HS, HR, Hg⟩
    iexists (acc1 V c n h); isplitr; · ipureintro; exact fun _ => rfl
    iframe

abbrev isLater1 (i : grid1.Coords) : Prop :=
  (Scalar.cmpi .ne (Scalar.extui (Scalar.cmpi .ne (BitVec.ofNat 32 (i 1).val) 0#32)) 0#32) = 1#1
abbrev isLast1 (i : grid1.Coords) : Prop := k1_cond3 i = 1#1

theorem isLater1_iff : ∀ t : Fin cfg1.N, isLater1 (grid1.coords t) ↔ t.val % 10 ≠ 0 :=
  (by decide +kernel : ∀ t : Fin grid1.N, isLater1 (grid1.coords t) ↔ t.val % 10 ≠ 0)
theorem isLast1_iff : ∀ t : Fin cfg1.N, isLast1 (grid1.coords t) ↔ t.val % 10 = 9 :=
  (by decide +kernel : ∀ t : Fin grid1.N, isLast1 (grid1.coords t) ↔ t.val % 10 = 9)

-- what the cell holds after a step that found `xs` in it
def new1 (i : grid1.Coords) (p xs : Vec F S1x1 .f32) : Vec F S1x1 .f32 := if isLater1 i then k1_pay2 p xs else k1_pay1 p

theorem acc1_step (c : Dev nD) (t : Fin cfg1.N) (xs : Vec F S1x1 .f32) (h : ∀ hz : t.val ≠ 0, xs = acc1 V c (t.val - 1) (by omega)) :
    acc1 V c t.val t.isLt = new1 (grid1.coords t) (part1 V c t) xs := by
  unfold new1
  by_cases hf : t.val % 10 = 0
  · rw [acc1_first V c t hf, if_neg fun hl => (isLater1_iff t).mp hl hf]
  · rw [acc1_next V c t hf, if_pos ((isLater1_iff t).mpr hf), h fun e => hf (by rw [e])]

set_option maxHeartbeats 1000000 in
-- the inputs are only read; the cell's one store and, at a run's last step, the block's one store cover them whole
theorem run1 (c : Dev nD) (t : Fin cfg1.N)
    (x0 : Vec F S5000x128 .bf16) (x1 : Vec F S5000x128 .bf16) (x2 : Vec F S5000x1 .f32) (x3 : Vec F S5000x1 .f32)
    (xo : Vec F S1x8x128 .f32) (xs : Vec F S1x1 .f32) (E : Set ℕ) (K : PUnit → sProp 𝕄) :
    iprop(owns (c : Thread nD τ) (st1_0 t) fullShare x0 ∗ owns (c : Thread nD τ) (st1_1 t) fullShare x1
        ∗ owns (c : Thread nD τ) (st1_2 t) fullShare x2 ∗ owns (c : Thread nD τ) (st1_3 t) fullShare x3
        ∗ owns (c : Thread nD τ) (st1_4 t) fullShare xo ∗ owns (c : Thread nD τ) scM1 fullShare xs
        ∗ (iprop(owns (c : Thread nD τ) (st1_0 t) fullShare x0 ∗ owns (c : Thread nD τ) (st1_1 t) fullShare x1
            ∗ owns (c : Thread nD τ) (st1_2 t) fullShare x2 ∗ owns (c : Thread nD τ) (st1_3 t) fullShare x3
            ∗ owns (c : Thread nD τ) (st1_4 t) fullShare
              (if isLast1 (grid1.coords t) then k1_pay3 (new1 (grid1.coords t) (k1_pay4 x0 x1 x2 x3) xs) else xo)
            ∗ owns (c : Thread nD τ) scM1 fullShare (new1 (grid1.coords t) (k1_pay4 x0 x1 x2 x3) xs)) -∗ K ⟨⟩))
      ⊢ wp frame (wpE (defs₀ (F := F)) Variants.none c none) E (bodyAt1 t) K := by
  unfold bodyAt1
  simp only [cc1__mse_kernel_eq_skeleton]; unfold cc1__mse_kernel_skel owns new1
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0 hf1 hf2 hf3 hfo hfs
  by_cases h1 : isLater1 (grid1.coords t) <;> by_cases h2 : isLast1 (grid1.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S5000x128) offs2_zero, View.ld_unit_zero (S := S5000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d
theorem before1_2 (c : Dev nD) (t : Fin cfg1.N) (d) : (dat1 V c).before 2 t d = iblk1 V c 2 t :=
  (dat1 V c).before_fetched 2 t (fetch1_2 t) d
theorem before1_3 (c : Dev nD) (t : Fin cfg1.N) (d) : (dat1 V c).before 3 t d = iblk1 V c 3 t :=
  (dat1 V c).before_fetched 3 t (fetch1_3 t) d

-- the invariant holds the cell at the running sum; off a run's last step the block's contents do not change
theorem body_obligation1 (c : Dev nD) : BodyObligation (dat1 (F := F) V c) (defs₀ (F := F)) Variants.none () Set.univ := fun t => by
  rw [bigSep_W1, bigSep_W1]
  change _ ⊢ wp _ _ _ (bodyAt1 t) _
  unfold bodyAt1
  simp only [before1_0, before1_1, before1_2, before1_3, idle1, after1_4]
  unfold out1
  rw [show (dat1 V c).owesAt () t.succ = (dat1 V c).owesAt () t.castSucc from rfl,
    show (dat1 V c).Φ t.succ = iprop(owns (c : Thread nD τ) scM1 fullShare (acc1 V c t.val t.isLt)
      ∗ Pipeline.scopedRestBut spec1 c [cc1_scratch0] ∗ (∃ r, prngReg c r)) from rfl,
    show (dat1 V c).Φ t.castSucc = Phi1 V c t.val (Nat.le_of_lt t.isLt) from rfl]
  iintro ⟨HΦ, Ho, ⟨%d0, H0⟩, ⟨%d1, H1⟩, ⟨%d2, H2⟩, ⟨%d3, H3⟩, ⟨%d4, H4⟩⟩
  icases (Phi1_open V c _ _) $$ HΦ with ⟨%xs, %hxs, HS, HR, Hg⟩
  iapply (run1 c t (iblk1 V c 0 t) (iblk1 V c 1 t) (iblk1 V c 2 t) (iblk1 V c 3 t)
    ((dat1 V c).before 4 t d4) xs Set.univ _)
  iframe H0 H1 H2 H3 H4 HS
  iintro ⟨H0, H1, H2, H3, H4, HS⟩
  rw [acc1_step V c t xs hxs]; unfold part1
  iframe HS HR Hg Ho
  isplitl [H0]; · iexact H0
  isplitl [H1]; · iexact H1
  isplitl [H2]; · iexact H2
  isplitl [H3]; · iexact H3
  by_cases h2 : isLast1 (grid1.coords t)
  · simp only [beq_iff_eq.mpr h2, Bool.not_true]
    rw [if_pos h2]
    iexact H4
  · simp only [beq_eq_false_iff_ne.mpr h2, Bool.not_false, Bool.eq_false_iff.mpr fun h => h2 ((isLast1_iff t).mpr ((flush1_4 t).mp h))]
    rw [if_neg h2]
    iexists _; iexact H4

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [PhiA1_eq]
  refine (Phi1_open V c _ (Nat.le_of_lt_succ (Fin.last cfg1.N).isLt)).trans ?_
  iintro ⟨%d, -, HS, HR, Hg⟩
  iframe HR Hg
  iexists _; iexact HS

end Cert.Kernel.Hand

end
-- ==== Proof.K.Reg2.lean ====
import proofs.«404240_j51247549776505_4_alg».proof.Proof.Gen.Kernel.Launch
import proofs.«404240_j51247549776505_4_alg».proof.Proof.Gen.Kernel.Skeleton
import proofs.«404240_j51247549776505_4_alg».proof.Proof.Gen.Kernel.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1x1 .f32 := Memref.whole cc2_scratch0

def part2 (c : Dev nD) (t : Fin cfg2.N) : Vec F S1x1 .f32 := k2_pay4 (iblk2 V c 0 t) (iblk2 V c 1 t) (iblk2 V c 2 t) (iblk2 V c 3 t)

def acc2 (c : Dev nD) : (n : ℕ) → n < cfg2.N → Vec F S1x1 .f32
  | 0, hn => k2_pay1 (part2 V c ⟨0, hn⟩)
  | n + 1, hn =>
    if (n + 1) % 10 = 0 then k2_pay1 (part2 V c ⟨n + 1, hn⟩)
    else k2_pay2 (part2 V c ⟨n + 1, hn⟩) (acc2 c n (Nat.lt_of_succ_lt hn))

theorem acc2_first (c : Dev nD) (t : Fin cfg2.N) (h : t.val % 10 = 0) :
    acc2 V c t.val t.isLt = k2_pay1 (part2 V c t) := by
  obtain ⟨n, hn⟩ := t
  cases n with
  | zero => rfl
  | succ n => exact if_pos h

theorem acc2_next (c : Dev nD) (t : Fin cfg2.N) (h : t.val % 10 ≠ 0) :
    acc2 V c t.val t.isLt = k2_pay2 (part2 V c t) (acc2 V c (t.val - 1) (Nat.lt_of_le_of_lt (Nat.sub_le _ _) t.isLt)) := by
  obtain ⟨n, hn⟩ := t
  cases n with
  | zero => exact absurd (Nat.zero_mod _) h
  | succ n => exact if_neg h

def out2 (c : Dev nD) (t : Fin cfg2.N) : Vec F S1x8x128 .f32 := k2_pay3 (acc2 V c t.val t.isLt)

def Phi2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut spec2 c [cc2_scratch0] ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val (Nat.le_of_lt_succ t.isLt)
  q _ := fullShare
  owed _ := 0

theorem after2_4 (c : Dev nD) (t : Fin cfg2.N) : (dat2 V c).after 4 t = out2 V c t := by dsimp only [dat2]

theorem PhiA2_eq (c : Dev nD) :
    (Pipeline.ΦA spec2 c : sProp 𝕄)
      = iprop(iprop(iprop(∃ d, owns (c : Thread nD τ) scM2 fullShare d) ∗ Pipeline.scopedRestBut spec2 c [cc2_scratch0]) ∗ (∃ r, prngReg c r)) := by
  unfold Pipeline.ΦA; rw [scopedRest2_split]; simp only [scM2, owns_whole]; try rfl

-- the cell is owned before every point, after the first at what the point before left
theorem Phi2_open (c : Dev nD) (n : ℕ) (h : n ≤ cfg2.N) :
    Phi2 V c n h ⊢ iprop(∃ d, ⌜∀ hz : n ≠ 0, d = acc2 V c (n - 1) (by omega)⌝ ∗ owns (c : Thread nD τ) scM2 fullShare d
      ∗ Pipeline.scopedRestBut spec2 c [cc2_scratch0] ∗ (∃ r, prngReg c r)) := by
  cases n with
  | zero =>
    unfold Phi2; rw [PhiA2_eq]
    iintro ⟨⟨⟨%d, HS⟩, HR⟩, Hg⟩
    iexists d; isplitr; · ipureintro; exact fun hz => absurd rfl hz
    iframe
  | succ n =>
    unfold Phi2
    iintro ⟨HS, HR, Hg⟩
    iexists (acc2 V c n h); isplitr; · ipureintro; exact fun _ => rfl
    iframe

abbrev isLater2 (i : grid2.Coords) : Prop :=
  (Scalar.cmpi .ne (Scalar.extui (Scalar.cmpi .ne (BitVec.ofNat 32 (i 1).val) 0#32)) 0#32) = 1#1
abbrev isLast2 (i : grid2.Coords) : Prop := k2_cond3 i = 1#1

theorem isLater2_iff : ∀ t : Fin cfg2.N, isLater2 (grid2.coords t) ↔ t.val % 10 ≠ 0 :=
  (by decide +kernel : ∀ t : Fin grid2.N, isLater2 (grid2.coords t) ↔ t.val % 10 ≠ 0)
theorem isLast2_iff : ∀ t : Fin cfg2.N, isLast2 (grid2.coords t) ↔ t.val % 10 = 9 :=
  (by decide +kernel : ∀ t : Fin grid2.N, isLast2 (grid2.coords t) ↔ t.val % 10 = 9)

-- what the cell holds after a step that found `xs` in it
def new2 (i : grid2.Coords) (p xs : Vec F S1x1 .f32) : Vec F S1x1 .f32 := if isLater2 i then k2_pay2 p xs else k2_pay1 p

theorem acc2_step (c : Dev nD) (t : Fin cfg2.N) (xs : Vec F S1x1 .f32) (h : ∀ hz : t.val ≠ 0, xs = acc2 V c (t.val - 1) (by omega)) :
    acc2 V c t.val t.isLt = new2 (grid2.coords t) (part2 V c t) xs := by
  unfold new2
  by_cases hf : t.val % 10 = 0
  · rw [acc2_first V c t hf, if_neg fun hl => (isLater2_iff t).mp hl hf]
  · rw [acc2_next V c t hf, if_pos ((isLater2_iff t).mpr hf), h fun e => hf (by rw [e])]

set_option maxHeartbeats 1000000 in
-- the inputs are only read; the cell's one store and, at a run's last step, the block's one store cover them whole
theorem run2 (c : Dev nD) (t : Fin cfg2.N)
    (x0 : Vec F S5000x128 .bf16) (x1 : Vec F S5000x128 .bf16) (x2 : Vec F S5000x1 .f32) (x3 : Vec F S5000x1 .f32)
    (xo : Vec F S1x8x128 .f32) (xs : Vec F S1x1 .f32) (E : Set ℕ) (K : PUnit → sProp 𝕄) :
    iprop(owns (c : Thread nD τ) (st2_0 t) fullShare x0 ∗ owns (c : Thread nD τ) (st2_1 t) fullShare x1
        ∗ owns (c : Thread nD τ) (st2_2 t) fullShare x2 ∗ owns (c : Thread nD τ) (st2_3 t) fullShare x3
        ∗ owns (c : Thread nD τ) (st2_4 t) fullShare xo ∗ owns (c : Thread nD τ) scM2 fullShare xs
        ∗ (iprop(owns (c : Thread nD τ) (st2_0 t) fullShare x0 ∗ owns (c : Thread nD τ) (st2_1 t) fullShare x1
            ∗ owns (c : Thread nD τ) (st2_2 t) fullShare x2 ∗ owns (c : Thread nD τ) (st2_3 t) fullShare x3
            ∗ owns (c : Thread nD τ) (st2_4 t) fullShare
              (if isLast2 (grid2.coords t) then k2_pay3 (new2 (grid2.coords t) (k2_pay4 x0 x1 x2 x3) xs) else xo)
            ∗ owns (c : Thread nD τ) scM2 fullShare (new2 (grid2.coords t) (k2_pay4 x0 x1 x2 x3) xs)) -∗ K ⟨⟩))
      ⊢ wp frame (wpE (defs₀ (F := F)) Variants.none c none) E (bodyAt2 t) K := by
  unfold bodyAt2
  simp only [cc2__mse_kernel_eq_skeleton]; unfold cc2__mse_kernel_skel owns new2
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0 hf1 hf2 hf3 hfo hfs
  by_cases h1 : isLater2 (grid2.coords t) <;> by_cases h2 : isLast2 (grid2.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S5000x128) offs2_zero, View.ld_unit_zero (S := S5000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before2_0 (c : Dev nD) (t : Fin cfg2.N) (d) : (dat2 V c).before 0 t d = iblk2 V c 0 t :=
  (dat2 V c).before_fetched 0 t (fetch2_0 t) d
theorem before2_1 (c : Dev nD) (t : Fin cfg2.N) (d) : (dat2 V c).before 1 t d = iblk2 V c 1 t :=
  (dat2 V c).before_fetched 1 t (fetch2_1 t) d
theorem before2_2 (c : Dev nD) (t : Fin cfg2.N) (d) : (dat2 V c).before 2 t d = iblk2 V c 2 t :=
  (dat2 V c).before_fetched 2 t (fetch2_2 t) d
theorem before2_3 (c : Dev nD) (t : Fin cfg2.N) (d) : (dat2 V c).before 3 t d = iblk2 V c 3 t :=
  (dat2 V c).before_fetched 3 t (fetch2_3 t) d

-- the invariant holds the cell at the running sum; off a run's last step the block's contents do not change
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  simp only [before2_0, before2_1, before2_2, before2_3, idle2, after2_4]
  unfold out2
  rw [show (dat2 V c).owesAt () t.succ = (dat2 V c).owesAt () t.castSucc from rfl,
    show (dat2 V c).Φ t.succ = iprop(owns (c : Thread nD τ) scM2 fullShare (acc2 V c t.val t.isLt)
      ∗ Pipeline.scopedRestBut spec2 c [cc2_scratch0] ∗ (∃ r, prngReg c r)) from rfl,
    show (dat2 V c).Φ t.castSucc = Phi2 V c t.val (Nat.le_of_lt t.isLt) from rfl]
  iintro ⟨HΦ, Ho, ⟨%d0, H0⟩, ⟨%d1, H1⟩, ⟨%d2, H2⟩, ⟨%d3, H3⟩, ⟨%d4, H4⟩⟩
  icases (Phi2_open V c _ _) $$ HΦ with ⟨%xs, %hxs, HS, HR, Hg⟩
  iapply (run2 c t (iblk2 V c 0 t) (iblk2 V c 1 t) (iblk2 V c 2 t) (iblk2 V c 3 t)
    ((dat2 V c).before 4 t d4) xs Set.univ _)
  iframe H0 H1 H2 H3 H4 HS
  iintro ⟨H0, H1, H2, H3, H4, HS⟩
  rw [acc2_step V c t xs hxs]; unfold part2
  iframe HS HR Hg Ho
  isplitl [H0]; · iexact H0
  isplitl [H1]; · iexact H1
  isplitl [H2]; · iexact H2
  isplitl [H3]; · iexact H3
  by_cases h2 : isLast2 (grid2.coords t)
  · simp only [beq_iff_eq.mpr h2, Bool.not_true]
    rw [if_pos h2]
    iexact H4
  · simp only [beq_eq_false_iff_ne.mpr h2, Bool.not_false, Bool.eq_false_iff.mpr fun h => h2 ((isLast2_iff t).mpr ((flush2_4 t).mp h))]
    rw [if_neg h2]
    iexists _; iexact H4

theorem hin2 (c : Dev nD) : Pipeline.ΦA spec2 c ⊢ (dat2 V c).Φ 0 := Entails.refl _

theorem hout2 (c : Dev nD) : (dat2 V c).Φ (Fin.last cfg2.N) ⊢ Pipeline.ΦA spec2 c := by
  rw [PhiA2_eq]
  refine (Phi2_open V c _ (Nat.le_of_lt_succ (Fin.last cfg2.N).isLt)).trans ?_
  iintro ⟨%d, -, HS, HR, Hg⟩
  iframe HR Hg
  iexists _; iexact HS

end Cert.Kernel.Hand

end
-- ==== Proof.K.Reg3.lean ====
import proofs.«404240_j51247549776505_4_alg».proof.Proof.Gen.Kernel.Launch
import proofs.«404240_j51247549776505_4_alg».proof.Proof.Gen.Kernel.Skeleton
import proofs.«404240_j51247549776505_4_alg».proof.Proof.Gen.Kernel.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S1x1 .f32 := Memref.whole cc3_scratch0

def acc3 (c : Dev nD) : (n : ℕ) → n < cfg3.N → Vec F S1x1 .f32
  | 0, hn => k3_pay2 (iblk3 V c 0 ⟨0, hn⟩) (iblk3 V c 1 ⟨0, hn⟩)
  | n + 1, hn =>
    if (n + 1) % 30 = 0 then k3_pay2 (iblk3 V c 0 ⟨n + 1, hn⟩) (iblk3 V c 1 ⟨n + 1, hn⟩)
    else k3_pay3 (iblk3 V c 0 ⟨n + 1, hn⟩) (iblk3 V c 1 ⟨n + 1, hn⟩) (acc3 c n (Nat.lt_of_succ_lt hn))

theorem acc3_first (c : Dev nD) (t : Fin cfg3.N) (h : t.val % 30 = 0) :
    acc3 V c t.val t.isLt = k3_pay2 (iblk3 V c 0 t) (iblk3 V c 1 t) := by
  obtain ⟨n, hn⟩ := t
  cases n with
  | zero => rfl
  | succ n => exact if_pos h

theorem acc3_next (c : Dev nD) (t : Fin cfg3.N) (h : t.val % 30 ≠ 0) :
    acc3 V c t.val t.isLt = k3_pay3 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h
  | succ n => exact if_neg h

def out3 (c : Dev nD) (t : Fin cfg3.N) : Vec F S1x8x128 .f32 := k3_pay4 (acc3 V c t.val t.isLt)

def Phi3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut spec3 c [cc3_scratch0] ∗ (∃ r, prngReg c r))

theorem PhiA3_eq (c : Dev nD) :
    (Pipeline.ΦA spec3 c : sProp 𝕄)
      = iprop(iprop(iprop(∃ d, owns (c : Thread nD τ) scM3 fullShare d) ∗ Pipeline.scopedRestBut spec3 c [cc3_scratch0]) ∗ (∃ r, prngReg c r)) := by
  unfold Pipeline.ΦA; rw [scopedRest3_split]; simp only [scM3, owns_whole]; try rfl

-- the cell is owned before every point, after the first at what the point before left
theorem Phi3_open (c : Dev nD) (n : ℕ) (h : n ≤ cfg3.N) :
    Phi3 V c n h ⊢ iprop(∃ d, ⌜∀ hz : n ≠ 0, d = acc3 V c (n - 1) (by omega)⌝ ∗ owns (c : Thread nD τ) scM3 fullShare d
      ∗ Pipeline.scopedRestBut spec3 c [cc3_scratch0] ∗ (∃ r, prngReg c r)) := by
  cases n with
  | zero =>
    unfold Phi3; rw [PhiA3_eq]
    iintro ⟨⟨⟨%d, HS⟩, HR⟩, Hg⟩
    iexists d; isplitr; · ipureintro; exact fun hz => absurd rfl hz
    iframe
  | succ n =>
    unfold Phi3
    iintro ⟨HS, HR, Hg⟩
    iexists (acc3 V c n h); isplitr; · ipureintro; exact fun _ => rfl
    iframe

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := Phi3 V c t.val (Nat.le_of_lt_succ t.isLt)
  q _ := fullShare
  owed _ := 0

theorem after3_2 (c : Dev nD) (t : Fin cfg3.N) : (dat3 V c).after 2 t = out3 V c t := by dsimp only [dat3]

abbrev cond3_1 (i : grid3.Coords) : Prop := (Scalar.cmpi .ne (Scalar.extui (Scalar.cmpi .ne (BitVec.ofNat 32 (i 1).val) 0#32)) 0#32) = 1#1
abbrev cond3_2 (i : grid3.Coords) : Prop := k3_cond3 i = 1#1

theorem hcond3_1 : ∀ t : Fin cfg3.N, cond3_1 (grid3.coords t) ↔ t.val % 30 ≠ 0 :=
  (by decide +kernel : ∀ t : Fin grid3.N, cond3_1 (grid3.coords t) ↔ t.val % 30 ≠ 0)
theorem hcond3_2 : ∀ t : Fin cfg3.N, cond3_2 (grid3.coords t) ↔ t.val % 30 = 29 :=
  (by decide +kernel : ∀ t : Fin grid3.N, cond3_2 (grid3.coords t) ↔ t.val % 30 = 29)

-- what the cell holds after a step that found `xs` in it
def new3 (i : grid3.Coords) (x0 : Vec F S10000x3 .f32) (x1 : Vec F S10000x1 .i32) (xs : Vec F S1x1 .f32) : Vec F S1x1 .f32 :=
  if cond3_1 i then k3_pay3 x0 x1 xs else k3_pay2 x0 x1

theorem acc3_step (c : Dev nD) (t : Fin cfg3.N) (xs : Vec F S1x1 .f32) (h : ∀ hz : t.val ≠ 0, xs = acc3 V c (t.val - 1) (by omega)) :
    acc3 V c t.val t.isLt = new3 (grid3.coords t) (iblk3 V c 0 t) (iblk3 V c 1 t) xs := by
  unfold new3
  by_cases hf : t.val % 30 = 0
  · rw [acc3_first V c t hf, if_neg fun hl => (hcond3_1 t).mp hl hf]
  · rw [acc3_next V c t hf, if_pos ((hcond3_1 t).mpr hf), h fun e => hf (by rw [e])]

set_option maxHeartbeats 1000000 in
-- the inputs are only read; the cell's one store and, at a run's last step, the block's one store cover them whole
theorem run3 (c : Dev nD) (t : Fin cfg3.N)
    (x0 : Vec F S10000x3 .f32) (x1 : Vec F S10000x1 .i32) (xo : Vec F S1x8x128 .f32) (xs : Vec F S1x1 .f32) (E : Set ℕ) (K : PUnit → sProp 𝕄) :
    iprop(owns (c : Thread nD τ) (st3_0 t) fullShare x0 ∗ owns (c : Thread nD τ) (st3_1 t) fullShare x1
        ∗ owns (c : Thread nD τ) (st3_2 t) fullShare xo ∗ owns (c : Thread nD τ) scM3 fullShare xs
        ∗ (iprop(owns (c : Thread nD τ) (st3_0 t) fullShare x0 ∗ owns (c : Thread nD τ) (st3_1 t) fullShare x1
            ∗ owns (c : Thread nD τ) (st3_2 t) fullShare (if cond3_2 (grid3.coords t) then k3_pay4 (new3 (grid3.coords t) x0 x1 xs) else xo)
            ∗ owns (c : Thread nD τ) scM3 fullShare (new3 (grid3.coords t) x0 x1 xs)) -∗ K ⟨⟩))
      ⊢ wp frame (wpE (defs₀ (F := F)) Variants.none c none) E (bodyAt3 t) K := by
  unfold bodyAt3
  simp only [cc3__reg_kernel_eq_skeleton]; unfold cc3__reg_kernel_skel owns new3
  iintro ⟨⟨%f0, %hf0, H0⟩, ⟨%f1, %hf1, H1⟩, ⟨%fo, %hfo, HO⟩, ⟨%fs, %hfs, HS⟩, Hk⟩
  subst hf0 hf1 hfo hfs
  by_cases h1 : cond3_1 (grid3.coords t) <;> by_cases h2 : cond3_2 (grid3.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S10000x3) offs2_zero, View.ld_unit_zero (S := S10000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

-- the invariant holds the cell at the running sum; off a run's last step the block's contents do not change
theorem body_obligation3 (c : Dev nD) : BodyObligation (dat3 (F := F) V c) (defs₀ (F := F)) Variants.none () Set.univ := fun t => by
  rw [bigSep_W3, bigSep_W3]
  change _ ⊢ wp _ _ _ (bodyAt3 t) _
  unfold bodyAt3
  simp only [before3_0, before3_1, idle3, after3_2]
  unfold out3
  rw [show (dat3 V c).owesAt () t.succ = (dat3 V c).owesAt () t.castSucc from rfl,
    show (dat3 V c).Φ t.succ = iprop(owns (c : Thread nD τ) scM3 fullShare (acc3 V c t.val t.isLt)
      ∗ Pipeline.scopedRestBut spec3 c [cc3_scratch0] ∗ (∃ r, prngReg c r)) from rfl,
    show (dat3 V c).Φ t.castSucc = Phi3 V c t.val (Nat.le_of_lt t.isLt) from rfl]
  iintro ⟨HΦ, Ho, ⟨%d0, H0⟩, ⟨%d1, H1⟩, ⟨%d2, H2⟩⟩
  icases (Phi3_open V c _ _) $$ HΦ with ⟨%xs, %hxs, HS, HR, Hg⟩
  iapply (run3 c t (iblk3 V c 0 t) (iblk3 V c 1 t) ((dat3 V c).before 2 t d2) xs Set.univ _)
  iframe H0 H1 H2 HS
  iintro ⟨H0, H1, H2, HS⟩
  rw [acc3_step V c t xs hxs]
  iframe HS HR Hg Ho
  isplitl [H0]; · iexact H0
  isplitl [H1]; · iexact H1
  by_cases h2 : cond3_2 (grid3.coords t)
  · simp only [beq_iff_eq.mpr h2, Bool.not_true]
    rw [if_pos h2]
    iexact H2
  · simp only [beq_eq_false_iff_ne.mpr h2, Bool.not_false, Bool.eq_false_iff.mpr fun h => h2 ((hcond3_2 t).mpr ((flush3_2 t).mp h))]
    rw [if_neg h2]
    iexists _; iexact H2

theorem hin3 (c : Dev nD) : Pipeline.ΦA spec3 c ⊢ (dat3 V c).Φ 0 := Entails.refl _

theorem hout3 (c : Dev nD) : (dat3 V c).Φ (Fin.last cfg3.N) ⊢ Pipeline.ΦA spec3 c := by
  rw [PhiA3_eq]
  refine (Phi3_open V c _ (Nat.le_of_lt_succ (Fin.last cfg3.N).isLt)).trans ?_
  iintro ⟨%d, -, HS, HR, Hg⟩
  iframe HR Hg
  iexists _; iexact HS

end Cert.Kernel.Hand

end
-- ==== Proof.LibRegionSeg.lean ====
import Idealize.ShloMosaic.Lib.Pipeline.RegionsLoop
import Idealize.ShloMosaic.Lib.Pipeline.FrameSuffix
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {Λ₀ : Labels}

section Exit

variable {cfg : Cfg sig Λ₀} (dat : (c : Dev nD) → Dat τ Val Unit ℕ (UR sig nD τ) ℕ cfg c) (W : Dev nD → Valuation τ sig Val) (c : Dev nD)

/-- `W c` updated at the arrays of `cfg` by the last contents of `dat c`. -/
def exitW : Valuation τ sig Val := Pipeline.withArrays cfg.spec c (W c) fun w => (dat c).arrAt w cfg.N

theorem exitW_arr (hinj : Function.Injective (Pipeline.arrRef cfg.spec)) (w : Fin cfg.W) :
    exitW dat W c (Proc.devRef .tc (Pipeline.arrRef cfg.spec w)) = (dat c).arrAt w cfg.N :=
  Pipeline.withArrays_arr _ hinj c _ _ w

theorem exitW_of_ne (b : Ref sig .tc) (hb : ∀ w, Pipeline.arrRef cfg.spec w ≠ b) :
    exitW dat W c (Proc.devRef .tc b) = W c (Proc.devRef .tc b) :=
  Pipeline.withArrays_of_ne _ c _ _ b hb

/-- `b` is the array of no output window of `cfg`. -/
abbrev NotOut (cfg : Cfg sig Λ₀) (b : Ref sig .tc) : Prop := ∀ w, (cfg.win w).isOut = true → Pipeline.arrRef cfg.spec w ≠ b

/-- At an array of no output window the last contents are the first (`arrAt_in`), which `hA` reads off `W`. -/
theorem exitW_keep (hinj : Function.Injective (Pipeline.arrRef cfg.spec))
    (hA : ∀ w, (dat c).A w = W c (Proc.devRef .tc (Pipeline.arrRef cfg.spec w))) (b : Ref sig .tc) (hb : NotOut cfg b) :
    exitW dat W c (Proc.devRef .tc b) = W c (Proc.devRef .tc b) := by
  by_cases h : ∃ w, Pipeline.arrRef cfg.spec w = b
  · obtain ⟨w, rfl⟩ := h
    rw [exitW_arr dat W c hinj w, (dat c).arrAt_in w (Bool.eq_false_iff.mpr fun hw => hb w hw rfl), hA]
  · exact exitW_of_ne dat W c b fun w e => h ⟨w, e⟩

end Exit

abbrev tstate (c : Dev nD) (V : Valuation τ sig Val) : sProp (MT nD τ sig Unit Val ℕ (UR sig nD τ) ℕ) :=
  iprop(StableHlo.held (c : Thread nD τ) (Pipeline.ucRefs τ sig) V ∗ (∃ r, prngReg c r) ∗ ∃ W, owes (c : Thread nD τ) (0 : CellTallies nD τ sig Unit) W)

variable {P : Type} [Fintype P] (cfgs : P → Cfg sig Λ₀) (pdats : (p : P) → (c : Dev nD) → Dat τ Val Unit ℕ (UR sig nD τ) ℕ (cfgs p) c)
  (defs₀ : Defs nD τ sig Val Λ₀)

/-- One record for every region: they differ only in the index, the entry contents and the two invariant entailments. -/
def regOf {p : P} (Ui : Dev nD → Valuation τ sig Val) (lf : Pipeline.LaunchFacts (nD := nD) (τ := τ) cfgs p)
    (hb : ∀ c, BodyObligation (pdats p c) defs₀ Variants.none () Set.univ)
    (hA : ∀ c w, (pdats p c).A w = Ui c (Proc.devRef .tc (Pipeline.arrRef (cfgs p).spec w)))
    (hΦi : ∀ c, Pipeline.ΦA (cfgs p).spec c ⊢ (pdats p c).Φ 0)
    (hΦo : ∀ c, (pdats p c).Φ (Fin.last (cfgs p).N) ⊢ Pipeline.ΦA (cfgs p).spec c)
    (hq : ∀ c w, (pdats p c).q w = fullShare := by exact fun _ _ => rfl)
    (h0 : ∀ c t, (pdats p c).owed t = 0 := by exact fun _ _ => rfl)
    (hr : ∀ c x, x ∈ (pdats p c).recorded 0 := by exact fun _ _ => trivial) :
    Pipeline.RegionSeg (fun q => (cfgs q).toPCfg (Val := Val)) (fun q => (cfgs q).toPCfg_adm) pdats () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p h0
  pre c := tstate c (Ui c)
  post c := tstate c (exitW (pdats p) Ui c)
  X c := iprop(∃ r, prngReg c r)
  Y c := iprop(∃ r, prngReg c r)
  Z c := Pipeline.unscopedRest (Ix := Unit) (Name := ℕ) (U := UR sig nD τ) (Lvl := ℕ) (cfgs p).spec c fun b => Ui c b
  hentry c := by
    rw [Pipeline.ownSems0_none]; unfold Pipeline.Dat.owesAt Pipeline.owesWithin Pipeline.prefHeld
    rw [h0, show (Finset.univ : Finset (Fin 0)) = ∅ from rfl, BI.bigSep_empty]
    have hsplit := Pipeline.arrays_of_unscopedBufs (fun q => (cfgs q).toPCfg (Val := Val)) (fun q => (cfgs q).toPCfg_adm) pdats
      lf.win lf.arr_whole c ((pdats p c).share_full (hq c)) (fun b => Ui c b) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hr c x)
      iexact HO
    isplitl [Hp] <;> iassumption
  hin c := by
    refine .trans ?_ (hΦi c)
    unfold Pipeline.ΦA
    iintro ⟨Hp, -, Hr⟩; isplitl [Hr] <;> iassumption
  hout c := by
    refine (hΦo c).trans ?_
    rw [Pipeline.ownSems0_none]; unfold Pipeline.ΦA
    iintro ⟨Hr, Hp⟩; isplitl [Hp]; · iexact Hp
    isplitr; · iempintro
    iexact Hr
  hexit c := by
    have hjoin := Pipeline.unscopedBufs_of_arrays (fun q => (cfgs q).toPCfg (Val := Val)) (fun q => (cfgs q).toPCfg_adm) (Ix := Unit) (Name := ℕ) (U := UR sig nD τ) (Lvl := ℕ)
      lf.win lf.arr_whole c pdats ((pdats p c).share_full (hq c)) (fun b => Ui c b) (fun b => exitW (pdats p) Ui c b) _
      (fun w => (exitW_arr (pdats p) Ui c lf.win.arr_inj w).symm)
      (fun b hb => exitW_of_ne (pdats p) Ui c b fun w e => hb (Finset.mem_image.mpr ⟨w, Finset.mem_univ _, e⟩))
    rw [Pipeline.unscopedBufs_held] at hjoin
    unfold Pipeline.Dat.owesAt Pipeline.owesWithin; rw [h0]
    iintro ⟨Ha, ⟨%W, -, HO⟩, HY, Hrest⟩
    imodintro
    isplitl [Ha Hrest]
    · iapply hjoin; isplitl [Ha] <;> iassumption
    isplitl [HY]; · iexact HY
    iexists W; iexact HO

/-- A host stretch from the thread state at `W` to the one at `StableHlo.after ops (W c)`. -/
abbrev hostOf (ops : List (HloOp τ sig Val)) (hsub : ops.Forall fun op => op.bufs ⊆ StableHlo.tcRefs τ sig)
    (hfresh : ops.Forall fun op => op.fresh = ∅) (W : Dev nD → Valuation τ sig Val) :
    Pipeline.HostSeg (Ix := Unit) (Name := ℕ) (U := UR sig nD τ) (Lvl := ℕ) (fun q => (cfgs q).toPCfg (Val := Val)) defs₀ Variants.none (fun _ => ∅) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W
    fun c => iprop((∃ r, prngReg c r) ∗ ∃ W, owes (c : Thread nD τ) (0 : CellTallies nD τ sig Unit) W)

set_option backward.isDefEq.respectTransparency.types false in
/-- Segments that chain from the launch memory to `Wn` run to final states that hold `Wn`. -/
theorem run_segs [DecidableEq P] [∀ e, Nonempty (Val e)] (phinj : Function.Injective (Pipeline.cellOf (nD := nD) (τ := τ) cfgs))
    (m : (ℓ : Loc nD τ sig) → Buf Val ℓ) (ρ : Dev nD → PrngReg)
    (main : Dev nD → Prog (TpuEff nD τ sig Val (Pipeline.Sig Λ₀ P fun p => ((cfgs p).toPCfg (Val := Val)).Adm) .tc) PUnit)
    (segs : List (Pipeline.Seg (fun q => (cfgs q).toPCfg (Val := Val)) (fun q => (cfgs q).toPCfg_adm) pdats () defs₀ Variants.none (fun _ => ∅) (fun _ _ => 0)))
    (hmain : ∀ c, main c = Pipeline.Seg.run segs) (hnd : (Pipeline.Seg.pipes segs).Nodup) (Wn : Dev nD → Valuation τ sig Val)
    (hch : Pipeline.Seg.Chains (fun c => tstate c fun b => (s₀ m ρ).mem ((c : Dev nD), b)) segs fun c =>
      iprop((StableHlo.held (c : Thread nD τ) (Pipeline.ucRefs τ sig) (Wn c) ∗ ∃ r, prngReg c r) ∗ ∃ W, owes (c : Thread nD τ) (0 : CellTallies nD τ sig Unit) W)) :
    θ_run (Pipeline.defs (fun q => (cfgs q).toPCfg (Val := Val)) defs₀) (onTc (τ := τ) main) ⟨m, fun _ => 0, ρ⟩ (fun r => ∀ c : Dev nD,
      ∀ b ∈ Pipeline.ucRefs τ sig, r.2.mem ((c : Thread nD τ).1, b) = Wn c b) :=
  Pipeline.θ_run_regions_kit (fun q => (cfgs q).toPCfg (Val := Val)) (fun q => (cfgs q).toPCfg_adm) pdats () phinj emb₁ defs₀ Variants.none (fun _ => ∅) (fun _ _ => 0) m ρ main segs
    (fun c Q => by rw [hmain c])
    hnd
    (O₀ := 0) (hL := fun _ _ => rfl) (G := fun _ => iprop(emp))
    (u₀ := initOf (Pipeline.cells cfgs phinj) (Pipeline.launchToks cfgs phinj))
    (hu₀ := by
      iintro Hu; imodintro
      isplitl [Hu]
      · iapply (show (ownU (initOf (Pipeline.cells cfgs phinj) (Pipeline.launchToks cfgs phinj)) : sProp (MT nD τ sig Unit Val ℕ (UR sig nD τ) ℕ))
            ⊢ BI.own (emb₁ (initOf (Pipeline.cells cfgs phinj) (Pipeline.launchToks cfgs phinj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => tstate c fun b => (s₀ m ρ).mem ((c : Dev nD), b))
    (Tₙ := fun c => iprop(StableHlo.held (c : Thread nD τ) (Pipeline.ucRefs τ sig) (Wn c) ∗ ∃ r, prngReg c r))
    (hch := hch)
    (hinit := by
      refine Pipeline.initEach _ _ fun c => ?_
      rw [show unscopedBufs c (fun b => m ((c : Thread nD τ).loc b)) = StableHlo.held (c : Thread nD τ) (Pipeline.ucRefs τ sig) (fun b => (s₀ m ρ).mem ((c : Dev nD), b))
        from Pipeline.unscopedBufs_held c fun b => (s₀ m ρ).mem ((c : Dev nD), b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun _ h => h)

end Cert

end
-- ==== Proof.K.Run.lean ====
-- The whole kernel program on one core: the contents of its buffers at the ten boundaries between @main's five host stretches and four kernel regions, the run of the nine items from the launch memory to the last boundary, and the arguments unchanged.
import proofs.«404240_j51247549776505_4_alg».proof.Proof.Gen.Kernel.Launch
import proofs.«404240_j51247549776505_4_alg».proof.Proof.Gen.Kernel.Skeleton
import proofs.«404240_j51247549776505_4_alg».proof.Proof.Gen.Kernel.Points
import proofs.«404240_j51247549776505_4_alg».proof.Proof.K.Reg0
import proofs.«404240_j51247549776505_4_alg».proof.Proof.K.Reg1
import proofs.«404240_j51247549776505_4_alg».proof.Proof.K.Reg2
import proofs.«404240_j51247549776505_4_alg».proof.Proof.K.Reg3
import proofs.«404240_j51247549776505_4_alg».proof.Proof.LibRegionSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)

theorem writes_sub_of_mem {W : List (Ref sig .tc)} (y : Ref sig .tc) {S : Finset (DevRef τ sig)}
    (hS : S = {Proc.devRef (τ := τ) .tc y}) (hy : y ∈ W) : S ⊆ (W.map (Proc.devRef (τ := τ) .tc)).toFinset := by
  subst hS
  exact Finset.singleton_subset_iff.mpr (List.mem_toFinset.mpr (List.mem_map_of_mem hy))

theorem hostOps0_fresh : (hostOps0 : List (HloOp τ sig (Elt F))).Forall fun op => op.fresh = ∅ := by
  simp only [List.Forall]; repeat' constructor

abbrev hostOps0_W : List (Ref sig .tc) := [main_v0, main_v1]

theorem hostOps0_writes : (hostOps0 : List (HloOp τ sig (Elt F))).Forall fun op => op.writes ⊆ (hostOps0_W.map (Proc.devRef (τ := τ) .tc)).toFinset := by
  simp only [List.Forall]
  repeat' apply And.intro
  all_goals exact writes_sub_of_mem _ rfl (by decide)

set_option maxHeartbeats 4000000 in
theorem hostOps1_fresh : (hostOps1 : List (HloOp τ sig (Elt F))).Forall fun op => op.fresh = ∅ := by
  simp only [List.Forall]; repeat' constructor

abbrev hostOps1_W : List (Ref sig .tc) := [main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24, main_c_3, main_v25, main_v26, main_c_4, main_v27, main_v28, main_v29, main_v30, main_v31, main_c_5, main_v32, main_v33, main_c_6, main_v34, main_v35, main_v36, main_v37, main_v38, main_c_7, main_v39, main_v40, main_c_8, main_v41, main_v42, main_v43, main_v44, main_v45, main_c_9, main_v46, main_v47, main_c_10, main_v48, main_v49, main_v50, main_v51, main_v52, main_c_11, main_v53, main_v54, main_c_12, main_v55, main_v56, main_v57, main_v58, main_v59, main_c_13, main_v60, main_v61, main_c_14, main_v62, main_v63, main_v64, main_v65, main_v66, main_v67, main_v68]
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals exact writes_sub_of_mem _ rfl (by decide)

theorem hostOps2_fresh : (hostOps2 : List (HloOp τ sig (Elt F))).Forall fun op => op.fresh = ∅ := by
  simp only [List.Forall]; repeat' constructor

abbrev hostOps2_W : List (Ref sig .tc) := [main_v70, main_v71, main_cst, main_v72, main_v73, main_v74]

theorem hostOps2_writes : (hostOps2 : List (HloOp τ sig (Elt F))).Forall fun op => op.writes ⊆ (hostOps2_W.map (Proc.devRef (τ := τ) .tc)).toFinset := by
  simp only [List.Forall]
  repeat' apply And.intro
  all_goals exact writes_sub_of_mem _ rfl (by decide)

set_option maxHeartbeats 4000000 in
theorem hostOps3_fresh : (hostOps3 : List (HloOp τ sig (Elt F))).Forall fun op => op.fresh = ∅ := by
  simp only [List.Forall]; repeat' constructor

abbrev hostOps3_W : List (Ref sig .tc) := [main_v76, main_v77, main_cst_15, main_v78, main_v79, main_c_16, main_v80, main_v81, main_c_17, main_v82, main_v83, main_v84, main_v85, main_v86, main_c_18, main_v87, main_v88, main_c_19, main_v89, main_v90, main_v91, main_v92, main_v93, main_c_20, main_v94, main_v95, main_c_21, main_v96, main_v97, main_v98, main_v99, main_v100, main_c_22, main_v101, main_v102, main_c_23, main_v103, main_v104, main_v105, main_v106, main_v107, main_c_24, main_v108, main_v109, main_c_25, main_v110, main_v111, main_v112, main_v113, main_v114, main_c_26, main_v115, main_v116, main_c_27, main_v117, main_v118, main_v119, main_v120, main_v121, main_c_28, main_v122, main_v123, main_c_29, main_v124, main_v125, main_v126, main_v127, main_v128, main_c_30, main_v129, main_v130, main_c_31, main_v131, main_v132, main_v133, main_v134, main_v135, main_v136, main_v137, main_v138, main_v139, main_v140, main_v141, main_v142, main_v143, main_v144, main_v145, main_v146]
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals exact writes_sub_of_mem _ rfl (by decide)

theorem hostOps4_fresh : (hostOps4 : List (HloOp τ sig (Elt F))).Forall fun op => op.fresh = ∅ := by
  simp only [List.Forall]; repeat' constructor

abbrev hostOps4_W : List (Ref sig .tc) := [main_v148, main_v149, main_cst_32, main_v150, main_cst_33, main_v151, main_cst_34, main_v152, main_v153]

theorem hostOps4_writes : (hostOps4 : List (HloOp τ sig (Elt F))).Forall fun op => op.writes ⊆ (hostOps4_W.map (Proc.devRef (τ := τ) .tc)).toFinset := by
  simp only [List.Forall]
  repeat' apply And.intro
  all_goals exact writes_sub_of_mem _ rfl (by decide)

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

set_option backward.isDefEq.respectTransparency.types false in
-- the four regions as segments: each from its entry contents, with its body obligation and its invariant's two ends
def reg0 := Cert.regOf cfgs (pdats m ρ) (defs₀ (F := F)) (p := 0) (W1 m ρ) launch0 (body_obligation0 (V1 m ρ)) (fun _ _ => rfl) (fun _ => .rfl) (fun _ => .rfl)
set_option backward.isDefEq.respectTransparency.types false in
def reg1 := Cert.regOf cfgs (pdats m ρ) (defs₀ (F := F)) (p := 1) (W3 m ρ) launch1 (body_obligation1 (V3 m ρ)) (fun _ _ => rfl) (hin1 (V3 m ρ)) (hout1 (V3 m ρ))
set_option backward.isDefEq.respectTransparency.types false in
def reg2 := Cert.regOf cfgs (pdats m ρ) (defs₀ (F := F)) (p := 2) (W5 m ρ) launch2 (body_obligation2 (V5 m ρ)) (fun _ _ => rfl) (hin2 (V5 m ρ)) (hout2 (V5 m ρ))
set_option backward.isDefEq.respectTransparency.types false in
def reg3 := Cert.regOf cfgs (pdats m ρ) (defs₀ (F := F)) (p := 3) (W7 m ρ) launch3 (body_obligation3 (V7 m ρ)) (fun _ _ => rfl) (hin3 (V7 m ρ)) (hout3 (V7 m ρ))

abbrev segs : List (Pipeline.Seg (pcfgs (F := F)) adm (pdats m ρ) () defs₀ Variants.none (fun _ => ∅) (fun _ _ => 0)) :=
  [ .host (Cert.hostOf cfgs defs₀ hostOps0 hostOps0_sub hostOps0_fresh (W0 m ρ)),
    .region (reg0 m ρ),
    .host (Cert.hostOf cfgs defs₀ hostOps1 hostOps1_sub hostOps1_fresh (W2 m ρ)),
    .region (reg1 m ρ),
    .host (Cert.hostOf cfgs defs₀ hostOps2 hostOps2_sub hostOps2_fresh (W4 m ρ)),
    .region (reg2 m ρ),
    .host (Cert.hostOf cfgs defs₀ hostOps3 hostOps3_sub hostOps3_fresh (W6 m ρ)),
    .region (reg3 m ρ),
    .host (Cert.hostOf cfgs defs₀ hostOps4 hostOps4_sub hostOps4_fresh (W8 m ρ)) ]

theorem main_run (c : Dev nD) : main (F := F) c = Pipeline.Seg.run (segs m ρ) := (main_chain c).trans (by chain_rfl)

theorem hlast (c : Dev nD) : (iprop(StableHlo.held (c : Thread nD τ) (Pipeline.ucRefs τ sig) (W9 m ρ c) ∗ (∃ r, prngReg c r) ∗ ∃ W, owes (c : Thread nD τ) (0 : CellTallies nD τ sig Unit) W) : sProp 𝕄)
    ⊢ iprop((StableHlo.held (c : Thread nD τ) (Pipeline.ucRefs τ sig) (W9 m ρ c) ∗ ∃ r, prngReg c r) ∗ ∃ W, owes (c : Thread nD τ) (0 : CellTallies nD τ sig Unit) W) := by
  iintro ⟨Hh, Hp, HO⟩
  isplitr [HO]
  · isplitl [Hh] <;> iassumption
  iexact HO

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Cert.run_segs cfgs (pdats m ρ) defs₀ cellOf_inj m ρ main (segs m ρ) (main_run m ρ)
    (by simp only [segs, Pipeline.Seg.pipes_host, Pipeline.Seg.pipes_region, Pipeline.Seg.pipes_nil]; decide) (W9 m ρ)
    ⟨fun _ => .rfl, fun _ => .rfl, fun _ => .rfl, fun _ => .rfl, fun _ => .rfl, fun _ => .rfl, fun _ => .rfl,
      fun _ => .rfl, fun _ => .rfl, fun c => hlast m ρ c⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev mainArgs : List (Ref sig .tc) :=
  [main_arg0, main_arg1, main_arg2, main_arg3, main_arg4, main_arg5, main_arg6, main_arg7, main_arg8, main_arg9, main_arg10]

-- no item of @main writes an argument: region 0 only reads it, the later regions' arrays and every stretch's write list miss it
theorem W9_arg (c : Dev nD) (b : Ref sig .tc) (hb : b ∈ mainArgs) :
    W9 m ρ c (Proc.devRef .tc b) = m ((c : Thread nD τ).loc b) := by
  have h2 : W2 m ρ c (Proc.devRef .tc b) = W1 m ρ c (Proc.devRef .tc b) := by
    by_cases h : ∃ w, Pipeline.arrRef spec0 w = b
    · obtain ⟨w, rfl⟩ := h
      exact (W2_arr m ρ c w).trans (((dat0 (V1 m ρ) c).arrAt_in w
        ((by decide : ∀ w : Fin cfg0.W, Pipeline.arrRef spec0 w ∈ mainArgs → (cfg0.win w).isOut = false) w hb) _).trans (A_eq0 (V1 m ρ) c w))
    · exact W2_of_ne m ρ c b fun w e => h ⟨w, e⟩
  calc W9 m ρ c (Proc.devRef .tc b)
    _ = W8 m ρ c (Proc.devRef .tc b) := W9_of m ρ c b ((by decide : ∀ b ∈ mainArgs, b ∉ hostOps4_W) b hb)
    _ = W7 m ρ c (Proc.devRef .tc b) := W8_of_ne m ρ c b ((by decide : ∀ b ∈ mainArgs, ∀ w, Pipeline.arrRef spec3 w ≠ b) b hb)
    _ = W6 m ρ c (Proc.devRef .tc b) := W7_of m ρ c b ((by decide : ∀ b ∈ mainArgs, b ∉ hostOps3_W) b hb)
    _ = W5 m ρ c (Proc.devRef .tc b) := W6_of_ne m ρ c b ((by decide : ∀ b ∈ mainArgs, ∀ w, Pipeline.arrRef spec2 w ≠ b) b hb)
    _ = W4 m ρ c (Proc.devRef .tc b) := W5_of m ρ c b ((by decide : ∀ b ∈ mainArgs, b ∉ hostOps2_W) b hb)
    _ = W3 m ρ c (Proc.devRef .tc b) := W4_of_ne m ρ c b ((by decide : ∀ b ∈ mainArgs, ∀ w, Pipeline.arrRef spec1 w ≠ b) b hb)
    _ = W2 m ρ c (Proc.devRef .tc b) := W3_of m ρ c b ((by decide : ∀ b ∈ mainArgs, b ∉ hostOps1_W) b hb)
    _ = W1 m ρ c (Proc.devRef .tc b) := h2
    _ = W0 m ρ c (Proc.devRef .tc b) := W1_of m ρ c b ((by decide : ∀ b ∈ mainArgs, b ∉ hostOps0_W) b hb)
    _ = m ((c : Thread nD τ).loc b) := rfl

-- every run ends with each unscoped buffer at the last boundary's contents, and so with the arguments as launched
theorem run_post : θ_run defs (onTc (τ := τ) (main (F := F))) ⟨m, fun _ => 0, ρ⟩ (fun r => ∀ c : Dev nD,
    (∀ b : Ref sig .tc, ¬ (Proc.devRef .tc b : DevRef τ sig).isScoped → r.2.mem ((c : Thread nD τ).loc b) = W9 m ρ c (Proc.devRef .tc b))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) :=
  (θ_run defs _ _).mono (fun r h c =>
    have k (b : Ref sig .tc) (hb : b ∈ mainArgs) : r.2.mem ((c : Thread nD τ).loc b) = m ((c : Thread nD τ).loc b) :=
      (h c _ (mem_uc b ((by decide : ∀ b ∈ mainArgs, ¬ (Proc.devRef .tc b : DevRef τ sig).isScoped) b hb))).trans (W9_arg m ρ c b hb)
    ⟨fun b hb => h c _ (mem_uc b hb), k main_arg0 (by decide), k main_arg1 (by decide), k main_arg2 (by decide), k main_arg3 (by decide), k main_arg4 (by decide), k main_arg5 (by decide),
      k main_arg6 (by decide), k main_arg7 (by decide), k main_arg8 (by decide), k main_arg9 (by decide), k main_arg10 (by decide)⟩) (run_all m ρ)

end Cert.Kernel.Hand

end
-- ==== Proof.KI.Reg0.lean ====
import proofs.«404240_j51247549776505_4_alg».proof.Proof.Gen.KernelIdeal.Launch
import proofs.«404240_j51247549776505_4_alg».proof.Proof.Gen.KernelIdeal.Skeleton
import proofs.«404240_j51247549776505_4_alg».proof.Proof.Gen.KernelIdeal.Points
import proofs.«404240_j51247549776505_4_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (c : Dev nD) (t : Fin cfg0.N) : Vec F S2000x128 .f32 := k0_pay1 (iblk0 V c 0 t) (iblk0 V c 1 t) (iblk0 V c 2 t)
def out0_6 (c : Dev nD) (t : Fin cfg0.N) : Vec F S2000x128 .bf16 := k0_pay2 (iblk0 V c 0 t) (iblk0 V c 1 t) (iblk0 V c 2 t)
def out0_7 (c : Dev nD) (t : Fin cfg0.N) : Vec F S2000x3 .f32 := k0_pay3 (iblk0 V c 0 t) (iblk0 V c 1 t) (iblk0 V c 2 t) (iblk0 V c 3 t)
def out0_8 (c : Dev nD) (t : Fin cfg0.N) : Vec F S2000x3 .f32 := k0_pay4 (iblk0 V c 0 t) (iblk0 V c 1 t) (iblk0 V c 2 t) (iblk0 V c 4 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
    | ⟨8, _⟩ => out0_8 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
theorem after0_8 (c : Dev nD) (t : Fin cfg0.N) : (dat0 V c).after 8 t = out0_8 V c t := by dsimp only [dat0]

theorem before0_0 (c : Dev nD) (t : Fin cfg0.N) (d) : (dat0 V c).before 0 t d = iblk0 V c 0 t :=
  (dat0 V c).before_fetched 0 t (fetch0_0 t) d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

set_option maxHeartbeats 1000000 in
theorem sound_kernel0 (c : Dev nD) (t : Fin cfg0.N)
    (x0 : Vec F S2000x512 .f32) (x1 : Vec F S512x128 .f32) (x2 : Vec F S128 .f32) (x3 : Vec F S128x3 .f32) (x4 : Vec F S128x3 .f32)
    (E : Set ℕ) (K : PUnit → sProp 𝕄) :
    iprop(owns (c : Thread nD τ) (st0_0 t) fullShare x0 ∗ owns (c : Thread nD τ) (st0_1 t) fullShare x1 ∗ owns (c : Thread nD τ) (st0_2 t) fullShare x2
        ∗ owns (c : Thread nD τ) (st0_3 t) fullShare x3 ∗ owns (c : Thread nD τ) (st0_4 t) fullShare x4
        ∗ (∃ d, owns (c : Thread nD τ) (st0_5 t) fullShare d) ∗ (∃ d, owns (c : Thread nD τ) (st0_6 t) fullShare d)
        ∗ (∃ d, owns (c : Thread nD τ) (st0_7 t) fullShare d) ∗ (∃ d, owns (c : Thread nD τ) (st0_8 t) fullShare d)
        ∗ (iprop(owns (c : Thread nD τ) (st0_0 t) fullShare x0 ∗ owns (c : Thread nD τ) (st0_1 t) fullShare x1 ∗ owns (c : Thread nD τ) (st0_2 t) fullShare x2
            ∗ owns (c : Thread nD τ) (st0_3 t) fullShare x3 ∗ owns (c : Thread nD τ) (st0_4 t) fullShare x4
            ∗ owns (c : Thread nD τ) (st0_5 t) fullShare (k0_pay1 x0 x1 x2) ∗ owns (c : Thread nD τ) (st0_6 t) fullShare (k0_pay2 x0 x1 x2)
            ∗ owns (c : Thread nD τ) (st0_7 t) fullShare (k0_pay3 x0 x1 x2 x3) ∗ owns (c : Thread nD τ) (st0_8 t) fullShare (k0_pay4 x0 x1 x2 x4)) -∗ K ⟨⟩))
      ⊢ wp frame (wpE (defs₀ (F := F)) Variants.none c none) E (bodyAt0 t) K := by
  unfold bodyAt0
  simp only [cc0__z_proj_kernel_eq_skeleton]; unfold cc0__z_proj_kernel_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf1 hf2 hf3 hf4 hf5
  sl_exec
  sl_step
  sl_unfold_words
  simp only [load_whole (S := S2000x512) _ _ offs2_zero, load_whole (S := S512x128) _ _ offs2_zero, load_whole (S := S128) _ _ offs1_zero,
    load_whole (S := S128x3) _ _ offs2_zero]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact read_stored_whole (S := S2000x128) _ _ offs2_zero _ _ _
  isplitl [H7]
  · iexists _; isplitr
    swap; · iexact H7
    ipureintro; exact read_stored_whole (S := S2000x128) _ _ offs2_zero _ _ _
  isplitl [H8]
  · iexists _; isplitr
    swap; · iexact H8
    ipureintro; exact read_stored_whole (S := S2000x3) _ _ offs2_zero _ _ _
  iexists _; isplitr
  swap; · iexact H9
  ipureintro; exact read_stored_whole (S := S2000x3) _ _ offs2_zero _ _ _

theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_5, after0_6, after0_7, after0_8]
  unfold out0_5 out0_6 out0_7 out0_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c t (iblk0 V c 0 t) (iblk0 V c 1 t) (iblk0 V c 2 t) (iblk0 V c 3 t) (iblk0 V c 4 t) Set.univ _)
  iframe H0 H1 H2 H3 H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  iframe HΦ Ho H5 H6 H7 H8
  isplitl [H0]; · iexact H0
  isplitl [H1]; · iexact H1
  isplitl [H2]; · iexact H2
  isplitl [H3]; · iexact H3
  iexact H4

end Cert.KernelIdeal.Hand

end
-- ==== Proof.KI.Reg1.lean ====
import proofs.«404240_j51247549776505_4_alg».proof.Proof.Gen.KernelIdeal.Launch
import proofs.«404240_j51247549776505_4_alg».proof.Proof.Gen.KernelIdeal.Skeleton
import proofs.«404240_j51247549776505_4_alg».proof.Proof.Gen.KernelIdeal.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1x1 .f32 := Memref.whole cc1_scratch0

def part1 (c : Dev nD) (t : Fin cfg1.N) : Vec F S1x1 .f32 := k1_pay4 (iblk1 V c 0 t) (iblk1 V c 1 t) (iblk1 V c 2 t) (iblk1 V c 3 t)

def acc1 (c : Dev nD) : (n : ℕ) → n < cfg1.N → Vec F S1x1 .f32
  | 0, hn => k1_pay1 (part1 V c ⟨0, hn⟩)
  | n + 1, hn =>
    if (n + 1) % 10 = 0 then k1_pay1 (part1 V c ⟨n + 1, hn⟩)
    else k1_pay2 (part1 V c ⟨n + 1, hn⟩) (acc1 c n (Nat.lt_of_succ_lt hn))

theorem acc1_first (c : Dev nD) (t : Fin cfg1.N) (h : t.val % 10 = 0) :
    acc1 V c t.val t.isLt = k1_pay1 (part1 V c t) := by
  obtain ⟨n, hn⟩ := t
  cases n with
  | zero => rfl
  | succ n => exact if_pos h

theorem acc1_next (c : Dev nD) (t : Fin cfg1.N) (h : t.val % 10 ≠ 0) :
    acc1 V c t.val t.isLt = k1_pay2 (part1 V c t) (acc1 V c (t.val - 1) (Nat.lt_of_le_of_lt (Nat.sub_le _ _) t.isLt)) := by
  obtain ⟨n, hn⟩ := t
  cases n with
  | zero => exact absurd (Nat.zero_mod _) h
  | succ n => exact if_neg h

def out1 (c : Dev nD) (t : Fin cfg1.N) : Vec F S1x8x128 .f32 := k1_pay3 (acc1 V c t.val t.isLt)

def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem after1_4 (c : Dev nD) (t : Fin cfg1.N) : (dat1 V c).after 4 t = out1 V c t := by dsimp only [dat1]

theorem PhiA1_eq (c : Dev nD) :
    (Pipeline.ΦA spec1 c : sProp 𝕄)
      = iprop(iprop(iprop(∃ d, owns (c : Thread nD τ) scM1 fullShare d) ∗ Pipeline.scopedRestBut spec1 c [cc1_scratch0]) ∗ (∃ r, prngReg c r)) := by
  unfold Pipeline.ΦA; rw [scopedRest1_split]; simp only [scM1, owns_whole]; try rfl

-- the cell is owned before every point, after the first at what the point before left
theorem Phi1_open (c : Dev nD) (n : ℕ) (h : n ≤ cfg1.N) :
    Phi1 V c n h ⊢ iprop(∃ d, ⌜∀ hz : n ≠ 0, d = acc1 V c (n - 1) (by omega)⌝ ∗ owns (c : Thread nD τ) scM1 fullShare d
      ∗ Pipeline.scopedRestBut spec1 c [cc1_scratch0] ∗ (∃ r, prngReg c r)) := by
  cases n with
  | zero =>
    unfold Phi1; rw [PhiA1_eq]
    iintro ⟨⟨⟨%d, HS⟩, HR⟩, Hg⟩
    iexists d; isplitr; · ipureintro; exact fun hz => absurd rfl hz
    iframe
  | succ n =>
    unfold Phi1
    iintro ⟨HS, HR, Hg⟩
    iexists (acc1 V c n h); isplitr; · ipureintro; exact fun _ => rfl
    iframe

abbrev isLater1 (i : grid1.Coords) : Prop :=
  (Scalar.cmpi .ne (Scalar.extui (Scalar.cmpi .ne (BitVec.ofNat 32 (i 1).val) 0#32)) 0#32) = 1#1
abbrev isLast1 (i : grid1.Coords) : Prop := k1_cond3 i = 1#1

theorem isLater1_iff : ∀ t : Fin cfg1.N, isLater1 (grid1.coords t) ↔ t.val % 10 ≠ 0 :=
  (by decide +kernel : ∀ t : Fin grid1.N, isLater1 (grid1.coords t) ↔ t.val % 10 ≠ 0)
theorem isLast1_iff : ∀ t : Fin cfg1.N, isLast1 (grid1.coords t) ↔ t.val % 10 = 9 :=
  (by decide +kernel : ∀ t : Fin grid1.N, isLast1 (grid1.coords t) ↔ t.val % 10 = 9)

-- what the cell holds after a step that found `xs` in it
def new1 (i : grid1.Coords) (p xs : Vec F S1x1 .f32) : Vec F S1x1 .f32 := if isLater1 i then k1_pay2 p xs else k1_pay1 p

theorem acc1_step (c : Dev nD) (t : Fin cfg1.N) (xs : Vec F S1x1 .f32) (h : ∀ hz : t.val ≠ 0, xs = acc1 V c (t.val - 1) (by omega)) :
    acc1 V c t.val t.isLt = new1 (grid1.coords t) (part1 V c t) xs := by
  unfold new1
  by_cases hf : t.val % 10 = 0
  · rw [acc1_first V c t hf, if_neg fun hl => (isLater1_iff t).mp hl hf]
  · rw [acc1_next V c t hf, if_pos ((isLater1_iff t).mpr hf), h fun e => hf (by rw [e])]

set_option maxHeartbeats 1000000 in
-- the inputs are only read; the cell's one store and, at a run's last step, the block's one store cover them whole
theorem run1 (c : Dev nD) (t : Fin cfg1.N)
    (x0 : Vec F S5000x128 .bf16) (x1 : Vec F S5000x128 .bf16) (x2 : Vec F S5000x1 .f32) (x3 : Vec F S5000x1 .f32)
    (xo : Vec F S1x8x128 .f32) (xs : Vec F S1x1 .f32) (E : Set ℕ) (K : PUnit → sProp 𝕄) :
    iprop(owns (c : Thread nD τ) (st1_0 t) fullShare x0 ∗ owns (c : Thread nD τ) (st1_1 t) fullShare x1
        ∗ owns (c : Thread nD τ) (st1_2 t) fullShare x2 ∗ owns (c : Thread nD τ) (st1_3 t) fullShare x3
        ∗ owns (c : Thread nD τ) (st1_4 t) fullShare xo ∗ owns (c : Thread nD τ) scM1 fullShare xs
        ∗ (iprop(owns (c : Thread nD τ) (st1_0 t) fullShare x0 ∗ owns (c : Thread nD τ) (st1_1 t) fullShare x1
            ∗ owns (c : Thread nD τ) (st1_2 t) fullShare x2 ∗ owns (c : Thread nD τ) (st1_3 t) fullShare x3
            ∗ owns (c : Thread nD τ) (st1_4 t) fullShare
              (if isLast1 (grid1.coords t) then k1_pay3 (new1 (grid1.coords t) (k1_pay4 x0 x1 x2 x3) xs) else xo)
            ∗ owns (c : Thread nD τ) scM1 fullShare (new1 (grid1.coords t) (k1_pay4 x0 x1 x2 x3) xs)) -∗ K ⟨⟩))
      ⊢ wp frame (wpE (defs₀ (F := F)) Variants.none c none) E (bodyAt1 t) K := by
  unfold bodyAt1
  simp only [cc1__mse_kernel_eq_skeleton]; unfold cc1__mse_kernel_skel owns new1
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0 hf1 hf2 hf3 hfo hfs
  by_cases h1 : isLater1 (grid1.coords t) <;> by_cases h2 : isLast1 (grid1.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S5000x128) offs2_zero, View.ld_unit_zero (S := S5000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d
theorem before1_2 (c : Dev nD) (t : Fin cfg1.N) (d) : (dat1 V c).before 2 t d = iblk1 V c 2 t :=
  (dat1 V c).before_fetched 2 t (fetch1_2 t) d
theorem before1_3 (c : Dev nD) (t : Fin cfg1.N) (d) : (dat1 V c).before 3 t d = iblk1 V c 3 t :=
  (dat1 V c).before_fetched 3 t (fetch1_3 t) d

-- the invariant holds the cell at the running sum; off a run's last step the block's contents do not change
theorem body_obligation1 (c : Dev nD) : BodyObligation (dat1 (F := F) V c) (defs₀ (F := F)) Variants.none () Set.univ := fun t => by
  rw [bigSep_W1, bigSep_W1]
  change _ ⊢ wp _ _ _ (bodyAt1 t) _
  unfold bodyAt1
  simp only [before1_0, before1_1, before1_2, before1_3, idle1, after1_4]
  unfold out1
  rw [show (dat1 V c).owesAt () t.succ = (dat1 V c).owesAt () t.castSucc from rfl,
    show (dat1 V c).Φ t.succ = iprop(owns (c : Thread nD τ) scM1 fullShare (acc1 V c t.val t.isLt)
      ∗ Pipeline.scopedRestBut spec1 c [cc1_scratch0] ∗ (∃ r, prngReg c r)) from rfl,
    show (dat1 V c).Φ t.castSucc = Phi1 V c t.val (Nat.le_of_lt t.isLt) from rfl]
  iintro ⟨HΦ, Ho, ⟨%d0, H0⟩, ⟨%d1, H1⟩, ⟨%d2, H2⟩, ⟨%d3, H3⟩, ⟨%d4, H4⟩⟩
  icases (Phi1_open V c _ _) $$ HΦ with ⟨%xs, %hxs, HS, HR, Hg⟩
  iapply (run1 c t (iblk1 V c 0 t) (iblk1 V c 1 t) (iblk1 V c 2 t) (iblk1 V c 3 t)
    ((dat1 V c).before 4 t d4) xs Set.univ _)
  iframe H0 H1 H2 H3 H4 HS
  iintro ⟨H0, H1, H2, H3, H4, HS⟩
  rw [acc1_step V c t xs hxs]; unfold part1
  iframe HS HR Hg Ho
  isplitl [H0]; · iexact H0
  isplitl [H1]; · iexact H1
  isplitl [H2]; · iexact H2
  isplitl [H3]; · iexact H3
  by_cases h2 : isLast1 (grid1.coords t)
  · simp only [beq_iff_eq.mpr h2, Bool.not_true]
    rw [if_pos h2]
    iexact H4
  · simp only [beq_eq_false_iff_ne.mpr h2, Bool.not_false, Bool.eq_false_iff.mpr fun h => h2 ((isLast1_iff t).mpr ((flush1_4 t).mp h))]
    rw [if_neg h2]
    iexists _; iexact H4

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [PhiA1_eq]
  refine (Phi1_open V c _ (Nat.le_of_lt_succ (Fin.last cfg1.N).isLt)).trans ?_
  iintro ⟨%d, -, HS, HR, Hg⟩
  iframe HR Hg
  iexists _; iexact HS

end Cert.KernelIdeal.Hand

end
-- ==== Proof.KI.Reg2.lean ====
import proofs.«404240_j51247549776505_4_alg».proof.Proof.Gen.KernelIdeal.Launch
import proofs.«404240_j51247549776505_4_alg».proof.Proof.Gen.KernelIdeal.Skeleton
import proofs.«404240_j51247549776505_4_alg».proof.Proof.Gen.KernelIdeal.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1x1 .f32 := Memref.whole cc2_scratch0

def part2 (c : Dev nD) (t : Fin cfg2.N) : Vec F S1x1 .f32 := k2_pay4 (iblk2 V c 0 t) (iblk2 V c 1 t) (iblk2 V c 2 t) (iblk2 V c 3 t)

def acc2 (c : Dev nD) : (n : ℕ) → n < cfg2.N → Vec F S1x1 .f32
  | 0, hn => k2_pay1 (part2 V c ⟨0, hn⟩)
  | n + 1, hn =>
    if (n + 1) % 10 = 0 then k2_pay1 (part2 V c ⟨n + 1, hn⟩)
    else k2_pay2 (part2 V c ⟨n + 1, hn⟩) (acc2 c n (Nat.lt_of_succ_lt hn))

theorem acc2_first (c : Dev nD) (t : Fin cfg2.N) (h : t.val % 10 = 0) :
    acc2 V c t.val t.isLt = k2_pay1 (part2 V c t) := by
  obtain ⟨n, hn⟩ := t
  cases n with
  | zero => rfl
  | succ n => exact if_pos h

theorem acc2_next (c : Dev nD) (t : Fin cfg2.N) (h : t.val % 10 ≠ 0) :
    acc2 V c t.val t.isLt = k2_pay2 (part2 V c t) (acc2 V c (t.val - 1) (Nat.lt_of_le_of_lt (Nat.sub_le _ _) t.isLt)) := by
  obtain ⟨n, hn⟩ := t
  cases n with
  | zero => exact absurd (Nat.zero_mod _) h
  | succ n => exact if_neg h

def out2 (c : Dev nD) (t : Fin cfg2.N) : Vec F S1x8x128 .f32 := k2_pay3 (acc2 V c t.val t.isLt)

def Phi2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut spec2 c [cc2_scratch0] ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val (Nat.le_of_lt_succ t.isLt)
  q _ := fullShare
  owed _ := 0

theorem after2_4 (c : Dev nD) (t : Fin cfg2.N) : (dat2 V c).after 4 t = out2 V c t := by dsimp only [dat2]

theorem PhiA2_eq (c : Dev nD) :
    (Pipeline.ΦA spec2 c : sProp 𝕄)
      = iprop(iprop(iprop(∃ d, owns (c : Thread nD τ) scM2 fullShare d) ∗ Pipeline.scopedRestBut spec2 c [cc2_scratch0]) ∗ (∃ r, prngReg c r)) := by
  unfold Pipeline.ΦA; rw [scopedRest2_split]; simp only [scM2, owns_whole]; try rfl

-- the cell is owned before every point, after the first at what the point before left
theorem Phi2_open (c : Dev nD) (n : ℕ) (h : n ≤ cfg2.N) :
    Phi2 V c n h ⊢ iprop(∃ d, ⌜∀ hz : n ≠ 0, d = acc2 V c (n - 1) (by omega)⌝ ∗ owns (c : Thread nD τ) scM2 fullShare d
      ∗ Pipeline.scopedRestBut spec2 c [cc2_scratch0] ∗ (∃ r, prngReg c r)) := by
  cases n with
  | zero =>
    unfold Phi2; rw [PhiA2_eq]
    iintro ⟨⟨⟨%d, HS⟩, HR⟩, Hg⟩
    iexists d; isplitr; · ipureintro; exact fun hz => absurd rfl hz
    iframe
  | succ n =>
    unfold Phi2
    iintro ⟨HS, HR, Hg⟩
    iexists (acc2 V c n h); isplitr; · ipureintro; exact fun _ => rfl
    iframe

abbrev isLater2 (i : grid2.Coords) : Prop :=
  (Scalar.cmpi .ne (Scalar.extui (Scalar.cmpi .ne (BitVec.ofNat 32 (i 1).val) 0#32)) 0#32) = 1#1
abbrev isLast2 (i : grid2.Coords) : Prop := k2_cond3 i = 1#1

theorem isLater2_iff : ∀ t : Fin cfg2.N, isLater2 (grid2.coords t) ↔ t.val % 10 ≠ 0 :=
  (by decide +kernel : ∀ t : Fin grid2.N, isLater2 (grid2.coords t) ↔ t.val % 10 ≠ 0)
theorem isLast2_iff : ∀ t : Fin cfg2.N, isLast2 (grid2.coords t) ↔ t.val % 10 = 9 :=
  (by decide +kernel : ∀ t : Fin grid2.N, isLast2 (grid2.coords t) ↔ t.val % 10 = 9)

-- what the cell holds after a step that found `xs` in it
def new2 (i : grid2.Coords) (p xs : Vec F S1x1 .f32) : Vec F S1x1 .f32 := if isLater2 i then k2_pay2 p xs else k2_pay1 p

theorem acc2_step (c : Dev nD) (t : Fin cfg2.N) (xs : Vec F S1x1 .f32) (h : ∀ hz : t.val ≠ 0, xs = acc2 V c (t.val - 1) (by omega)) :
    acc2 V c t.val t.isLt = new2 (grid2.coords t) (part2 V c t) xs := by
  unfold new2
  by_cases hf : t.val % 10 = 0
  · rw [acc2_first V c t hf, if_neg fun hl => (isLater2_iff t).mp hl hf]
  · rw [acc2_next V c t hf, if_pos ((isLater2_iff t).mpr hf), h fun e => hf (by rw [e])]

set_option maxHeartbeats 1000000 in
-- the inputs are only read; the cell's one store and, at a run's last step, the block's one store cover them whole
theorem run2 (c : Dev nD) (t : Fin cfg2.N)
    (x0 : Vec F S5000x128 .bf16) (x1 : Vec F S5000x128 .bf16) (x2 : Vec F S5000x1 .f32) (x3 : Vec F S5000x1 .f32)
    (xo : Vec F S1x8x128 .f32) (xs : Vec F S1x1 .f32) (E : Set ℕ) (K : PUnit → sProp 𝕄) :
    iprop(owns (c : Thread nD τ) (st2_0 t) fullShare x0 ∗ owns (c : Thread nD τ) (st2_1 t) fullShare x1
        ∗ owns (c : Thread nD τ) (st2_2 t) fullShare x2 ∗ owns (c : Thread nD τ) (st2_3 t) fullShare x3
        ∗ owns (c : Thread nD τ) (st2_4 t) fullShare xo ∗ owns (c : Thread nD τ) scM2 fullShare xs
        ∗ (iprop(owns (c : Thread nD τ) (st2_0 t) fullShare x0 ∗ owns (c : Thread nD τ) (st2_1 t) fullShare x1
            ∗ owns (c : Thread nD τ) (st2_2 t) fullShare x2 ∗ owns (c : Thread nD τ) (st2_3 t) fullShare x3
            ∗ owns (c : Thread nD τ) (st2_4 t) fullShare
              (if isLast2 (grid2.coords t) then k2_pay3 (new2 (grid2.coords t) (k2_pay4 x0 x1 x2 x3) xs) else xo)
            ∗ owns (c : Thread nD τ) scM2 fullShare (new2 (grid2.coords t) (k2_pay4 x0 x1 x2 x3) xs)) -∗ K ⟨⟩))
      ⊢ wp frame (wpE (defs₀ (F := F)) Variants.none c none) E (bodyAt2 t) K := by
  unfold bodyAt2
  simp only [cc2__mse_kernel_eq_skeleton]; unfold cc2__mse_kernel_skel owns new2
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0 hf1 hf2 hf3 hfo hfs
  by_cases h1 : isLater2 (grid2.coords t) <;> by_cases h2 : isLast2 (grid2.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S5000x128) offs2_zero, View.ld_unit_zero (S := S5000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before2_0 (c : Dev nD) (t : Fin cfg2.N) (d) : (dat2 V c).before 0 t d = iblk2 V c 0 t :=
  (dat2 V c).before_fetched 0 t (fetch2_0 t) d
theorem before2_1 (c : Dev nD) (t : Fin cfg2.N) (d) : (dat2 V c).before 1 t d = iblk2 V c 1 t :=
  (dat2 V c).before_fetched 1 t (fetch2_1 t) d
theorem before2_2 (c : Dev nD) (t : Fin cfg2.N) (d) : (dat2 V c).before 2 t d = iblk2 V c 2 t :=
  (dat2 V c).before_fetched 2 t (fetch2_2 t) d
theorem before2_3 (c : Dev nD) (t : Fin cfg2.N) (d) : (dat2 V c).before 3 t d = iblk2 V c 3 t :=
  (dat2 V c).before_fetched 3 t (fetch2_3 t) d

-- the invariant holds the cell at the running sum; off a run's last step the block's contents do not change
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  simp only [before2_0, before2_1, before2_2, before2_3, idle2, after2_4]
  unfold out2
  rw [show (dat2 V c).owesAt () t.succ = (dat2 V c).owesAt () t.castSucc from rfl,
    show (dat2 V c).Φ t.succ = iprop(owns (c : Thread nD τ) scM2 fullShare (acc2 V c t.val t.isLt)
      ∗ Pipeline.scopedRestBut spec2 c [cc2_scratch0] ∗ (∃ r, prngReg c r)) from rfl,
    show (dat2 V c).Φ t.castSucc = Phi2 V c t.val (Nat.le_of_lt t.isLt) from rfl]
  iintro ⟨HΦ, Ho, ⟨%d0, H0⟩, ⟨%d1, H1⟩, ⟨%d2, H2⟩, ⟨%d3, H3⟩, ⟨%d4, H4⟩⟩
  icases (Phi2_open V c _ _) $$ HΦ with ⟨%xs, %hxs, HS, HR, Hg⟩
  iapply (run2 c t (iblk2 V c 0 t) (iblk2 V c 1 t) (iblk2 V c 2 t) (iblk2 V c 3 t)
    ((dat2 V c).before 4 t d4) xs Set.univ _)
  iframe H0 H1 H2 H3 H4 HS
  iintro ⟨H0, H1, H2, H3, H4, HS⟩
  rw [acc2_step V c t xs hxs]; unfold part2
  iframe HS HR Hg Ho
  isplitl [H0]; · iexact H0
  isplitl [H1]; · iexact H1
  isplitl [H2]; · iexact H2
  isplitl [H3]; · iexact H3
  by_cases h2 : isLast2 (grid2.coords t)
  · simp only [beq_iff_eq.mpr h2, Bool.not_true]
    rw [if_pos h2]
    iexact H4
  · simp only [beq_eq_false_iff_ne.mpr h2, Bool.not_false, Bool.eq_false_iff.mpr fun h => h2 ((isLast2_iff t).mpr ((flush2_4 t).mp h))]
    rw [if_neg h2]
    iexists _; iexact H4

theorem hin2 (c : Dev nD) : Pipeline.ΦA spec2 c ⊢ (dat2 V c).Φ 0 := Entails.refl _

theorem hout2 (c : Dev nD) : (dat2 V c).Φ (Fin.last cfg2.N) ⊢ Pipeline.ΦA spec2 c := by
  rw [PhiA2_eq]
  refine (Phi2_open V c _ (Nat.le_of_lt_succ (Fin.last cfg2.N).isLt)).trans ?_
  iintro ⟨%d, -, HS, HR, Hg⟩
  iframe HR Hg
  iexists _; iexact HS

end Cert.KernelIdeal.Hand

end
-- ==== Proof.KI.Reg3.lean ====
import proofs.«404240_j51247549776505_4_alg».proof.Proof.Gen.KernelIdeal.Launch
import proofs.«404240_j51247549776505_4_alg».proof.Proof.Gen.KernelIdeal.Skeleton
import proofs.«404240_j51247549776505_4_alg».proof.Proof.Gen.KernelIdeal.Points
import proofs.«404240_j51247549776505_4_alg».proof.Proof.LibBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibBody

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S1x1 .f32 := Memref.whole cc3_scratch0

def acc3 (c : Dev nD) : (n : ℕ) → n < cfg3.N → Vec F S1x1 .f32
  | 0, hn => k3_pay2 (iblk3 V c 0 ⟨0, hn⟩) (iblk3 V c 1 ⟨0, hn⟩)
  | n + 1, hn =>
    if (n + 1) % 30 = 0 then k3_pay2 (iblk3 V c 0 ⟨n + 1, hn⟩) (iblk3 V c 1 ⟨n + 1, hn⟩)
    else k3_pay3 (iblk3 V c 0 ⟨n + 1, hn⟩) (iblk3 V c 1 ⟨n + 1, hn⟩) (acc3 c n (Nat.lt_of_succ_lt hn))

theorem acc3_first (c : Dev nD) (t : Fin cfg3.N) (h : t.val % 30 = 0) :
    acc3 V c t.val t.isLt = k3_pay2 (iblk3 V c 0 t) (iblk3 V c 1 t) := by
  obtain ⟨n, hn⟩ := t
  cases n with
  | zero => rfl
  | succ n => exact if_pos h

theorem acc3_next (c : Dev nD) (t : Fin cfg3.N) (h : t.val % 30 ≠ 0) :
    acc3 V c t.val t.isLt = k3_pay3 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h
  | succ n => exact if_neg h

def out3 (c : Dev nD) (t : Fin cfg3.N) : Vec F S1x8x128 .f32 := k3_pay4 (acc3 V c t.val t.isLt)

def Phi3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut spec3 c [cc3_scratch0] ∗ (∃ r, prngReg c r))

theorem PhiA3_eq (c : Dev nD) :
    (Pipeline.ΦA spec3 c : sProp 𝕄)
      = iprop(iprop(iprop(∃ d, owns (c : Thread nD τ) scM3 fullShare d) ∗ Pipeline.scopedRestBut spec3 c [cc3_scratch0]) ∗ (∃ r, prngReg c r)) := by
  unfold Pipeline.ΦA; rw [scopedRest3_split]; simp only [scM3, owns_whole]; try rfl

-- the cell is owned before every point, after the first at what the point before left
theorem Phi3_open (c : Dev nD) (n : ℕ) (h : n ≤ cfg3.N) :
    Phi3 V c n h ⊢ iprop(∃ d, ⌜∀ hz : n ≠ 0, d = acc3 V c (n - 1) (by omega)⌝ ∗ owns (c : Thread nD τ) scM3 fullShare d
      ∗ Pipeline.scopedRestBut spec3 c [cc3_scratch0] ∗ (∃ r, prngReg c r)) := by
  cases n with
  | zero =>
    unfold Phi3; rw [PhiA3_eq]
    iintro ⟨⟨⟨%d, HS⟩, HR⟩, Hg⟩
    iexists d; isplitr; · ipureintro; exact fun hz => absurd rfl hz
    iframe
  | succ n =>
    unfold Phi3
    iintro ⟨HS, HR, Hg⟩
    iexists (acc3 V c n h); isplitr; · ipureintro; exact fun _ => rfl
    iframe

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := Phi3 V c t.val (Nat.le_of_lt_succ t.isLt)
  q _ := fullShare
  owed _ := 0

theorem after3_2 (c : Dev nD) (t : Fin cfg3.N) : (dat3 V c).after 2 t = out3 V c t := by dsimp only [dat3]

abbrev cond3_1 (i : grid3.Coords) : Prop := (Scalar.cmpi .ne (Scalar.extui (Scalar.cmpi .ne (BitVec.ofNat 32 (i 1).val) 0#32)) 0#32) = 1#1
abbrev cond3_2 (i : grid3.Coords) : Prop := k3_cond3 i = 1#1

theorem hcond3_1 : ∀ t : Fin cfg3.N, cond3_1 (grid3.coords t) ↔ t.val % 30 ≠ 0 :=
  (by decide +kernel : ∀ t : Fin grid3.N, cond3_1 (grid3.coords t) ↔ t.val % 30 ≠ 0)
theorem hcond3_2 : ∀ t : Fin cfg3.N, cond3_2 (grid3.coords t) ↔ t.val % 30 = 29 :=
  (by decide +kernel : ∀ t : Fin grid3.N, cond3_2 (grid3.coords t) ↔ t.val % 30 = 29)

-- what the cell holds after a step that found `xs` in it
def new3 (i : grid3.Coords) (x0 : Vec F S10000x3 .f32) (x1 : Vec F S10000x1 .i32) (xs : Vec F S1x1 .f32) : Vec F S1x1 .f32 :=
  if cond3_1 i then k3_pay3 x0 x1 xs else k3_pay2 x0 x1

theorem acc3_step (c : Dev nD) (t : Fin cfg3.N) (xs : Vec F S1x1 .f32) (h : ∀ hz : t.val ≠ 0, xs = acc3 V c (t.val - 1) (by omega)) :
    acc3 V c t.val t.isLt = new3 (grid3.coords t) (iblk3 V c 0 t) (iblk3 V c 1 t) xs := by
  unfold new3
  by_cases hf : t.val % 30 = 0
  · rw [acc3_first V c t hf, if_neg fun hl => (hcond3_1 t).mp hl hf]
  · rw [acc3_next V c t hf, if_pos ((hcond3_1 t).mpr hf), h fun e => hf (by rw [e])]

set_option maxHeartbeats 1000000 in
-- the inputs are only read; the cell's one store and, at a run's last step, the block's one store cover them whole
theorem run3 (c : Dev nD) (t : Fin cfg3.N)
    (x0 : Vec F S10000x3 .f32) (x1 : Vec F S10000x1 .i32) (xo : Vec F S1x8x128 .f32) (xs : Vec F S1x1 .f32) (E : Set ℕ) (K : PUnit → sProp 𝕄) :
    iprop(owns (c : Thread nD τ) (st3_0 t) fullShare x0 ∗ owns (c : Thread nD τ) (st3_1 t) fullShare x1
        ∗ owns (c : Thread nD τ) (st3_2 t) fullShare xo ∗ owns (c : Thread nD τ) scM3 fullShare xs
        ∗ (iprop(owns (c : Thread nD τ) (st3_0 t) fullShare x0 ∗ owns (c : Thread nD τ) (st3_1 t) fullShare x1
            ∗ owns (c : Thread nD τ) (st3_2 t) fullShare (if cond3_2 (grid3.coords t) then k3_pay4 (new3 (grid3.coords t) x0 x1 xs) else xo)
            ∗ owns (c : Thread nD τ) scM3 fullShare (new3 (grid3.coords t) x0 x1 xs)) -∗ K ⟨⟩))
      ⊢ wp frame (wpE (defs₀ (F := F)) Variants.none c none) E (bodyAt3 t) K := by
  unfold bodyAt3
  simp only [cc3__reg_kernel_eq_skeleton]; unfold cc3__reg_kernel_skel owns new3
  iintro ⟨⟨%f0, %hf0, H0⟩, ⟨%f1, %hf1, H1⟩, ⟨%fo, %hfo, HO⟩, ⟨%fs, %hfs, HS⟩, Hk⟩
  subst hf0 hf1 hfo hfs
  by_cases h1 : cond3_1 (grid3.coords t) <;> by_cases h2 : cond3_2 (grid3.coords t) <;>
  · first | rw [if_pos h1] | rw [if_neg h1]
    first | rw [if_pos h2] | rw [if_neg h2]
    sl_exec (disch := first | exact h1 | exact h2 | exact (isZero_iff_not_nonZero _).2 h1 | exact fun h => (isZero_iff_not_nonZero _).1 h h1)
    sl_step
    sl_unfold_words
    simp only [View.readAt_eq_ld, View.ld_unit_zero (S := S10000x3) offs2_zero, View.ld_unit_zero (S := S10000x1) offs2_zero,
      View.ld_unit_zero (S := S1x1) offs2_zero, View.readCov_unit_zero (S := S1x1) _ offs2_zero]
    iapply Hk
    isplitl [H0]
    · iexists _; isplitr; · ipureintro; rfl
      iexact H0
    isplitl [H1]
    · iexists _; isplitr; · ipureintro; rfl
      iexact H1
    isplitl [HO]
    · iexists _; isplitr
      swap; · iexact HO
      ipureintro
      first | rfl | exact read_stored_whole (S := S1x8x128) _ _ offs3_zero _ _ _
    iexists _; isplitr
    swap; · iexact HS
    ipureintro; exact read_stored_whole (S := S1x1) _ _ offs2_zero _ _ _

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

-- the invariant holds the cell at the running sum; off a run's last step the block's contents do not change
theorem body_obligation3 (c : Dev nD) : BodyObligation (dat3 (F := F) V c) (defs₀ (F := F)) Variants.none () Set.univ := fun t => by
  rw [bigSep_W3, bigSep_W3]
  change _ ⊢ wp _ _ _ (bodyAt3 t) _
  unfold bodyAt3
  simp only [before3_0, before3_1, idle3, after3_2]
  unfold out3
  rw [show (dat3 V c).owesAt () t.succ = (dat3 V c).owesAt () t.castSucc from rfl,
    show (dat3 V c).Φ t.succ = iprop(owns (c : Thread nD τ) scM3 fullShare (acc3 V c t.val t.isLt)
      ∗ Pipeline.scopedRestBut spec3 c [cc3_scratch0] ∗ (∃ r, prngReg c r)) from rfl,
    show (dat3 V c).Φ t.castSucc = Phi3 V c t.val (Nat.le_of_lt t.isLt) from rfl]
  iintro ⟨HΦ, Ho, ⟨%d0, H0⟩, ⟨%d1, H1⟩, ⟨%d2, H2⟩⟩
  icases (Phi3_open V c _ _) $$ HΦ with ⟨%xs, %hxs, HS, HR, Hg⟩
  iapply (run3 c t (iblk3 V c 0 t) (iblk3 V c 1 t) ((dat3 V c).before 2 t d2) xs Set.univ _)
  iframe H0 H1 H2 HS
  iintro ⟨H0, H1, H2, HS⟩
  rw [acc3_step V c t xs hxs]
  iframe HS HR Hg Ho
  isplitl [H0]; · iexact H0
  isplitl [H1]; · iexact H1
  by_cases h2 : cond3_2 (grid3.coords t)
  · simp only [beq_iff_eq.mpr h2, Bool.not_true]
    rw [if_pos h2]
    iexact H2
  · simp only [beq_eq_false_iff_ne.mpr h2, Bool.not_false, Bool.eq_false_iff.mpr fun h => h2 ((hcond3_2 t).mpr ((flush3_2 t).mp h))]
    rw [if_neg h2]
    iexists _; iexact H2

theorem hin3 (c : Dev nD) : Pipeline.ΦA spec3 c ⊢ (dat3 V c).Φ 0 := Entails.refl _

theorem hout3 (c : Dev nD) : (dat3 V c).Φ (Fin.last cfg3.N) ⊢ Pipeline.ΦA spec3 c := by
  rw [PhiA3_eq]
  refine (Phi3_open V c _ (Nat.le_of_lt_succ (Fin.last cfg3.N).isLt)).trans ?_
  iintro ⟨%d, -, HS, HR, Hg⟩
  iframe HR Hg
  iexists _; iexact HS

end Cert.KernelIdeal.Hand

end
-- ==== Proof.KI.Run.lean ====
-- The whole kernel program on one core: the contents of its buffers at the ten boundaries between @main's five host stretches and four kernel regions, the run of the nine items from the launch memory to the last boundary, and the arguments unchanged.
import proofs.«404240_j51247549776505_4_alg».proof.Proof.Gen.KernelIdeal.Launch
import proofs.«404240_j51247549776505_4_alg».proof.Proof.Gen.KernelIdeal.Skeleton
import proofs.«404240_j51247549776505_4_alg».proof.Proof.Gen.KernelIdeal.Points
import proofs.«404240_j51247549776505_4_alg».proof.Proof.KI.Reg0
import proofs.«404240_j51247549776505_4_alg».proof.Proof.KI.Reg1
import proofs.«404240_j51247549776505_4_alg».proof.Proof.KI.Reg2
import proofs.«404240_j51247549776505_4_alg».proof.Proof.KI.Reg3
import proofs.«404240_j51247549776505_4_alg».proof.Proof.LibRegionSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)

theorem writes_sub_of_mem {W : List (Ref sig .tc)} (y : Ref sig .tc) {S : Finset (DevRef τ sig)}
    (hS : S = {Proc.devRef (τ := τ) .tc y}) (hy : y ∈ W) : S ⊆ (W.map (Proc.devRef (τ := τ) .tc)).toFinset := by
  subst hS
  exact Finset.singleton_subset_iff.mpr (List.mem_toFinset.mpr (List.mem_map_of_mem hy))

theorem hostOps0_fresh : (hostOps0 : List (HloOp τ sig (Elt F))).Forall fun op => op.fresh = ∅ := by
  simp only [List.Forall]; repeat' constructor

abbrev hostOps0_W : List (Ref sig .tc) := [main_v0, main_v1]

theorem hostOps0_writes : (hostOps0 : List (HloOp τ sig (Elt F))).Forall fun op => op.writes ⊆ (hostOps0_W.map (Proc.devRef (τ := τ) .tc)).toFinset := by
  simp only [List.Forall]
  repeat' apply And.intro
  all_goals exact writes_sub_of_mem _ rfl (by decide)

set_option maxHeartbeats 4000000 in
theorem hostOps1_fresh : (hostOps1 : List (HloOp τ sig (Elt F))).Forall fun op => op.fresh = ∅ := by
  simp only [List.Forall]; repeat' constructor

abbrev hostOps1_W : List (Ref sig .tc) := [main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24, main_c_3, main_v25, main_v26, main_c_4, main_v27, main_v28, main_v29, main_v30, main_v31, main_c_5, main_v32, main_v33, main_c_6, main_v34, main_v35, main_v36, main_v37, main_v38, main_c_7, main_v39, main_v40, main_c_8, main_v41, main_v42, main_v43, main_v44, main_v45, main_c_9, main_v46, main_v47, main_c_10, main_v48, main_v49, main_v50, main_v51, main_v52, main_c_11, main_v53, main_v54, main_c_12, main_v55, main_v56, main_v57, main_v58, main_v59, main_c_13, main_v60, main_v61, main_c_14, main_v62, main_v63, main_v64, main_v65, main_v66, main_v67, main_v68]
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals exact writes_sub_of_mem _ rfl (by decide)

theorem hostOps2_fresh : (hostOps2 : List (HloOp τ sig (Elt F))).Forall fun op => op.fresh = ∅ := by
  simp only [List.Forall]; repeat' constructor

abbrev hostOps2_W : List (Ref sig .tc) := [main_v70, main_v71, main_cst, main_v72, main_v73, main_v74]

theorem hostOps2_writes : (hostOps2 : List (HloOp τ sig (Elt F))).Forall fun op => op.writes ⊆ (hostOps2_W.map (Proc.devRef (τ := τ) .tc)).toFinset := by
  simp only [List.Forall]
  repeat' apply And.intro
  all_goals exact writes_sub_of_mem _ rfl (by decide)

set_option maxHeartbeats 4000000 in
theorem hostOps3_fresh : (hostOps3 : List (HloOp τ sig (Elt F))).Forall fun op => op.fresh = ∅ := by
  simp only [List.Forall]; repeat' constructor

abbrev hostOps3_W : List (Ref sig .tc) := [main_v76, main_v77, main_cst_15, main_v78, main_v79, main_c_16, main_v80, main_v81, main_c_17, main_v82, main_v83, main_v84, main_v85, main_v86, main_c_18, main_v87, main_v88, main_c_19, main_v89, main_v90, main_v91, main_v92, main_v93, main_c_20, main_v94, main_v95, main_c_21, main_v96, main_v97, main_v98, main_v99, main_v100, main_c_22, main_v101, main_v102, main_c_23, main_v103, main_v104, main_v105, main_v106, main_v107, main_c_24, main_v108, main_v109, main_c_25, main_v110, main_v111, main_v112, main_v113, main_v114, main_c_26, main_v115, main_v116, main_c_27, main_v117, main_v118, main_v119, main_v120, main_v121, main_c_28, main_v122, main_v123, main_c_29, main_v124, main_v125, main_v126, main_v127, main_v128, main_c_30, main_v129, main_v130, main_c_31, main_v131, main_v132, main_v133, main_v134, main_v135, main_v136, main_v137, main_v138, main_v139, main_v140, main_v141, main_v142, main_v143, main_v144, main_v145, main_v146]
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals exact writes_sub_of_mem _ rfl (by decide)

theorem hostOps4_fresh : (hostOps4 : List (HloOp τ sig (Elt F))).Forall fun op => op.fresh = ∅ := by
  simp only [List.Forall]; repeat' constructor

abbrev hostOps4_W : List (Ref sig .tc) := [main_v148, main_v149, main_cst_32, main_v150, main_cst_33, main_v151, main_cst_34, main_v152, main_v153]

theorem hostOps4_writes : (hostOps4 : List (HloOp τ sig (Elt F))).Forall fun op => op.writes ⊆ (hostOps4_W.map (Proc.devRef (τ := τ) .tc)).toFinset := by
  simp only [List.Forall]
  repeat' apply And.intro
  all_goals exact writes_sub_of_mem _ rfl (by decide)

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

set_option backward.isDefEq.respectTransparency.types false in
-- the four regions as segments: each from its entry contents, with its body obligation and its invariant's two ends
def reg0 := Cert.regOf cfgs (pdats m ρ) (defs₀ (F := F)) (p := 0) (W1 m ρ) launch0 (body_obligation0 (V1 m ρ)) (fun _ _ => rfl) (fun _ => .rfl) (fun _ => .rfl)
set_option backward.isDefEq.respectTransparency.types false in
def reg1 := Cert.regOf cfgs (pdats m ρ) (defs₀ (F := F)) (p := 1) (W3 m ρ) launch1 (body_obligation1 (V3 m ρ)) (fun _ _ => rfl) (hin1 (V3 m ρ)) (hout1 (V3 m ρ))
set_option backward.isDefEq.respectTransparency.types false in
def reg2 := Cert.regOf cfgs (pdats m ρ) (defs₀ (F := F)) (p := 2) (W5 m ρ) launch2 (body_obligation2 (V5 m ρ)) (fun _ _ => rfl) (hin2 (V5 m ρ)) (hout2 (V5 m ρ))
set_option backward.isDefEq.respectTransparency.types false in
def reg3 := Cert.regOf cfgs (pdats m ρ) (defs₀ (F := F)) (p := 3) (W7 m ρ) launch3 (body_obligation3 (V7 m ρ)) (fun _ _ => rfl) (hin3 (V7 m ρ)) (hout3 (V7 m ρ))

abbrev segs : List (Pipeline.Seg (pcfgs (F := F)) adm (pdats m ρ) () defs₀ Variants.none (fun _ => ∅) (fun _ _ => 0)) :=
  [ .host (Cert.hostOf cfgs defs₀ hostOps0 hostOps0_sub hostOps0_fresh (W0 m ρ)),
    .region (reg0 m ρ),
    .host (Cert.hostOf cfgs defs₀ hostOps1 hostOps1_sub hostOps1_fresh (W2 m ρ)),
    .region (reg1 m ρ),
    .host (Cert.hostOf cfgs defs₀ hostOps2 hostOps2_sub hostOps2_fresh (W4 m ρ)),
    .region (reg2 m ρ),
    .host (Cert.hostOf cfgs defs₀ hostOps3 hostOps3_sub hostOps3_fresh (W6 m ρ)),
    .region (reg3 m ρ),
    .host (Cert.hostOf cfgs defs₀ hostOps4 hostOps4_sub hostOps4_fresh (W8 m ρ)) ]

theorem main_run (c : Dev nD) : main (F := F) c = Pipeline.Seg.run (segs m ρ) := (main_chain c).trans (by chain_rfl)

theorem hlast (c : Dev nD) : (iprop(StableHlo.held (c : Thread nD τ) (Pipeline.ucRefs τ sig) (W9 m ρ c) ∗ (∃ r, prngReg c r) ∗ ∃ W, owes (c : Thread nD τ) (0 : CellTallies nD τ sig Unit) W) : sProp 𝕄)
    ⊢ iprop((StableHlo.held (c : Thread nD τ) (Pipeline.ucRefs τ sig) (W9 m ρ c) ∗ ∃ r, prngReg c r) ∗ ∃ W, owes (c : Thread nD τ) (0 : CellTallies nD τ sig Unit) W) := by
  iintro ⟨Hh, Hp, HO⟩
  isplitr [HO]
  · isplitl [Hh] <;> iassumption
  iexact HO

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Cert.run_segs cfgs (pdats m ρ) defs₀ cellOf_inj m ρ main (segs m ρ) (main_run m ρ)
    (by simp only [segs, Pipeline.Seg.pipes_host, Pipeline.Seg.pipes_region, Pipeline.Seg.pipes_nil]; decide) (W9 m ρ)
    ⟨fun _ => .rfl, fun _ => .rfl, fun _ => .rfl, fun _ => .rfl, fun _ => .rfl, fun _ => .rfl, fun _ => .rfl,
      fun _ => .rfl, fun _ => .rfl, fun c => hlast m ρ c⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev mainArgs : List (Ref sig .tc) :=
  [main_arg0, main_arg1, main_arg2, main_arg3, main_arg4, main_arg5, main_arg6, main_arg7, main_arg8, main_arg9, main_arg10]

-- no item of @main writes an argument: region 0 only reads it, the later regions' arrays and every stretch's write list miss it
theorem W9_arg (c : Dev nD) (b : Ref sig .tc) (hb : b ∈ mainArgs) :
    W9 m ρ c (Proc.devRef .tc b) = m ((c : Thread nD τ).loc b) := by
  have h2 : W2 m ρ c (Proc.devRef .tc b) = W1 m ρ c (Proc.devRef .tc b) := by
    by_cases h : ∃ w, Pipeline.arrRef spec0 w = b
    · obtain ⟨w, rfl⟩ := h
      exact (W2_arr m ρ c w).trans (((dat0 (V1 m ρ) c).arrAt_in w
        ((by decide : ∀ w : Fin cfg0.W, Pipeline.arrRef spec0 w ∈ mainArgs → (cfg0.win w).isOut = false) w hb) _).trans (A_eq0 (V1 m ρ) c w))
    · exact W2_of_ne m ρ c b fun w e => h ⟨w, e⟩
  calc W9 m ρ c (Proc.devRef .tc b)
    _ = W8 m ρ c (Proc.devRef .tc b) := W9_of m ρ c b ((by decide : ∀ b ∈ mainArgs, b ∉ hostOps4_W) b hb)
    _ = W7 m ρ c (Proc.devRef .tc b) := W8_of_ne m ρ c b ((by decide : ∀ b ∈ mainArgs, ∀ w, Pipeline.arrRef spec3 w ≠ b) b hb)
    _ = W6 m ρ c (Proc.devRef .tc b) := W7_of m ρ c b ((by decide : ∀ b ∈ mainArgs, b ∉ hostOps3_W) b hb)
    _ = W5 m ρ c (Proc.devRef .tc b) := W6_of_ne m ρ c b ((by decide : ∀ b ∈ mainArgs, ∀ w, Pipeline.arrRef spec2 w ≠ b) b hb)
    _ = W4 m ρ c (Proc.devRef .tc b) := W5_of m ρ c b ((by decide : ∀ b ∈ mainArgs, b ∉ hostOps2_W) b hb)
    _ = W3 m ρ c (Proc.devRef .tc b) := W4_of_ne m ρ c b ((by decide : ∀ b ∈ mainArgs, ∀ w, Pipeline.arrRef spec1 w ≠ b) b hb)
    _ = W2 m ρ c (Proc.devRef .tc b) := W3_of m ρ c b ((by decide : ∀ b ∈ mainArgs, b ∉ hostOps1_W) b hb)
    _ = W1 m ρ c (Proc.devRef .tc b) := h2
    _ = W0 m ρ c (Proc.devRef .tc b) := W1_of m ρ c b ((by decide : ∀ b ∈ mainArgs, b ∉ hostOps0_W) b hb)
    _ = m ((c : Thread nD τ).loc b) := rfl

-- every run ends with each unscoped buffer at the last boundary's contents, and so with the arguments as launched
theorem run_post : θ_run defs (onTc (τ := τ) (main (F := F))) ⟨m, fun _ => 0, ρ⟩ (fun r => ∀ c : Dev nD,
    (∀ b : Ref sig .tc, ¬ (Proc.devRef .tc b : DevRef τ sig).isScoped → r.2.mem ((c : Thread nD τ).loc b) = W9 m ρ c (Proc.devRef .tc b))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) :=
  (θ_run defs _ _).mono (fun r h c =>
    have k (b : Ref sig .tc) (hb : b ∈ mainArgs) : r.2.mem ((c : Thread nD τ).loc b) = m ((c : Thread nD τ).loc b) :=
      (h c _ (mem_uc b ((by decide : ∀ b ∈ mainArgs, ¬ (Proc.devRef .tc b : DevRef τ sig).isScoped) b hb))).trans (W9_arg m ρ c b hb)
    ⟨fun b hb => h c _ (mem_uc b hb), k main_arg0 (by decide), k main_arg1 (by decide), k main_arg2 (by decide), k main_arg3 (by decide), k main_arg4 (by decide), k main_arg5 (by decide),
      k main_arg6 (by decide), k main_arg7 (by decide), k main_arg8 (by decide), k main_arg9 (by decide), k main_arg10 (by decide)⟩) (run_all m ρ)

end Cert.KernelIdeal.Hand

end
-- ==== Proof.Spec.lean ====
-- What both programs compute, over the extended reals with the arrays curried: the embedding, the wrapped and clamped row index, an edge's score, and the two heads in the kernel's tiled and the reference's plain arrangement.
import Idealize.ShloMosaic.PureOps.Ideal
import Idealize.ShloMosaic.Lib.ValueIdx
import Mathlib.Algebra.BigOperators.Fin

noncomputable section

namespace Cert.Hand.Spec

open Idealize.ShloMosaic

def one : EReal := Ideal.ofBits .f32 0x3F800000#32
def zero : EReal := Ideal.ofBits .f32 0x00000000#32
def half : EReal := Ideal.ofBits .f32 0x3F000000#32

def eps : EReal := Ideal.ofBits .f32 0x322BCC77#32
def c03 : EReal := Ideal.ofBits .f32 0x3E99999A#32
def c035 : EReal := Ideal.ofBits .f32 0x3EB33333#32

def cnt : EReal := Ideal.ofBits .f32 0x49127C00#32

def wrap (v : BitVec 32) : BitVec 32 := if Scalar.cmpi .slt v 0#32 = 1#1 then v + 50000#32 else v

def rowOf (v : BitVec 32) : Fin 50000 := ⟨min (wrap v).toInt.toNat 49999, by omega⟩

section

variable (X : Fin 50000 → Fin 512 → EReal) (Wl : Fin 512 → Fin 128 → EReal) (bl : Fin 128 → EReal)
  (rW : Fin 256 → Fin 3 → EReal) (rb : Fin 3 → EReal) (pv : Fin 50000 → EReal)
  (pI pJ nI nJ pK nK : Fin 100000 → BitVec 32) (tg : Fin 600000 → BitVec 32)

def z (n : Fin 50000) (d : Fin 128) : EReal := (∑ k : Fin 512, X n k * Wl k d) + bl d

def s1 (n : Fin 50000) (j : Fin 3) : EReal := ∑ d : Fin 128, z X Wl bl n d * rW ⟨d.val, by omega⟩ j
def s2 (n : Fin 50000) (j : Fin 3) : EReal := ∑ d : Fin 128, z X Wl bl n d * rW ⟨128 + d.val, by omega⟩ j

def dot (u v : Fin 128 → EReal) : EReal := ∑ d : Fin 128, u d * v d
def nrm (u : Fin 128 → EReal) : EReal := max (Ideal.sqrt (dot u u)) eps
def score (u v : Fin 128 → EReal) (p q : EReal) : EReal :=
  c03 * Ideal.div (dot u v) (nrm u * nrm v) + c035 * (p + q)
def sqd (l y : EReal) : EReal := (l - y) * (l - y)

def yhat (a b : Fin 100000 → BitVec 32) (e : Fin 100000) : EReal :=
  score (z X Wl bl (rowOf (a e))) (z X Wl bl (rowOf (b e))) (pv (rowOf (a e))) (pv (rowOf (b e)))

def mseK (l : EReal) (a b : Fin 100000 → BitVec 32) : EReal :=
  ∑ c : Fin 2, ∑ s : Fin 10, half * ∑ r : Fin 5000,
    sqd l (yhat X Wl bl pv a b ⟨5000 * (10 * c.val + s.val) + r.val, by omega⟩)

def rowMax (lg : Fin 3 → EReal) : EReal := Finset.univ.sup lg
def logp (lg : Fin 3 → EReal) (j : Fin 3) : EReal :=
  (lg j - rowMax lg) - Ideal.log (∑ j' : Fin 3, Ideal.exp (lg j' - rowMax lg))

def lft (q : Fin 6) : Fin 100000 → BitVec 32 := ![pI, nI, nI, nJ, pI, pJ] q
def rgt (q : Fin 6) : Fin 100000 → BitVec 32 := ![pJ, nJ, nK, nK, pK, pK] q

def blk (r : Fin 600000) : Fin 6 := ⟨r.val / 100000, by omega⟩
def edg (r : Fin 600000) : Fin 100000 := ⟨r.val % 100000, Nat.mod_lt _ (by norm_num)⟩

def logitK (r : Fin 600000) (j : Fin 3) : EReal :=
  (s1 X Wl bl rW (rowOf (lft pI pJ nI nJ (blk r) (edg r))) j + s2 X Wl bl rW (rowOf (rgt pJ nJ pK nK (blk r) (edg r))) j) + rb j

def logitR (r : Fin 600000) (j : Fin 3) : EReal :=
  (∑ k : Fin 256,
      (if h : k.val < 128 then z X Wl bl (rowOf (lft pI pJ nI nJ (blk r) (edg r))) ⟨k.val, h⟩
       else z X Wl bl (rowOf (rgt pJ nJ pK nK (blk r) (edg r))) ⟨k.val - 128, by omega⟩) * rW k j) + rb j

def pickK (lp : Fin 3 → EReal) (t : BitVec 32) : EReal :=
  ∑ j : Fin 3, if BitVec.ofNat 32 j.val = t then lp j else zero

def nllK : EReal :=
  Ideal.div (∑ c : Fin 2, ∑ s : Fin 30, ∑ r : Fin 10000,
      (zero - pickK (logp (logitK X Wl bl rW rb pI pJ nI nJ pK nK ⟨10000 * (30 * c.val + s.val) + r.val, by omega⟩))
        (tg ⟨10000 * (30 * c.val + s.val) + r.val, by omega⟩))) cnt

def nllR (hT : ∀ r, (tg r).toNat < 3) : EReal :=
  - Ideal.div (∑ r : Fin 600000, logp (logitR X Wl bl rW rb pI pJ nI nJ pK nK r) ⟨(tg r).toNat, hT r⟩) cnt

def lossK : EReal :=
  nllK X Wl bl rW rb pI pJ nI nJ pK nK tg + one * (mseK X Wl bl pv one pI pJ + mseK X Wl bl pv zero nI nJ)

def lossR (hT : ∀ r, (tg r).toNat < 3) : EReal :=
  nllR X Wl bl rW rb pI pJ nI nJ pK nK tg hT
    + one * (half * (∑ e : Fin 100000, sqd one (yhat X Wl bl pv pI pJ e))
        + half * (∑ e : Fin 100000, yhat X Wl bl pv nI nJ e * yhat X Wl bl pv nI nJ e))

end

end Cert.Hand.Spec

end
-- ==== Proof.ValZ.lean ====
import proofs.«404240_j51247549776505_4_alg».proof.Proof.KI.Reg0
import proofs.«404240_j51247549776505_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

/-- The contraction has one axis, so its index is one coordinate, and the sum is re-indexed by it. -/
theorem matmul2_apply {m k n : ℕ} (D : DotDims ⟨2, ![m, k]⟩ ⟨2, ![k, n]⟩ ⟨2, ![m, n]⟩) (hr : D.contr.rank = 1)
    (hs : D.contr.size ⟨0, by omega⟩ = k) (hl : D.lhsContracting = [(1 : Fin 2)]) (hrc : D.rhsContracting = [(0 : Fin 2)])
    (hlb : D.lhsBatch = []) (hln : D.lhsNonContracting = [(0 : Fin 2)]) (hrb : D.rhsBatch = [])
    (hrn : D.rhsNonContracting = [(1 : Fin 2)])
    (x : FVec Ideal ⟨2, ![m, k]⟩ .f32) (w : FVec Ideal ⟨2, ![k, n]⟩ .f32) (p : Fin m) (q : Fin n) :
    matmul D (some .fp32) x w (constant (F := Ideal) ⟨2, ![m, n]⟩ .f32 0x00000000#32) (ix2 p q)
      = ∑ j : Fin k, x (ix2 p j) * w (ix2 j q) := by
  refine (Ideal.matmul_constant_zero_apply D (some .fp32) x w (ix2 p q)).trans ?_
  rw [← Equiv.sum_comp (ValueIdx.contrEquiv1 D k hr hs).symm]
  refine Finset.sum_congr rfl fun j _ => ?_
  have hj := ValueIdx.contrEquiv1_symm_val D k hr hs j
  have key : ∀ (i : (⟨2, ![m, n]⟩ : Shape).Idx) (a b : ℕ) (ha : a < 2) (hb : b < 2), a = b → (i ⟨a, ha⟩).val = (i ⟨b, hb⟩).val :=
    fun i a b ha hb e => by subst e; rfl
  have hl0 : ∀ κ, (D.lhsIdx (ix2 p q) κ 0).val = p.val := fun κ => by
    unfold DotDims.lhsIdx
    rw [dif_neg (show ¬(0 : Fin (⟨2, ![m, k]⟩ : Shape).rank) ∈ D.lhsBatch by rw [hlb]; exact List.not_mem_nil),
      dif_pos (show (0 : Fin (⟨2, ![m, k]⟩ : Shape).rank) ∈ D.lhsNonContracting by rw [hln]; exact List.mem_singleton.mpr rfl)]
    exact key (ix2 p q) _ 0 _ (by decide) (by simp [hlb, hln])
  have hr1 : ∀ κ, (D.rhsIdx (ix2 p q) κ 1).val = q.val := fun κ => by
    unfold DotDims.rhsIdx
    rw [dif_neg (show ¬(1 : Fin (⟨2, ![k, n]⟩ : Shape).rank) ∈ D.rhsBatch by rw [hrb]; exact List.not_mem_nil),
      dif_pos (show (1 : Fin (⟨2, ![k, n]⟩ : Shape).rank) ∈ D.rhsNonContracting by rw [hrn]; exact List.mem_singleton.mpr rfl)]
    exact key (ix2 p q) _ 1 _ (by decide) (by simp [hlb, hln, hrn])
  rw [show D.lhsIdx (ix2 p q) ((ValueIdx.contrEquiv1 D k hr hs).symm j) = ix2 p j from
      Shape.idx_ext₂ (hl0 _) ((D.lhsIdx_val_of_single hl _ _).trans hj),
    show D.rhsIdx (ix2 p q) ((ValueIdx.contrEquiv1 D k hr hs).symm j) = ix2 j q from
      Shape.idx_ext₂ ((D.rhsIdx_val_of_single hrc _ _).trans hj) (hr1 _)]

theorem pay1_apply0 (x : Vec Ideal S2000x512 .f32) (w : Vec Ideal S512x128 .f32) (b : Vec Ideal S128 .f32) (p : Fin 2000) (q : Fin 128) :
    k0_pay1 x w b (ix2 p q) = (∑ k : Fin 512, x (ix2 p k) * w (ix2 k q)) + b (ix1 q) := by
  unfold k0_pay1
  refine (addf_apply _ _ (ix2 p q)).trans (congrArg₂ (· + ·) (matmul2_apply _ rfl rfl rfl rfl rfl rfl rfl rfl x w p q) ?_)
  exact (broadcastTo_1b_ab_apply _ broadcasts_S1x128_S2000x128 p q).trans (shapeCast_a_1a_apply b shapeCasts_S128_S1x128 0 q)

variable (V : (c : Dev nD) → (b : Ref sig .tc) → Buf (Elt Ideal) ((c : Thread nD τ).loc b))

def cX (c : Dev nD) : Fin 50000 → Fin 512 → EReal := fun n k => (V c main_arg0 : S50000x512.Idx → EReal) (ix2 n k)
def cWl (c : Dev nD) : Fin 512 → Fin 128 → EReal := fun k d => (V c main_arg1 : S512x128.Idx → EReal) (ix2 k d)
def cbl (c : Dev nD) : Fin 128 → EReal := fun d => (V c main_arg2 : S128.Idx → EReal) (ix1 d)
def cW1 (c : Dev nD) : Fin 128 → Fin 3 → EReal := fun d j => (V c main_v0 : S128x3.Idx → EReal) (ix2 d j)
def cW2 (c : Dev nD) : Fin 128 → Fin 3 → EReal := fun d j => (V c main_v1 : S128x3.Idx → EReal) (ix2 d j)

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_5.index t (0 : Fin 2) = t.val ∧ win0_5.index t (1 : Fin 2) = 0
    ∧ win0_7.index t (0 : Fin 2) = t.val ∧ win0_7.index t (1 : Fin 2) = 0 :=
  (by decide +kernel : ∀ t : Fin grid0.N, _)

theorem emb0_0 (t : Fin cfg0.N) (p : Fin 2000) (k : Fin 512) (n : Fin 50000) (hn : n.val = 2000 * t.val + p.val) :
    ((cfg0.win 0).blk t).view.emb (ix2 p k) = ix2 n k := by
  obtain ⟨e0, e1, -⟩ := idx_facts0 t
  refine Shape.idx_ext₂ ?_ ?_
  · show win0_0.index t (0 : Fin 2) * 2000 + 1 * p.val = n.val; rw [e0, hn]; omega
  · show win0_0.index t (1 : Fin 2) * 512 + 1 * k.val = k.val; rw [e1]; omega

theorem emb0_1 (t : Fin cfg0.N) (k : Fin 512) (d : Fin 128) : ((cfg0.win 1).blk t).view.emb (ix2 k d) = ix2 k d := by
  obtain ⟨-, -, e0, e1, -⟩ := idx_facts0 t
  refine Shape.idx_ext₂ ?_ ?_
  · show win0_1.index t (0 : Fin 2) * 512 + 1 * k.val = k.val; rw [e0]; omega
  · show win0_1.index t (1 : Fin 2) * 128 + 1 * d.val = d.val; rw [e1]; omega

theorem emb0_2 (t : Fin cfg0.N) (d : Fin 128) : ((cfg0.win 2).blk t).view.emb (ix1 d) = ix1 d := by
  obtain ⟨-, -, -, -, e0, -⟩ := idx_facts0 t
  refine funext fun a => Fin.ext ?_
  match a with
  | ⟨0, _⟩ => show win0_2.index t (0 : Fin 1) * 128 + 1 * d.val = d.val; rw [e0]; omega

theorem emb0_3 (t : Fin cfg0.N) (d : Fin 128) (j : Fin 3) : ((cfg0.win 3).blk t).view.emb (ix2 d j) = ix2 d j := by
  obtain ⟨-, -, -, -, -, e0, e1, -⟩ := idx_facts0 t
  refine Shape.idx_ext₂ ?_ ?_
  · show win0_3.index t (0 : Fin 2) * 128 + 1 * d.val = d.val; rw [e0]; omega
  · show win0_3.index t (1 : Fin 2) * 3 + 1 * j.val = j.val; rw [e1]; omega

/-- Each factor is read off its array, the input matrix at the row offset 2000 t. -/
theorem zblk0 (c : Dev nD) (t : Fin cfg0.N) (i : S2000x128.Idx) (n : Fin 50000) (d : Fin 128)
    (hn : n.val = 2000 * t.val + (i 0).val) (hd : (i 1).val = d.val) :
    k0_pay1 (iblk0 V c 0 t) (iblk0 V c 1 t) (iblk0 V c 2 t) i = Spec.z (cX V c) (cWl V c) (cbl V c) n d := by
  obtain rfl : i 1 = d := Fin.ext hd
  refine ((congrArg _ (eq_ix2 i)).trans (pay1_apply0 (iblk0 V c 0 t) (iblk0 V c 1 t) (iblk0 V c 2 t) (i 0) (i 1))).trans ?_
  unfold Spec.z
  exact congrArg₂ (· + ·) (Finset.sum_congr rfl fun k _ => congrArg₂ (· * ·) (congrArg (V c main_arg0) (emb0_0 t (i 0) k n hn))
    (congrArg (V c main_arg1) (emb0_1 t k _))) (congrArg (V c main_arg2) (emb0_2 t _))

/-- The left factor is the lemma above; the right factor is whichever half of the weight `hu` names. -/
theorem sblk0 (c : Dev nD) (t : Fin cfg0.N) (u : Vec Ideal S128x3 .f32) (cW : Fin 128 → Fin 3 → EReal)
    (hu : ∀ d j, u (ix2 d j) = cW d j) (i : S2000x3.Idx) (n : Fin 50000) (j : Fin 3)
    (hn : n.val = 2000 * t.val + (i 0).val) (hj : (i 1).val = j.val) :
    k0_pay3 (iblk0 V c 0 t) (iblk0 V c 1 t) (iblk0 V c 2 t) u i
      = ∑ d : Fin 128, Spec.z (cX V c) (cWl V c) (cbl V c) n d * cW d j := by
  obtain rfl : i 1 = j := Fin.ext hj
  refine (congrArg _ (eq_ix2 i)).trans ?_
  unfold k0_pay3
  refine (matmul2_apply _ rfl rfl rfl rfl rfl rfl rfl rfl _ _ (i 0) (i 1)).trans (Finset.sum_congr rfl fun d _ => ?_)
  exact congrArg₂ (· * ·) (zblk0 V c t (ix2 (i 0) d) n d hn rfl) ((congrFun (shapeCast_self u _) _).trans (hu d (i 1)))

def Gz0 (c : Dev nD) : S50000x128.Idx → EReal := fun i =>
  Spec.z (cX V c) (cWl V c) (cbl V c) ⟨(i 0).val, (i 0).isLt⟩ ⟨(i 1).val, (i 1).isLt⟩

def Gs0 (c : Dev nD) (cW : Fin 128 → Fin 3 → EReal) : S50000x3.Idx → EReal := fun i =>
  ∑ d : Fin 128, Spec.z (cX V c) (cWl V c) (cbl V c) ⟨(i 0).val, (i 0).isLt⟩ d * cW d ⟨(i 1).val, (i 1).isLt⟩

theorem flushed0_5_eq (c : Dev nD) (t : Fin cfg0.N) :
    (dat0 V c).flushed 5 t = ((cfg0.win 5).blk t).view.read (Elt Ideal) (Gz0 V c) := by
  obtain ⟨-, -, -, -, -, -, -, e0, e1, -⟩ := idx_facts0 t
  funext j
  have h0 : (((cfg0.win 5).blk t).view.emb j 0).val = 2000 * t.val + (j 0).val := by
    show win0_5.index t (0 : Fin 2) * 2000 + 1 * (j 0).val = _; rw [e0]; omega
  have h1 : (((cfg0.win 5).blk t).view.emb j 1).val = (j 1).val := by
    show win0_5.index t (1 : Fin 2) * 128 + 1 * (j 1).val = _; rw [e1]; omega
  show k0_pay1 (iblk0 V c 0 t) (iblk0 V c 1 t) (iblk0 V c 2 t) ((cfg0.win 5).xinj (grid0.coords t) j) = Gz0 V c (((cfg0.win 5).blk t).view.emb j)
  exact zblk0 V c t _ _ _ h0 h1.symm

theorem flushedS0 (c : Dev nD) (t : Fin cfg0.N) (u : Vec Ideal S128x3 .f32) (cW : Fin 128 → Fin 3 → EReal)
    (hu : ∀ d j, u (ix2 d j) = cW d j) :
    (fun j => k0_pay3 (iblk0 V c 0 t) (iblk0 V c 1 t) (iblk0 V c 2 t) u ((cfg0.win 7).xinj (grid0.coords t) j))
      = ((cfg0.win 7).blk t).view.read (Elt Ideal) (Gs0 V c cW) := by
  obtain ⟨-, -, -, -, -, -, -, -, -, e0, e1⟩ := idx_facts0 t
  funext j
  have h0 : (((cfg0.win 7).blk t).view.emb j 0).val = 2000 * t.val + (j 0).val := by
    show win0_7.index t (0 : Fin 2) * 2000 + 1 * (j 0).val = _; rw [e0]; omega
  have h1 : (((cfg0.win 7).blk t).view.emb j 1).val = (j 1).val := by
    show win0_7.index t (1 : Fin 2) * 3 + 1 * (j 1).val = _; rw [e1]; omega
  show _ = Gs0 V c cW (((cfg0.win 7).blk t).view.emb j)
  exact sblk0 V c t u cW hu _ _ _ h0 h1.symm

/-- x / B * B ≤ x < x / B * B + B on the rows; the one column block holds every column. -/
theorem mem_rows {n : Fin 2 → ℕ} (i : (a : Fin 2) → Fin (n a)) (ix sz : Fin 2 → ℕ) {B : ℕ} (hB : 0 < B)
    (h0 : ix 0 = (i 0).val / B) (hs0 : sz 0 = B) (h1 : ix 1 = 0) (hs1 : sz 1 = n 1) (a : Fin 2) :
    ix a * sz a ≤ (i a).val ∧ (i a).val < ix a * sz a + sz a :=
  match a with
  | ⟨0, _⟩ => by
    show ix 0 * sz 0 ≤ (i 0).val ∧ (i 0).val < ix 0 * sz 0 + sz 0
    rw [h0, hs0]; exact ⟨Nat.div_mul_le_self _ _, Nat.lt_div_mul_add hB⟩
  | ⟨1, _⟩ => by
    show ix 1 * sz 1 ≤ (i 1).val ∧ (i 1).val < ix 1 * sz 1 + sz 1
    rw [h1, hs1]; have := (i 1).isLt; omega

theorem cover0_5 (i : S50000x128.Idx) : ∃ t : Fin cfg0.N, (cfg0.win 5).flush t = true ∧ i ∈ ((cfg0.win 5).blk t).view.set := by
  have ht : (i 0).val / 2000 < cfg0.N := by have : (i 0).val < 50000 := (i 0).isLt; rw [show cfg0.N = 25 from N_0]; omega
  obtain ⟨-, -, -, -, -, -, -, e0, e1, -⟩ := idx_facts0 ⟨_, ht⟩
  refine ⟨⟨_, ht⟩, flush0_5 _, ?_⟩
  show i ∈ ((View.whole main_v2_0).slice (win0_5.rect ⟨_, ht⟩)).set
  rw [View.set_slice_whole, Rect.mem_set_unit]
  exact mem_rows i _ _ (by decide) e0 rfl e1 rfl

theorem cover0_7 (i : S50000x3.Idx) : ∃ t : Fin cfg0.N, (cfg0.win 7).flush t = true ∧ i ∈ ((cfg0.win 7).blk t).view.set := by
  have ht : (i 0).val / 2000 < cfg0.N := by have : (i 0).val < 50000 := (i 0).isLt; rw [show cfg0.N = 25 from N_0]; omega
  obtain ⟨-, -, -, -, -, -, -, -, -, e0, e1⟩ := idx_facts0 ⟨_, ht⟩
  refine ⟨⟨_, ht⟩, flush0_7 _, ?_⟩
  show i ∈ ((View.whole main_v2_2).slice (win0_7.rect ⟨_, ht⟩)).set
  rw [View.set_slice_whole, Rect.mem_set_unit]
  exact mem_rows i _ _ (by decide) e0 rfl e1 rfl

theorem arrAt0_5 (c : Dev nD) (n : Fin 50000) (d : Fin 128) :
    ((dat0 V c).arrAt 5 cfg0.N : S50000x128.Idx → EReal) (ix2 n d) = Spec.z (cX V c) (cWl V c) (cbl V c) n d :=
  congrFun ((dat0 V c).arrAt_eq_of_cover 5 (Gz0 V c) (fun t _ => flushed0_5_eq V c t) cover0_5) (ix2 n d)

/-- By unfolding, the two hypotheses are the first output's. -/
theorem arrAt0_6 (c : Dev nD) (n : Fin 50000) (d : Fin 128) :
    ((dat0 V c).arrAt 6 cfg0.N : S50000x128.Idx → EReal) (ix2 n d) = Spec.z (cX V c) (cWl V c) (cbl V c) n d :=
  congrFun ((dat0 V c).arrAt_eq_of_cover 6 (Gz0 V c) (fun t _ => flushed0_5_eq V c t) cover0_5) (ix2 n d)

theorem arrAt0_7 (c : Dev nD) (n : Fin 50000) (j : Fin 3) :
    ((dat0 V c).arrAt 7 cfg0.N : S50000x3.Idx → EReal) (ix2 n j)
      = ∑ d : Fin 128, Spec.z (cX V c) (cWl V c) (cbl V c) n d * cW1 V c d j :=
  congrFun ((dat0 V c).arrAt_eq_of_cover 7 (Gs0 V c (cW1 V c))
    (fun t _ => flushedS0 V c t _ _ fun d j => congrArg (V c main_v0) (emb0_3 t d j)) cover0_7) (ix2 n j)

/-- By unfolding, the two hypotheses are the third output's, with the other half of the weight. -/
theorem arrAt0_8 (c : Dev nD) (n : Fin 50000) (j : Fin 3) :
    ((dat0 V c).arrAt 8 cfg0.N : S50000x3.Idx → EReal) (ix2 n j)
      = ∑ d : Fin 128, Spec.z (cX V c) (cWl V c) (cbl V c) n d * cW2 V c d j :=
  congrFun ((dat0 V c).arrAt_eq_of_cover 8 (Gs0 V c (cW2 V c))
    (fun t _ => flushedS0 V c t _ _ fun d j => congrArg (V c main_v1) (emb0_3 t d j)) cover0_7) (ix2 n j)

end Cert.KernelIdeal.Hand

end
-- ==== Proof.KVZ.lean ====
import proofs.«404240_j51247549776505_4_alg».proof.Proof.KI.Run
import proofs.«404240_j51247549776505_4_alg».proof.Proof.ValZ
import proofs.«404240_j51247549776505_4_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

def aX (c : Dev nD) : Fin 50000 → Fin 512 → EReal := fun n k => (m ((c : Thread nD τ).loc main_arg0) : S50000x512.Idx → EReal) (ix2 n k)
def aWl (c : Dev nD) : Fin 512 → Fin 128 → EReal := fun k d => (m ((c : Thread nD τ).loc main_arg1) : S512x128.Idx → EReal) (ix2 k d)
def abl (c : Dev nD) : Fin 128 → EReal := fun d => (m ((c : Thread nD τ).loc main_arg2) : S128.Idx → EReal) (ix1 d)
def arW (c : Dev nD) : Fin 256 → Fin 3 → EReal := fun k j => (m ((c : Thread nD τ).loc main_arg3) : S256x3.Idx → EReal) (ix2 k j)
def arb (c : Dev nD) : Fin 3 → EReal := fun j => (m ((c : Thread nD τ).loc main_arg4) : S3.Idx → EReal) (ix1 j)
def apv (c : Dev nD) : Fin 50000 → EReal := fun n => (m ((c : Thread nD τ).loc main_arg5) : S50000.Idx → EReal) (ix1 n)
def aPI (c : Dev nD) : Fin 100000 → BitVec 32 := fun e => (m ((c : Thread nD τ).loc main_arg6) : S2x100000.Idx → BitVec 32) (ix2 0 e)
def aPJ (c : Dev nD) : Fin 100000 → BitVec 32 := fun e => (m ((c : Thread nD τ).loc main_arg6) : S2x100000.Idx → BitVec 32) (ix2 1 e)
def aNI (c : Dev nD) : Fin 100000 → BitVec 32 := fun e => (m ((c : Thread nD τ).loc main_arg7) : S2x100000.Idx → BitVec 32) (ix2 0 e)
def aNJ (c : Dev nD) : Fin 100000 → BitVec 32 := fun e => (m ((c : Thread nD τ).loc main_arg7) : S2x100000.Idx → BitVec 32) (ix2 1 e)
def aPK (c : Dev nD) : Fin 100000 → BitVec 32 := fun e => (m ((c : Thread nD τ).loc main_arg8) : S100000.Idx → BitVec 32) (ix1 e)
def aNK (c : Dev nD) : Fin 100000 → BitVec 32 := fun e => (m ((c : Thread nD τ).loc main_arg9) : S100000.Idx → BitVec 32) (ix1 e)
def aTg (c : Dev nD) : Fin 600000 → BitVec 32 := fun r => (m ((c : Thread nD τ).loc main_arg10) : S600000.Idx → BitVec 32) (ix1 r)

-- an argument written neither by the first host stretch nor by the first region keeps its launch contents
theorem W2_arg (c : Dev nD) (a : Ref sig .tc) (ha : a ∈ [main_arg4, main_arg5, main_arg6, main_arg7, main_arg8, main_arg9, main_arg10]) :
    W2 m ρ c (Proc.devRef .tc a) = m ((c : Thread nD τ).loc a) := by
  simp only [List.mem_cons, List.not_mem_nil, or_false] at ha
  rcases ha with rfl | rfl | rfl | rfl | rfl | rfl | rfl <;>
    exact (W2_of_ne m ρ c _ (by decide)).trans (W1_of m ρ c _ (by decide))

theorem cX_eq (c : Dev nD) : cX (V1 m ρ) c = aX m c := by
  funext n k
  exact congrFun (W1_of m ρ c main_arg0 (by decide)) (ix2 n k)
theorem cWl_eq (c : Dev nD) : cWl (V1 m ρ) c = aWl m c := by
  funext k d
  exact congrFun (W1_of m ρ c main_arg1 (by decide)) (ix2 k d)
theorem cbl_eq (c : Dev nD) : cbl (V1 m ρ) c = abl m c := by
  funext d
  exact congrFun (W1_of m ρ c main_arg2 (by decide)) (ix1 d)

theorem W1_main_v0 (c : Dev nD) :
    W1 m ρ c (Proc.devRef .tc main_v0)
      = extractStridedSlice S128x3 ![0, 0] (m ((c : Thread nD τ).loc main_arg3) : S256x3.Idx → EReal) slices_S256x3_S128x3_0_0 := by
  show StableHlo.after hostOps0 _ (Proc.devRef .tc main_v0) = _
  after_results

theorem W1_main_v1 (c : Dev nD) :
    W1 m ρ c (Proc.devRef .tc main_v1)
      = extractStridedSlice S128x3 ![128, 0] (m ((c : Thread nD τ).loc main_arg3) : S256x3.Idx → EReal) slices_S256x3_S128x3_128_0 := by
  show StableHlo.after hostOps0 _ (Proc.devRef .tc main_v1) = _
  after_results

-- the two halves of the head's weight are its rows 0 … 127 and 128 … 255
theorem cW1_eq (c : Dev nD) (d : Fin 128) (j : Fin 3) : cW1 (V1 m ρ) c d j = arW m c ⟨d.val, by omega⟩ j := by
  show (W1 m ρ c (Proc.devRef .tc main_v0) : S128x3.Idx → EReal) (ix2 d j) = _
  rw [W1_main_v0 m ρ c]
  exact slice2_axis0_apply 0 _ _ d j ⟨d.val, by omega⟩ (Nat.zero_add _).symm

theorem cW2_eq (c : Dev nD) (d : Fin 128) (j : Fin 3) : cW2 (V1 m ρ) c d j = arW m c ⟨128 + d.val, by omega⟩ j := by
  show (W1 m ρ c (Proc.devRef .tc main_v1) : S128x3.Idx → EReal) (ix2 d j) = _
  rw [W1_main_v1 m ρ c]
  exact slice2_axis0_apply 128 _ _ d j ⟨128 + d.val, by omega⟩ rfl

-- the first region's outputs: the embedding (twice) and its two half projections
theorem z_val (c : Dev nD) (n : Fin 50000) (d : Fin 128) :
    (W2 m ρ c (Proc.devRef .tc main_v2_0) : S50000x128.Idx → EReal) (ix2 n d) = Spec.z (aX m c) (aWl m c) (abl m c) n d := by
  have h : W2 m ρ c (Proc.devRef .tc main_v2_0) = (dat0 (V1 m ρ) c).arrAt 5 cfg0.N := W2_arr m ρ c 5
  rw [h, arrAt0_5 (V1 m ρ) c n d, cX_eq, cWl_eq, cbl_eq]

theorem zb_val (c : Dev nD) (n : Fin 50000) (d : Fin 128) :
    (W2 m ρ c (Proc.devRef .tc main_v2_1) : S50000x128.Idx → EReal) (ix2 n d) = Spec.z (aX m c) (aWl m c) (abl m c) n d := by
  have h : W2 m ρ c (Proc.devRef .tc main_v2_1) = (dat0 (V1 m ρ) c).arrAt 6 cfg0.N := W2_arr m ρ c 6
  rw [h, arrAt0_6 (V1 m ρ) c n d, cX_eq, cWl_eq, cbl_eq]

theorem s1_val (c : Dev nD) (n : Fin 50000) (j : Fin 3) :
    (W2 m ρ c (Proc.devRef .tc main_v2_2) : S50000x3.Idx → EReal) (ix2 n j) = Spec.s1 (aX m c) (aWl m c) (abl m c) (arW m c) n j := by
  have h : W2 m ρ c (Proc.devRef .tc main_v2_2) = (dat0 (V1 m ρ) c).arrAt 7 cfg0.N := W2_arr m ρ c 7
  rw [h, arrAt0_7 (V1 m ρ) c n j, cX_eq, cWl_eq, cbl_eq]
  show @Eq EReal _ _
  exact Finset.sum_congr rfl fun d _ => by rw [cW1_eq]

theorem s2_val (c : Dev nD) (n : Fin 50000) (j : Fin 3) :
    (W2 m ρ c (Proc.devRef .tc main_v2_3) : S50000x3.Idx → EReal) (ix2 n j) = Spec.s2 (aX m c) (aWl m c) (abl m c) (arW m c) n j := by
  have h : W2 m ρ c (Proc.devRef .tc main_v2_3) = (dat0 (V1 m ρ) c).arrAt 8 cfg0.N := W2_arr m ρ c 8
  rw [h, arrAt0_8 (V1 m ρ) c n j, cX_eq, cWl_eq, cbl_eq]
  show @Eq EReal _ _
  exact Finset.sum_congr rfl fun d _ => by rw [cW2_eq]

end Cert.KernelIdeal.Hand

end
-- ==== Proof.LibAcc.lean ====
import Idealize.ShloMosaic.Lib.ValueIdx
import Idealize.ShloMosaic.Lib.ValueLayout
import Idealize.ShloMosaic.Lib.Pipeline.Value
import Idealize.ShloMosaic.PureOps.Ideal.Laws

noncomputable section

namespace Cert.Hand

open Idealize.ShloMosaic Idealize.ShloMosaic.TcCoe Idealize.ShloMosaic.ValueIdx

/-- The reduction sums over the one axis it drops, and the column keeps the rows in order. -/
theorem laneSum_col {a b : ℕ} (w : FVec Ideal ⟨2, ![a, b]⟩ .f32)
    (h : (⟨2, ![a, b]⟩ : Shape).Reduces ([1] : List (Fin 2)) ⟨1, ![a]⟩) (hφ : FKind.Formats .f32)
    (hacc : (0x00000000#32 : BitVec 32) = FKind.add.neutral .f32 hφ) (hc : (⟨1, ![a]⟩ : Shape).ShapeCasts ⟨2, ![a, 1]⟩)
    (q : Fin a) (u : Fin 1) :
    shapeCast ⟨2, ![a, 1]⟩ (multiReduction .add [1] ⟨1, ![a]⟩ w 0x00000000#32 h hφ hacc) hc (ix2 q u)
      = ∑ d : Fin b, w (ix2 q d) := by
  refine (shapeCast_apply _ hc (ix2 q u) (ix1 q) ?_).trans ?_
  · rw [Shape.rowMajor_val_one, Shape.rowMajor_val_two]
    show q.val = q.val * 1 + u.val
    omega
  · refine (Ideal.multiReduction_add_single w _ h hφ hacc (ix1 q)).trans ?_
    refine Finset.sum_congr rfl fun d _ => congrArg w (funext fun x => Fin.ext ?_)
    match x with
    | ⟨0, _⟩ => rfl
    | ⟨1, _⟩ => rfl

/-- The reduction sums over the one axis it drops; what is left has a single entry. -/
theorem colSum_cell {a : ℕ} (w : FVec Ideal ⟨2, ![a, 1]⟩ .f32)
    (h : (⟨2, ![a, 1]⟩ : Shape).Reduces ([0] : List (Fin 2)) ⟨1, ![1]⟩) (hφ : FKind.Formats .f32)
    (hacc : (0x00000000#32 : BitVec 32) = FKind.add.neutral .f32 hφ) (hc : (⟨1, ![1]⟩ : Shape).ShapeCasts ⟨2, ![1, 1]⟩)
    (u v : Fin 1) :
    shapeCast ⟨2, ![1, 1]⟩ (multiReduction .add [0] ⟨1, ![1]⟩ w 0x00000000#32 h hφ hacc) hc (ix2 u v)
      = ∑ q : Fin a, w (ix2 q 0) := by
  refine (shapeCast_apply _ hc (ix2 u v) (ix1 u) ?_).trans ?_
  · rw [Shape.rowMajor_val_one, Shape.rowMajor_val_two]
    show u.val = u.val * 1 + v.val
    omega
  · refine (Ideal.multiReduction_add_single w _ h hφ hacc (ix1 u)).trans ?_
    refine Finset.sum_congr rfl fun q _ => congrArg w (funext fun x => Fin.ext ?_)
    match x with
    | ⟨0, _⟩ => rfl
    | ⟨1, _⟩ => show u.val = 0; omega

/-- Every axis of the source has extent one, so every entry reads its coordinate zero. -/
theorem spread_cell {α : Type} {m n : ℕ} (v : (⟨2, ![1, 1]⟩ : Shape).Idx → α)
    (hc : (⟨2, ![1, 1]⟩ : Shape).ShapeCasts ⟨3, ![1, 1, 1]⟩) (hb : (⟨3, ![1, 1, 1]⟩ : Shape).Broadcasts ⟨3, ![1, m, n]⟩)
    (j : (⟨3, ![1, m, n]⟩ : Shape).Idx) :
    broadcastTo ⟨3, ![1, m, n]⟩ (shapeCast ⟨3, ![1, 1, 1]⟩ v hc) hb j = v (ix2 0 0) :=
  (broadcastTo_apply _ hb j (ix3 0 0 0) fun x => by
    match x with
    | ⟨0, _⟩ => rfl
    | ⟨1, _⟩ => rfl
    | ⟨2, _⟩ => rfl).trans (shapeCast_ab_1ab_apply v hc 0 0 0)

/-- Induction on the step within the run: the first step restarts the sum, every later one adds its term. -/
theorem run_sum {N J : ℕ} (f : (n : ℕ) → n < N → EReal) (M : ℕ → EReal) (h0 : ∀ n h, n % J = 0 → f n h = M n)
    (h1 : ∀ n (h : n + 1 < N), (n + 1) % J ≠ 0 → f (n + 1) h = f n (Nat.lt_of_succ_lt h) + M (n + 1)) (r : ℕ) :
    ∀ (s : ℕ) (_ : s < J) (h : J * r + s < N), f (J * r + s) h = ∑ j ∈ Finset.range (s + 1), M (J * r + j)
  | 0, _, h => by
    rw [Finset.sum_range_one]
    exact h0 _ h (by rw [Nat.add_zero, Nat.mul_mod_right])
  | s + 1, hs, h => by
    rw [Finset.sum_range_succ, ← run_sum f M h0 h1 r s (Nat.lt_of_succ_lt hs) (Nat.lt_of_succ_lt h)]
    exact h1 _ h (by show (J * r + (s + 1)) % J ≠ 0; rw [Nat.mul_add_mod, Nat.mod_eq_of_lt hs]; exact Nat.succ_ne_zero s)

/-- A step that is J - 1 modulo J is J (t / J) + (J - 1), the last of its run. -/
theorem run_sum_last {N J : ℕ} (f : (n : ℕ) → n < N → EReal) (M : ℕ → EReal) (h0 : ∀ n h, n % J = 0 → f n h = M n)
    (h1 : ∀ n (h : n + 1 < N), (n + 1) % J ≠ 0 → f (n + 1) h = f n (Nat.lt_of_succ_lt h) + M (n + 1)) (hJ : 0 < J)
    (t : ℕ) (h : t < N) (ht : t % J = J - 1) : f t h = ∑ j ∈ Finset.range J, M (J * (t / J) + j) := by
  have e : J * (t / J) + (J - 1) = t := by rw [← ht]; exact Nat.div_add_mod t J
  have same : ∀ (u : ℕ) (hu : u < N), u = t → f u hu = f t h := fun u hu e => by subst e; rfl
  have key := run_sum f M h0 h1 (t / J) (J - 1) (Nat.sub_lt hJ Nat.one_pos) (by rw [e]; exact h)
  rw [Nat.sub_add_cancel hJ] at key
  exact (same _ _ e).symm.trans key

/-- Extent one on the leading axis, the whole extent on the other two: the bounds hold coordinate by coordinate. -/
theorem mem_slab {n : Fin 3 → ℕ} (i : (a : Fin 3) → Fin (n a)) (ix sz : Fin 3 → ℕ) (h0 : ix 0 = (i 0).val) (hs0 : sz 0 = 1)
    (h1 : ix 1 = 0) (hs1 : sz 1 = n 1) (h2 : ix 2 = 0) (hs2 : sz 2 = n 2) (a : Fin 3) :
    ix a * sz a ≤ (i a).val ∧ (i a).val < ix a * sz a + sz a :=
  match a with
  | ⟨0, _⟩ => by show ix 0 * sz 0 ≤ (i 0).val ∧ (i 0).val < ix 0 * sz 0 + sz 0; rw [h0, hs0]; omega
  | ⟨1, _⟩ => by show ix 1 * sz 1 ≤ (i 1).val ∧ (i 1).val < ix 1 * sz 1 + sz 1; rw [h1, hs1]; have := (i 1).isLt; omega
  | ⟨2, _⟩ => by show ix 2 * sz 2 ≤ (i 2).val ∧ (i 2).val < ix 2 * sz 2 + sz 2; rw [h2, hs2]; have := (i 2).isLt; omega

end Cert.Hand

end
-- ==== Proof.ValMse1.lean ====
import proofs.«404240_j51247549776505_4_alg».proof.Proof.KI.Reg1
import proofs.«404240_j51247549776505_4_alg».proof.Proof.Spec
import proofs.«404240_j51247549776505_4_alg».proof.Proof.LibAcc

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

theorem pay4_apply1 (x0 x1 : Vec Ideal S5000x128 .bf16) (x2 x3 : Vec Ideal S5000x1 .f32) :
    k1_pay4 (F := Ideal) x0 x1 x2 x3 (ix2 0 0)
      = Spec.half * ∑ q : Fin 5000, Spec.sqd Spec.one
          (Spec.score (fun d => x0 (ix2 q d)) (fun d => x1 (ix2 q d)) (x2 (ix2 q 0)) (x3 (ix2 q 0))) := by
  unfold k1_pay4
  simp only [shapeCast_self]
  refine (mulf_apply _ _ _).trans (congrArg₂ (· * ·) rfl ?_)
  refine (colSum_cell _ _ _ _ _ 0 0).trans (Finset.sum_congr rfl fun q _ => ?_)
  have sq : ∀ (S : FVec Ideal S5000x1 .f32) (y : EReal), S (ix2 q 0) = Spec.one - y → mulf S S (ix2 q 0) = Spec.sqd Spec.one y :=
    fun S y h => (mulf_apply S S _).trans (congrArg₂ (· * ·) h h)
  refine sq _ _ ?_
  refine (subf_apply _ _ _).trans (congrArg₂ (· - ·) rfl ?_)
  refine (addf_apply _ _ _).trans (congrArg₂ (· + ·) ?_ rfl)
  refine (mulf_apply _ _ _).trans (congrArg₂ (· * ·) rfl ?_)
  refine (divf_apply _ _ _).trans (congrArg₂ Ideal.div (laneSum_col _ _ _ _ _ q 0) ?_)
  refine (mulf_apply _ _ _).trans (congrArg₂ (· * ·) ?_ ?_) <;>
    exact (maximumf_apply _ _ _).trans (congrArg₂ max (congrArg Ideal.sqrt (laneSum_col _ _ _ _ _ q 0)) rfl)

variable (V : (c : Dev nD) → (b : Ref sig .tc) → Buf (Elt Ideal) ((c : Thread nD τ).loc b))

def cZi1 (c : Dev nD) : Fin 100000 → Fin 128 → EReal := fun e d => (V c main_v17 : S100000x128.Idx → EReal) (ix2 e d)
def cZj1 (c : Dev nD) : Fin 100000 → Fin 128 → EReal := fun e d => (V c main_v24 : S100000x128.Idx → EReal) (ix2 e d)
def cPi1 (c : Dev nD) : Fin 100000 → EReal := fun e => (V c main_v67 : S100000x1.Idx → EReal) (ix2 e 0)
def cPj1 (c : Dev nD) : Fin 100000 → EReal := fun e => (V c main_v68 : S100000x1.Idx → EReal) (ix2 e 0)

def sq1 (c : Dev nD) (e : Fin 100000) : EReal :=
  Spec.sqd Spec.one (Spec.score (cZi1 V c e) (cZj1 V c e) (cPi1 V c e) (cPj1 V c e))

theorem mseN1 : cfg1.N = 20 := N_1

theorem idx_facts1 : ∀ t : Fin cfg1.N,
    win1_0.index t (0 : Fin 2) = t.val ∧ win1_0.index t (1 : Fin 2) = 0
    ∧ win1_2.index t (0 : Fin 2) = t.val ∧ win1_2.index t (1 : Fin 2) = 0
    ∧ win1_4.index t (0 : Fin 3) = t.val / 10 ∧ win1_4.index t (1 : Fin 3) = 0 ∧ win1_4.index t (2 : Fin 3) = 0 :=
  (by decide +kernel : ∀ t : Fin grid1.N, _)

theorem emb1_0 (t : Fin cfg1.N) (q : Fin 5000) (d : Fin 128) (e : Fin 100000) (he : e.val = 5000 * t.val + q.val) :
    ((cfg1.win 0).blk t).view.emb (ix2 q d) = ix2 e d := by
  obtain ⟨h0, h1, -⟩ := idx_facts1 t
  refine Shape.idx_ext₂ ?_ ?_
  · show win1_0.index t (0 : Fin 2) * 5000 + 1 * q.val = e.val; rw [h0, he]; omega
  · show win1_0.index t (1 : Fin 2) * 128 + 1 * d.val = d.val; rw [h1]; omega

theorem emb1_2 (t : Fin cfg1.N) (q : Fin 5000) (e : Fin 100000) (he : e.val = 5000 * t.val + q.val) :
    ((cfg1.win 2).blk t).view.emb (ix2 q 0) = ix2 e 0 := by
  obtain ⟨-, -, h0, h1, -⟩ := idx_facts1 t
  refine Shape.idx_ext₂ ?_ ?_
  · show win1_2.index t (0 : Fin 2) * 5000 + 1 * q.val = e.val; rw [h0, he]; omega
  · show win1_2.index t (1 : Fin 2) * 1 + 1 * 0 = 0; rw [h1]

theorem part1_apply (c : Dev nD) (t : Fin cfg1.N) :
    part1 V c t (ix2 0 0)
      = Spec.half * ∑ q : Fin 5000, sq1 V c ⟨5000 * t.val + q.val, by have := t.isLt; have := mseN1; omega⟩ := by
  unfold part1
  refine (pay4_apply1 (iblk1 V c 0 t) (iblk1 V c 1 t) (iblk1 V c 2 t) (iblk1 V c 3 t)).trans ?_
  refine congrArg (Spec.half * ·) (Finset.sum_congr rfl fun q _ => ?_)
  unfold sq1
  exact congrArg (Spec.sqd Spec.one) (congr (congr (congrArg₂ Spec.score
    (funext fun d => congrArg (V c main_v17) (emb1_0 t q d _ rfl)) (funext fun d => congrArg (V c main_v24) (emb1_0 t q d _ rfl)))
    (congrArg (V c main_v67) (emb1_2 t q _ rfl))) (congrArg (V c main_v68) (emb1_2 t q _ rfl)))

def tile1 (c : Dev nD) (n : ℕ) : EReal := if h : n < cfg1.N then part1 V c ⟨n, h⟩ (ix2 0 0) else 0

theorem tile1_eq (c : Dev nD) (n : ℕ) (h : n < cfg1.N) : tile1 V c n = part1 V c ⟨n, h⟩ (ix2 0 0) := dif_pos h

theorem pay1_apply1 (v : FVec Ideal S1x1 .f32) : k1_pay1 (F := Ideal) v = v := by
  unfold k1_pay1
  exact shapeCast_self _ _

theorem pay2_apply1 (v a : FVec Ideal S1x1 .f32) (i : S1x1.Idx) : k1_pay2 (F := Ideal) v a i = a i + v i := by
  unfold k1_pay2
  rw [shapeCast_self]
  rfl

theorem pay3_apply1 (v : FVec Ideal S1x1 .f32) (j : S1x8x128.Idx) : k1_pay3 (F := Ideal) v j = v (ix2 0 0) := by
  unfold k1_pay3
  exact spread_cell v _ _ j

theorem acc1_last (c : Dev nD) (t : Fin cfg1.N) (h9 : t.val % 10 = 9) :
    acc1 V c t.val t.isLt (ix2 0 0) = ∑ j ∈ Finset.range 10, tile1 V c (10 * (t.val / 10) + j) :=
  run_sum_last (fun n h => acc1 V c n h (ix2 0 0)) (tile1 V c)
    (fun n h hm => (congrFun ((acc1_first V c ⟨n, h⟩ hm).trans (pay1_apply1 _)) _).trans (tile1_eq V c n h).symm)
    (fun n h hm => (congrFun (acc1_next V c ⟨n + 1, h⟩ hm) _).trans
      ((pay2_apply1 _ _ _).trans (congrArg (_ + ·) (tile1_eq V c _ h).symm)))
    (by decide) t.val t.isLt h9

def mseG1 (c : Dev nD) : S2x8x128.Idx → EReal := fun i => ∑ j ∈ Finset.range 10, tile1 V c (10 * (i 0).val + j)

theorem flushed1_4_eq (c : Dev nD) (t : Fin cfg1.N) (hf : (cfg1.win 4).flush t = true) :
    (dat1 V c).flushed 4 t = ((cfg1.win 4).blk t).view.read (Elt Ideal) (mseG1 V c) := by
  obtain ⟨-, -, -, -, h0, -, -⟩ := idx_facts1 t
  funext y
  have he : ((((cfg1.win 4).blk t).view.emb y) 0).val = t.val / 10 := by
    show win1_4.index t (0 : Fin 3) * 1 + 1 * (y 0).val = _
    have hy : (y 0).val < 1 := (y 0).isLt
    rw [h0]; omega
  show k1_pay3 (acc1 V c t.val t.isLt) ((cfg1.win 4).xinj (grid1.coords t) y) = mseG1 V c (((cfg1.win 4).blk t).view.emb y)
  unfold mseG1
  rw [he]
  exact (pay3_apply1 _ _).trans (acc1_last V c t ((flush1_4 t).mp hf))

theorem arrAt1_4 (c : Dev nD) (r : Fin 2) (a : Fin 8) (l : Fin 128) :
    ((dat1 V c).arrAt 4 cfg1.N : S2x8x128.Idx → EReal) (ix3 r a l)
      = ∑ s : Fin 10, Spec.half * ∑ q : Fin 5000, sq1 V c ⟨5000 * (10 * r.val + s.val) + q.val, by omega⟩ := by
  have hN := mseN1
  have hr := r.isLt
  have ht : 10 * r.val + 9 < cfg1.N := by omega
  obtain ⟨-, -, -, -, h0, h1, h2⟩ := idx_facts1 ⟨_, ht⟩
  have hmem : (ix3 r a l : S2x8x128.Idx) ∈ ((cfg1.win 4).blk ⟨_, ht⟩).view.set := by
    show _ ∈ ((View.whole main_v69).slice (win1_4.rect ⟨_, ht⟩)).set
    rw [View.set_slice_whole, Rect.mem_set_unit]
    exact mem_slab (ix3 r a l) _ _ (h0.trans (by show (10 * r.val + 9) / 10 = r.val; omega)) rfl h1 rfl h2 rfl
  refine ((dat1 V c).arrAt_apply_of_mem 4 (mseG1 V c) (flushed1_4_eq V c) cfg1.N ⟨_, ht⟩ (ix3 r a l) ht
    ((flush1_4 _).mpr (by show (10 * r.val + 9) % 10 = 9; omega)) hmem).trans ?_
  show ∑ j ∈ Finset.range 10, tile1 V c (10 * r.val + j) = _
  rw [Finset.sum_range]
  refine Finset.sum_congr rfl fun s _ => ?_
  have hs : 10 * r.val + s.val < cfg1.N := by have := s.isLt; omega
  rw [tile1_eq V c _ hs]
  exact part1_apply V c ⟨_, hs⟩

end Cert.KernelIdeal.Hand

end
-- ==== Proof.ValMse2.lean ====
import proofs.«404240_j51247549776505_4_alg».proof.Proof.KI.Reg2
import proofs.«404240_j51247549776505_4_alg».proof.Proof.Spec
import proofs.«404240_j51247549776505_4_alg».proof.Proof.LibAcc

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

theorem pay4_apply2 (x0 x1 : Vec Ideal S5000x128 .bf16) (x2 x3 : Vec Ideal S5000x1 .f32) :
    k2_pay4 (F := Ideal) x0 x1 x2 x3 (ix2 0 0)
      = Spec.half * ∑ q : Fin 5000, Spec.sqd Spec.zero
          (Spec.score (fun d => x0 (ix2 q d)) (fun d => x1 (ix2 q d)) (x2 (ix2 q 0)) (x3 (ix2 q 0))) := by
  unfold k2_pay4
  simp only [shapeCast_self]
  refine (mulf_apply _ _ _).trans (congrArg₂ (· * ·) rfl ?_)
  refine (colSum_cell _ _ _ _ _ 0 0).trans (Finset.sum_congr rfl fun q _ => ?_)
  have sq : ∀ (S : FVec Ideal S5000x1 .f32) (y : EReal), S (ix2 q 0) = Spec.zero - y → mulf S S (ix2 q 0) = Spec.sqd Spec.zero y :=
    fun S y h => (mulf_apply S S _).trans (congrArg₂ (· * ·) h h)
  refine sq _ _ ?_
  refine (subf_apply _ _ _).trans (congrArg₂ (· - ·) rfl ?_)
  refine (addf_apply _ _ _).trans (congrArg₂ (· + ·) ?_ rfl)
  refine (mulf_apply _ _ _).trans (congrArg₂ (· * ·) rfl ?_)
  refine (divf_apply _ _ _).trans (congrArg₂ Ideal.div (laneSum_col _ _ _ _ _ q 0) ?_)
  refine (mulf_apply _ _ _).trans (congrArg₂ (· * ·) ?_ ?_) <;>
    exact (maximumf_apply _ _ _).trans (congrArg₂ max (congrArg Ideal.sqrt (laneSum_col _ _ _ _ _ q 0)) rfl)

variable (V : (c : Dev nD) → (b : Ref sig .tc) → Buf (Elt Ideal) ((c : Thread nD τ).loc b))

def cZi2 (c : Dev nD) : Fin 100000 → Fin 128 → EReal := fun e d => (V c main_v31 : S100000x128.Idx → EReal) (ix2 e d)
def cZj2 (c : Dev nD) : Fin 100000 → Fin 128 → EReal := fun e d => (V c main_v38 : S100000x128.Idx → EReal) (ix2 e d)
def cPi2 (c : Dev nD) : Fin 100000 → EReal := fun e => (V c main_v73 : S100000x1.Idx → EReal) (ix2 e 0)
def cPj2 (c : Dev nD) : Fin 100000 → EReal := fun e => (V c main_v74 : S100000x1.Idx → EReal) (ix2 e 0)

def sq2 (c : Dev nD) (e : Fin 100000) : EReal :=
  Spec.sqd Spec.zero (Spec.score (cZi2 V c e) (cZj2 V c e) (cPi2 V c e) (cPj2 V c e))

theorem mseN2 : cfg2.N = 20 := N_2

theorem idx_facts2 : ∀ t : Fin cfg2.N,
    win2_0.index t (0 : Fin 2) = t.val ∧ win2_0.index t (1 : Fin 2) = 0
    ∧ win2_2.index t (0 : Fin 2) = t.val ∧ win2_2.index t (1 : Fin 2) = 0
    ∧ win2_4.index t (0 : Fin 3) = t.val / 10 ∧ win2_4.index t (1 : Fin 3) = 0 ∧ win2_4.index t (2 : Fin 3) = 0 :=
  (by decide +kernel : ∀ t : Fin grid2.N, _)

theorem emb2_0 (t : Fin cfg2.N) (q : Fin 5000) (d : Fin 128) (e : Fin 100000) (he : e.val = 5000 * t.val + q.val) :
    ((cfg2.win 0).blk t).view.emb (ix2 q d) = ix2 e d := by
  obtain ⟨h0, h1, -⟩ := idx_facts2 t
  refine Shape.idx_ext₂ ?_ ?_
  · show win2_0.index t (0 : Fin 2) * 5000 + 1 * q.val = e.val; rw [h0, he]; omega
  · show win2_0.index t (1 : Fin 2) * 128 + 1 * d.val = d.val; rw [h1]; omega

theorem emb2_2 (t : Fin cfg2.N) (q : Fin 5000) (e : Fin 100000) (he : e.val = 5000 * t.val + q.val) :
    ((cfg2.win 2).blk t).view.emb (ix2 q 0) = ix2 e 0 := by
  obtain ⟨-, -, h0, h1, -⟩ := idx_facts2 t
  refine Shape.idx_ext₂ ?_ ?_
  · show win2_2.index t (0 : Fin 2) * 5000 + 1 * q.val = e.val; rw [h0, he]; omega
  · show win2_2.index t (1 : Fin 2) * 1 + 1 * 0 = 0; rw [h1]

theorem part2_apply (c : Dev nD) (t : Fin cfg2.N) :
    part2 V c t (ix2 0 0)
      = Spec.half * ∑ q : Fin 5000, sq2 V c ⟨5000 * t.val + q.val, by have := t.isLt; have := mseN2; omega⟩ := by
  unfold part2
  refine (pay4_apply2 (iblk2 V c 0 t) (iblk2 V c 1 t) (iblk2 V c 2 t) (iblk2 V c 3 t)).trans ?_
  refine congrArg (Spec.half * ·) (Finset.sum_congr rfl fun q _ => ?_)
  unfold sq2
  exact congrArg (Spec.sqd Spec.zero) (congr (congr (congrArg₂ Spec.score
    (funext fun d => congrArg (V c main_v31) (emb2_0 t q d _ rfl)) (funext fun d => congrArg (V c main_v38) (emb2_0 t q d _ rfl)))
    (congrArg (V c main_v73) (emb2_2 t q _ rfl))) (congrArg (V c main_v74) (emb2_2 t q _ rfl)))

def tile2 (c : Dev nD) (n : ℕ) : EReal := if h : n < cfg2.N then part2 V c ⟨n, h⟩ (ix2 0 0) else 0

theorem tile2_eq (c : Dev nD) (n : ℕ) (h : n < cfg2.N) : tile2 V c n = part2 V c ⟨n, h⟩ (ix2 0 0) := dif_pos h

theorem pay1_apply2 (v : FVec Ideal S1x1 .f32) : k2_pay1 (F := Ideal) v = v := by
  unfold k2_pay1
  exact shapeCast_self _ _

theorem pay2_apply2 (v a : FVec Ideal S1x1 .f32) (i : S1x1.Idx) : k2_pay2 (F := Ideal) v a i = a i + v i := by
  unfold k2_pay2
  rw [shapeCast_self]
  rfl

theorem pay3_apply2 (v : FVec Ideal S1x1 .f32) (j : S1x8x128.Idx) : k2_pay3 (F := Ideal) v j = v (ix2 0 0) := by
  unfold k2_pay3
  exact spread_cell v _ _ j

theorem acc2_last (c : Dev nD) (t : Fin cfg2.N) (h9 : t.val % 10 = 9) :
    acc2 V c t.val t.isLt (ix2 0 0) = ∑ j ∈ Finset.range 10, tile2 V c (10 * (t.val / 10) + j) :=
  run_sum_last (fun n h => acc2 V c n h (ix2 0 0)) (tile2 V c)
    (fun n h hm => (congrFun ((acc2_first V c ⟨n, h⟩ hm).trans (pay1_apply2 _)) _).trans (tile2_eq V c n h).symm)
    (fun n h hm => (congrFun (acc2_next V c ⟨n + 1, h⟩ hm) _).trans
      ((pay2_apply2 _ _ _).trans (congrArg (_ + ·) (tile2_eq V c _ h).symm)))
    (by decide) t.val t.isLt h9

def mseG2 (c : Dev nD) : S2x8x128.Idx → EReal := fun i => ∑ j ∈ Finset.range 10, tile2 V c (10 * (i 0).val + j)

theorem flushed2_4_eq (c : Dev nD) (t : Fin cfg2.N) (hf : (cfg2.win 4).flush t = true) :
    (dat2 V c).flushed 4 t = ((cfg2.win 4).blk t).view.read (Elt Ideal) (mseG2 V c) := by
  obtain ⟨-, -, -, -, h0, -, -⟩ := idx_facts2 t
  funext y
  have he : ((((cfg2.win 4).blk t).view.emb y) 0).val = t.val / 10 := by
    show win2_4.index t (0 : Fin 3) * 1 + 1 * (y 0).val = _
    have hy : (y 0).val < 1 := (y 0).isLt
    rw [h0]; omega
  show k2_pay3 (acc2 V c t.val t.isLt) ((cfg2.win 4).xinj (grid2.coords t) y) = mseG2 V c (((cfg2.win 4).blk t).view.emb y)
  unfold mseG2
  rw [he]
  exact (pay3_apply2 _ _).trans (acc2_last V c t ((flush2_4 t).mp hf))

theorem arrAt2_4 (c : Dev nD) (r : Fin 2) (a : Fin 8) (l : Fin 128) :
    ((dat2 V c).arrAt 4 cfg2.N : S2x8x128.Idx → EReal) (ix3 r a l)
      = ∑ s : Fin 10, Spec.half * ∑ q : Fin 5000, sq2 V c ⟨5000 * (10 * r.val + s.val) + q.val, by omega⟩ := by
  have hN := mseN2
  have hr := r.isLt
  have ht : 10 * r.val + 9 < cfg2.N := by omega
  obtain ⟨-, -, -, -, h0, h1, h2⟩ := idx_facts2 ⟨_, ht⟩
  have hmem : (ix3 r a l : S2x8x128.Idx) ∈ ((cfg2.win 4).blk ⟨_, ht⟩).view.set := by
    show _ ∈ ((View.whole main_v75).slice (win2_4.rect ⟨_, ht⟩)).set
    rw [View.set_slice_whole, Rect.mem_set_unit]
    exact mem_slab (ix3 r a l) _ _ (h0.trans (by show (10 * r.val + 9) / 10 = r.val; omega)) rfl h1 rfl h2 rfl
  refine ((dat2 V c).arrAt_apply_of_mem 4 (mseG2 V c) (flushed2_4_eq V c) cfg2.N ⟨_, ht⟩ (ix3 r a l) ht
    ((flush2_4 _).mpr (by show (10 * r.val + 9) % 10 = 9; omega)) hmem).trans ?_
  show ∑ j ∈ Finset.range 10, tile2 V c (10 * r.val + j) = _
  rw [Finset.sum_range]
  refine Finset.sum_congr rfl fun s _ => ?_
  have hs : 10 * r.val + s.val < cfg2.N := by have := s.isLt; omega
  rw [tile2_eq V c _ hs]
  exact part2_apply V c ⟨_, hs⟩

end Cert.KernelIdeal.Hand

end
-- ==== Proof.LibGather.lean ====
import Idealize.ShloMosaic.PureOps.Ideal
import Idealize.ShloMosaic.Lib.ValueIdx
import Idealize.ShloMosaic.Lib.Pipeline.Value
import Idealize.ShloMosaic.Lib.StableHlo.Predicate

noncomputable section

namespace Cert.Gather

open Idealize.ShloMosaic Idealize.ShloMosaic.ValueIdx

abbrev vecGather (A N : Nat) (wf : GatherDims.WF ⟨1, ![A]⟩ ⟨2, ![N, 1]⟩ ⟨1, ![N]⟩ [] [0] [] [0] [] 1 ![1]) :
    GatherDims ⟨1, ![A]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Entry j of the result is the table's entry at the word index j holds, read signed and clamped into the table. -/
theorem gather_vec_apply {α : Type} {A N w : Nat} (hA : 0 < A)
    (wf : GatherDims.WF ⟨1, ![A]⟩ ⟨2, ![N, 1]⟩ ⟨1, ![N]⟩ [] [0] [] [0] [] 1 ![1])
    (x : (⟨1, ![A]⟩ : Shape).Idx → α) (idx : IVec ⟨2, ![N, 1]⟩ w) (j : Fin N) :
    Host.gather (vecGather A N wf) x idx (ix1 j)
      = x (ix1 ⟨min (idx (ix2 j (0 : Fin 1))).toInt.toNat (A - 1), by omega⟩) := by
  have e : ∀ {n : Nat} (p : Fin n), ix1 p = Shape.Idx.ofFin p := fun p => (eq_ix1 _).symm
  rw [e, e]
  refine (StableHlo.Predicate.gather_take (vecGather A N wf) rfl rfl rfl rfl x idx j hA).trans
    (congrArg (fun n => x (Shape.Idx.ofFin n)) (Fin.ext ?_))
  exact congrArg (fun i => min (idx i).toInt.toNat (A - 1)) (eq_ix2 _)

end Cert.Gather

end
-- ==== Proof.LibGatherRows.lean ====
import Idealize.ShloMosaic.PureOps.Ideal
import Idealize.ShloMosaic.Lib.ValueIdx
import Idealize.ShloMosaic.Lib.Pipeline.Value

noncomputable section

namespace Cert.GatherRows

open Idealize.ShloMosaic Idealize.ShloMosaic.ValueIdx

abbrev rowGather (A D N : Nat) (wf : GatherDims.WF ⟨2, ![A, D]⟩ ⟨2, ![N, 1]⟩ ⟨2, ![N, D]⟩ [1] [0] [] [0] [] 1 ![1, D]) :
    GatherDims ⟨2, ![A, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-- Row axis: the clamped index word, read at (j, 0); column axis: the result's own column. -/
theorem gather_rows_apply {α : Type} {A D N w : Nat} (hA : 0 < A)
    (wf : GatherDims.WF ⟨2, ![A, D]⟩ ⟨2, ![N, 1]⟩ ⟨2, ![N, D]⟩ [1] [0] [] [0] [] 1 ![1, D])
    (x : (⟨2, ![A, D]⟩ : Shape).Idx → α) (idx : IVec ⟨2, ![N, 1]⟩ w) (j : Fin N) (d : Fin D) :
    Host.gather (rowGather A D N wf) x idx (ix2 j d)
      = x (ix2 ⟨min (idx (ix2 j (0 : Fin 1))).toInt.toNat (A - 1), by omega⟩ d) := by
  refine congrArg x (funext fun a => Fin.ext ?_)
  match a with
  | ⟨0, _⟩ =>
    exact congrArg (fun i => min (idx i).toInt.toNat (A - 1)) (eq_ix2 _)
  | ⟨1, _⟩ => exact Nat.zero_add _

abbrev alongGather (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Row axis: the result's own row; column axis: the clamped index word, read at (r, 0, 0). -/
theorem gather_along_apply {α : Type} {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongGather R C wf) x idx (ix2 r (0 : Fin 1))
      = x (ix2 r ⟨min (idx (ix3 r (0 : Fin 1) (0 : Fin 1))).toInt.toNat (C - 1), by omega⟩) := by
  refine congrArg x (funext fun a => Fin.ext ?_)
  match a with
  | ⟨0, _⟩ => exact Nat.zero_add _
  | ⟨1, _⟩ =>
    exact congrArg (fun i => min (idx i).toInt.toNat (C - 1)) (eq_ix3 _)

end Cert.GatherRows

end
-- ==== Proof.KVMse.lean ====
import proofs.«404240_j51247549776505_4_alg».proof.Proof.KVZ
import proofs.«404240_j51247549776505_4_alg».proof.Proof.ValMse1
import proofs.«404240_j51247549776505_4_alg».proof.Proof.ValMse2
import proofs.«404240_j51247549776505_4_alg».proof.Proof.LibGather
import proofs.«404240_j51247549776505_4_alg».proof.Proof.LibGatherRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

namespace Mse

-- a rank-1 index set is its coordinate range
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun r => rfl⟩ _ _ fun i => congrArg f (eq_ix1 i)

def row0 (a : IVec S2x100000 32) : IVec S100000 32 :=
  shapeCast S100000 (extractStridedSlice S1x100000 ![0, 0] a slices_S2x100000_S1x100000_0_0) shapeCasts_S1x100000_S100000

def row1 (a : IVec S2x100000 32) : IVec S100000 32 :=
  shapeCast S100000 (extractStridedSlice S1x100000 ![1, 0] a slices_S2x100000_S1x100000_1_0) shapeCasts_S1x100000_S100000

theorem row0_apply (a : IVec S2x100000 32) (e : Fin 100000) : row0 a (ix1 e) = a (ix2 0 e) := by
  unfold row0
  exact (shapeCast_1a_a_apply _ _ e).trans (slice2_axis0_apply 0 a _ 0 e 0 rfl)

theorem row1_apply (a : IVec S2x100000 32) (e : Fin 100000) : row1 a (ix1 e) = a (ix2 1 e) := by
  unfold row1
  exact (shapeCast_1a_a_apply _ _ e).trans (slice2_axis0_apply 1 a _ 0 e 1 rfl)

-- an index vector with each negative word wrapped by the extent 50000, as a column
def nrm (v : IVec S100000 32) : IVec S100000x1 32 :=
  broadcastInDim S100000x1 ![0] bcast_S100000_S100000x1_0
    (select (cmpi .slt v (broadcastInDim S100000 ![] bcast_S_S100000 (constantI S_ 32 0#32)))
      (addi v (broadcastInDim S100000 ![] bcast_S_S100000 (constantI S_ 32 50000#32))) v)

theorem nrm_apply (v : IVec S100000 32) (e : Fin 100000) : nrm v (ix2 e 0) = Spec.wrap (v (ix1 e)) := by
  unfold nrm
  refine (broadcastInDim_apply _ _ _ (ix2 e (0 : Fin 1)) (ix1 e) fun a => ?_).trans ?_
  · match a with
    | ⟨0, _⟩ => rfl
  · rfl

-- a gather reads the row that the wrapped index word, clamped into the table, names
theorem gRow_apply (x : S50000x128.Idx → EReal) (v : IVec S100000 32) (e : Fin 100000) (d : Fin 128) :
    Host.gather gather_S50000x128_S100000x1_S100000x128_1_0_n_n_0_1_1128 x (nrm v) (ix2 e d) = x (ix2 (Spec.rowOf (v (ix1 e))) d) := by
  refine (Cert.GatherRows.gather_rows_apply (A := 50000) (D := 128) (N := 100000) (by decide)
    gather_S50000x128_S100000x1_S100000x128_1_0_n_n_0_1_1128_wf x (nrm v) e d).trans ?_
  refine congrArg (fun r : Fin 50000 => x (ix2 r d)) (Fin.ext ?_)
  show min (nrm v (ix2 e 0)).toInt.toNat (50000 - 1) = min (Spec.wrap (v (ix1 e))).toInt.toNat 49999
  rw [nrm_apply]

theorem gVec_apply (p : S50000.Idx → EReal) (v : IVec S100000 32) (e : Fin 100000) :
    Host.gather gather_S50000_S100000x1_S100000_n_0_n_n_0_1_1 p (nrm v) (ix1 e) = p (ix1 (Spec.rowOf (v (ix1 e)))) := by
  refine (Cert.Gather.gather_vec_apply (A := 50000) (N := 100000) (by decide)
    gather_S50000_S100000x1_S100000_n_0_n_n_0_1_1_wf p (nrm v) e).trans ?_
  refine congrArg (fun r : Fin 50000 => p (ix1 r)) (Fin.ext ?_)
  show min (nrm v (ix2 e 0)).toInt.toNat (50000 - 1) = min (Spec.wrap (v (ix1 e))).toInt.toNat 49999
  rw [nrm_apply]

theorem col_apply {α : Type} (v : S100000.Idx → α) (e : Fin 100000) :
    shapeCast S100000x1 v shapeCasts_S100000_S100000x1 (ix2 e 0) = v (ix1 e) := by
  refine shapeCast_apply _ _ (ix2 e (0 : Fin 1)) (ix1 e) ?_
  rw [Shape.rowMajor_val_one, Shape.rowMajor_val_two]
  show e.val = e.val * 1 + 0
  omega

def tail (y : FVec Ideal S2x8x128 .f32) : FVec Ideal S_ .f32 :=
  Host.reduceAdd (F := Ideal) (φ := .f32)
    (shapeCast S2 (extractStridedSlice S2x1x1 ![0, 0, 0] y slices_S2x8x128_S2x1x1_0_0_0) shapeCasts_S2x1x1_S2)
    (constant (F := Ideal) S_ .f32 0x00000000#32) reducesTo_S2_S_d0 h_S_

-- the initial value is zero, so the reduction is the sum of the two runs' entries
theorem tail_apply (y : FVec Ideal S2x8x128 .f32) : tail y ix0 = ∑ r : Fin 2, y (ix3 r (0 : Fin 8) (0 : Fin 128)) := by
  unfold tail
  show Ideal.hostReduceAdd reducesTo_S2_S_d0 _ _ ix0 = _
  rw [Ideal.hostReduceAdd_total reducesTo_S2_S_d0 (fun b => b.elim0), sum_idx1, constant_apply, Ideal.ofBits_zero_f32, zero_add]
  refine Finset.sum_congr rfl fun r _ => ?_
  refine (shapeCast_apply _ _ (ix1 r) (ix3 r (0 : Fin 1) (0 : Fin 1)) ?_).trans
    (extractStridedSlice_apply _ y _ (ix3 r (0 : Fin 1) (0 : Fin 1)) (ix3 r (0 : Fin 8) (0 : Fin 128)) fun k => ?_)
  · rw [Shape.rowMajor_val_three, Shape.rowMajor_val_one]
    show (r.val * 1 + 0) * 1 + 0 = r.val
    omega
  · match k with
    | ⟨0, _⟩ =>
      show r.val = 0 + r.val
      omega
    | ⟨1, _⟩ => rfl
    | ⟨2, _⟩ => rfl

theorem arg6_row0 (c : Dev nD) (e : Fin 100000) :
    row0 (W2 m ρ c (Proc.devRef .tc main_arg6) : S2x100000.Idx → BitVec 32) (ix1 e) = aPI m c e :=
  (row0_apply _ e).trans (congrFun (W2_arg m ρ c main_arg6 (by decide)) (ix2 0 e))

theorem arg6_row1 (c : Dev nD) (e : Fin 100000) :
    row1 (W2 m ρ c (Proc.devRef .tc main_arg6) : S2x100000.Idx → BitVec 32) (ix1 e) = aPJ m c e :=
  (row1_apply _ e).trans (congrFun (W2_arg m ρ c main_arg6 (by decide)) (ix2 1 e))

theorem arg7_row0 (c : Dev nD) (e : Fin 100000) :
    row0 (W2 m ρ c (Proc.devRef .tc main_arg7) : S2x100000.Idx → BitVec 32) (ix1 e) = aNI m c e :=
  (row0_apply _ e).trans (congrFun (W2_arg m ρ c main_arg7 (by decide)) (ix2 0 e))

theorem arg7_row1 (c : Dev nD) (e : Fin 100000) :
    row1 (W2 m ρ c (Proc.devRef .tc main_arg7) : S2x100000.Idx → BitVec 32) (ix1 e) = aNJ m c e :=
  (row1_apply _ e).trans (congrFun (W2_arg m ρ c main_arg7 (by decide)) (ix2 1 e))

-- the embedding's rows, and the probability vector's entries, that an index vector names
def zg (c : Dev nD) (I : IVec S100000 32) : S100000x128.Idx → EReal :=
  Host.gather gather_S50000x128_S100000x1_S100000x128_1_0_n_n_0_1_1128 (W2 m ρ c (Proc.devRef .tc main_v2_1) : S50000x128.Idx → EReal) (nrm I)

def pg (c : Dev nD) (I : IVec S100000 32) : S100000.Idx → EReal :=
  Host.gather gather_S50000_S100000x1_S100000_n_0_n_n_0_1_1 (W2 m ρ c (Proc.devRef .tc main_arg5) : S50000.Idx → EReal) (nrm I)

theorem zg_apply (c : Dev nD) (I : IVec S100000 32) (e : Fin 100000) (d : Fin 128) :
    zg m ρ c I (ix2 e d) = Spec.z (aX m c) (aWl m c) (abl m c) (Spec.rowOf (I (ix1 e))) d := by
  unfold zg
  rw [gRow_apply, zb_val m ρ c]

theorem pg_apply (c : Dev nD) (I : IVec S100000 32) (e : Fin 100000) :
    pg m ρ c I (ix1 e) = apv m c (Spec.rowOf (I (ix1 e))) := by
  unfold pg
  rw [gVec_apply, W2_arg m ρ c main_arg5 (by decide)]
  rfl

set_option maxHeartbeats 4000000 in
theorem W3_v17 (c : Dev nD) : (W3 m ρ c (Proc.devRef .tc main_v17) : S100000x128.Idx → EReal)
    = zg m ρ c (row0 (W2 m ρ c (Proc.devRef .tc main_arg6))) := by
  show StableHlo.after hostOps1 _ (Proc.devRef .tc main_v17) = _
  after_results
  rfl

set_option maxHeartbeats 4000000 in
theorem W3_v24 (c : Dev nD) : (W3 m ρ c (Proc.devRef .tc main_v24) : S100000x128.Idx → EReal)
    = zg m ρ c (row1 (W2 m ρ c (Proc.devRef .tc main_arg6))) := by
  show StableHlo.after hostOps1 _ (Proc.devRef .tc main_v24) = _
  after_results
  rfl

set_option maxHeartbeats 4000000 in
theorem W3_v31 (c : Dev nD) : (W3 m ρ c (Proc.devRef .tc main_v31) : S100000x128.Idx → EReal)
    = zg m ρ c (row0 (W2 m ρ c (Proc.devRef .tc main_arg7))) := by
  show StableHlo.after hostOps1 _ (Proc.devRef .tc main_v31) = _
  after_results
  rfl

set_option maxHeartbeats 4000000 in
theorem W3_v38 (c : Dev nD) : (W3 m ρ c (Proc.devRef .tc main_v38) : S100000x128.Idx → EReal)
    = zg m ρ c (row1 (W2 m ρ c (Proc.devRef .tc main_arg7))) := by
  show StableHlo.after hostOps1 _ (Proc.devRef .tc main_v38) = _
  after_results
  rfl

set_option maxHeartbeats 4000000 in
theorem W3_v59 (c : Dev nD) : (W3 m ρ c (Proc.devRef .tc main_v59) : S100000.Idx → EReal)
    = pg m ρ c (row0 (W2 m ρ c (Proc.devRef .tc main_arg7))) := by
  show StableHlo.after hostOps1 _ (Proc.devRef .tc main_v59) = _
  after_results
  rfl

set_option maxHeartbeats 4000000 in
theorem W3_v66 (c : Dev nD) : (W3 m ρ c (Proc.devRef .tc main_v66) : S100000.Idx → EReal)
    = pg m ρ c (row1 (W2 m ρ c (Proc.devRef .tc main_arg7))) := by
  show StableHlo.after hostOps1 _ (Proc.devRef .tc main_v66) = _
  after_results
  rfl

set_option maxHeartbeats 4000000 in
theorem W3_v67 (c : Dev nD) : (W3 m ρ c (Proc.devRef .tc main_v67) : S100000x1.Idx → EReal)
    = shapeCast S100000x1 (pg m ρ c (row0 (W2 m ρ c (Proc.devRef .tc main_arg6)))) shapeCasts_S100000_S100000x1 := by
  show StableHlo.after hostOps1 _ (Proc.devRef .tc main_v67) = _
  after_results
  rfl

set_option maxHeartbeats 4000000 in
theorem W3_v68 (c : Dev nD) : (W3 m ρ c (Proc.devRef .tc main_v68) : S100000x1.Idx → EReal)
    = shapeCast S100000x1 (pg m ρ c (row1 (W2 m ρ c (Proc.devRef .tc main_arg6)))) shapeCasts_S100000_S100000x1 := by
  show StableHlo.after hostOps1 _ (Proc.devRef .tc main_v68) = _
  after_results
  rfl

theorem cZi1_pos (c : Dev nD) (e : Fin 100000) :
    cZi1 (V3 m ρ) c e = Spec.z (aX m c) (aWl m c) (abl m c) (Spec.rowOf (aPI m c e)) := by
  funext d
  show (W3 m ρ c (Proc.devRef .tc main_v17) : S100000x128.Idx → EReal) (ix2 e d) = _
  rw [W3_v17 m ρ c, zg_apply, arg6_row0 m ρ c e]

theorem cZj1_pos (c : Dev nD) (e : Fin 100000) :
    cZj1 (V3 m ρ) c e = Spec.z (aX m c) (aWl m c) (abl m c) (Spec.rowOf (aPJ m c e)) := by
  funext d
  show (W3 m ρ c (Proc.devRef .tc main_v24) : S100000x128.Idx → EReal) (ix2 e d) = _
  rw [W3_v24 m ρ c, zg_apply, arg6_row1 m ρ c e]

theorem cPi1_pos (c : Dev nD) (e : Fin 100000) : cPi1 (V3 m ρ) c e = apv m c (Spec.rowOf (aPI m c e)) := by
  show (W3 m ρ c (Proc.devRef .tc main_v67) : S100000x1.Idx → EReal) (ix2 e 0) = _
  rw [W3_v67 m ρ c, col_apply, pg_apply, arg6_row0 m ρ c e]

theorem cPj1_pos (c : Dev nD) (e : Fin 100000) : cPj1 (V3 m ρ) c e = apv m c (Spec.rowOf (aPJ m c e)) := by
  show (W3 m ρ c (Proc.devRef .tc main_v68) : S100000x1.Idx → EReal) (ix2 e 0) = _
  rw [W3_v68 m ρ c, col_apply, pg_apply, arg6_row1 m ρ c e]

-- a positive edge's squared difference is the specification's at the label one
theorem sq1_eq (c : Dev nD) (e : Fin 100000) :
    sq1 (V3 m ρ) c e
      = Spec.sqd Spec.one (Spec.yhat (aX m c) (aWl m c) (abl m c) (apv m c) (aPI m c) (aPJ m c) e) := by
  unfold sq1 Spec.yhat
  rw [cZi1_pos m ρ c e, cZj1_pos m ρ c e, cPi1_pos m ρ c e, cPj1_pos m ρ c e]

theorem W5_v72 (c : Dev nD) :
    (W5 m ρ c (Proc.devRef .tc main_v72) : S_.Idx → EReal)
      = tail (W4 m ρ c (Proc.devRef .tc main_v69) : S2x8x128.Idx → EReal) := by
  show StableHlo.after hostOps2 _ (Proc.devRef .tc main_v72) = _
  after_results
  rfl

theorem W5_v73 (c : Dev nD) :
    (W5 m ρ c (Proc.devRef .tc main_v73) : S100000x1.Idx → EReal)
      = shapeCast S100000x1 (W4 m ρ c (Proc.devRef .tc main_v59) : S100000.Idx → EReal) shapeCasts_S100000_S100000x1 := by
  show StableHlo.after hostOps2 _ (Proc.devRef .tc main_v73) = _
  after_results
  rfl

theorem W5_v74 (c : Dev nD) :
    (W5 m ρ c (Proc.devRef .tc main_v74) : S100000x1.Idx → EReal)
      = shapeCast S100000x1 (W4 m ρ c (Proc.devRef .tc main_v66) : S100000.Idx → EReal) shapeCasts_S100000_S100000x1 := by
  show StableHlo.after hostOps2 _ (Proc.devRef .tc main_v74) = _
  after_results
  rfl

theorem cZi2_neg (c : Dev nD) (e : Fin 100000) :
    cZi2 (V5 m ρ) c e = Spec.z (aX m c) (aWl m c) (abl m c) (Spec.rowOf (aNI m c e)) := by
  funext d
  show (W5 m ρ c (Proc.devRef .tc main_v31) : S100000x128.Idx → EReal) (ix2 e d) = _
  rw [W5_of m ρ c main_v31 (by decide), W4_of_ne m ρ c main_v31 (by decide), W3_v31 m ρ c, zg_apply, arg7_row0 m ρ c e]

theorem cZj2_neg (c : Dev nD) (e : Fin 100000) :
    cZj2 (V5 m ρ) c e = Spec.z (aX m c) (aWl m c) (abl m c) (Spec.rowOf (aNJ m c e)) := by
  funext d
  show (W5 m ρ c (Proc.devRef .tc main_v38) : S100000x128.Idx → EReal) (ix2 e d) = _
  rw [W5_of m ρ c main_v38 (by decide), W4_of_ne m ρ c main_v38 (by decide), W3_v38 m ρ c, zg_apply, arg7_row1 m ρ c e]

theorem cPi2_neg (c : Dev nD) (e : Fin 100000) : cPi2 (V5 m ρ) c e = apv m c (Spec.rowOf (aNI m c e)) := by
  show (W5 m ρ c (Proc.devRef .tc main_v73) : S100000x1.Idx → EReal) (ix2 e 0) = _
  rw [W5_v73 m ρ c, col_apply, W4_of_ne m ρ c main_v59 (by decide), W3_v59 m ρ c, pg_apply, arg7_row0 m ρ c e]

theorem cPj2_neg (c : Dev nD) (e : Fin 100000) : cPj2 (V5 m ρ) c e = apv m c (Spec.rowOf (aNJ m c e)) := by
  show (W5 m ρ c (Proc.devRef .tc main_v74) : S100000x1.Idx → EReal) (ix2 e 0) = _
  rw [W5_v74 m ρ c, col_apply, W4_of_ne m ρ c main_v66 (by decide), W3_v66 m ρ c, pg_apply, arg7_row1 m ρ c e]

-- a negative edge's squared difference is the specification's at the label zero
theorem sq2_eq (c : Dev nD) (e : Fin 100000) :
    sq2 (V5 m ρ) c e
      = Spec.sqd Spec.zero (Spec.yhat (aX m c) (aWl m c) (abl m c) (apv m c) (aNI m c) (aNJ m c) e) := by
  unfold sq2 Spec.yhat
  rw [cZi2_neg m ρ c e, cZj2_neg m ρ c e, cPi2_neg m ρ c e, cPj2_neg m ρ c e]

set_option maxHeartbeats 4000000 in
theorem W7_v78 (c : Dev nD) :
    (W7 m ρ c (Proc.devRef .tc main_v78) : S_.Idx → EReal)
      = tail (W6 m ρ c (Proc.devRef .tc main_v75) : S2x8x128.Idx → EReal) := by
  show StableHlo.after hostOps3 _ (Proc.devRef .tc main_v78) = _
  after_results
  rfl

set_option maxHeartbeats 4000000 in
theorem W7_v79 (c : Dev nD) :
    (W7 m ρ c (Proc.devRef .tc main_v79) : S_.Idx → EReal)
      = addf (F := Ideal) (s := S_) (φ := .f32) (W6 m ρ c (Proc.devRef .tc main_v72) : S_.Idx → EReal)
          (tail (W6 m ρ c (Proc.devRef .tc main_v75) : S2x8x128.Idx → EReal)) := by
  show StableHlo.after hostOps3 _ (Proc.devRef .tc main_v79) = _
  after_results
  rfl

end Mse

open Mse

theorem mse_pos (c : Dev nD) :
    (W5 m ρ c (Proc.devRef .tc main_v72) : S_.Idx → EReal) ix0
      = Spec.mseK (aX m c) (aWl m c) (abl m c) (apv m c) Spec.one (aPI m c) (aPJ m c) := by
  have e69 : (W4 m ρ c (Proc.devRef .tc main_v69) : S2x8x128.Idx → EReal) = (dat1 (V3 m ρ) c).arrAt 4 cfg1.N := W4_arr m ρ c 4
  rw [W5_v72 m ρ c, tail_apply, e69]
  simp only [arrAt1_4 (V3 m ρ) c, sq1_eq m ρ c]
  rfl

theorem mse_neg (c : Dev nD) :
    (W7 m ρ c (Proc.devRef .tc main_v78) : S_.Idx → EReal) ix0
      = Spec.mseK (aX m c) (aWl m c) (abl m c) (apv m c) Spec.zero (aNI m c) (aNJ m c) := by
  have e75 : (W6 m ρ c (Proc.devRef .tc main_v75) : S2x8x128.Idx → EReal) = (dat2 (V5 m ρ) c).arrAt 4 cfg2.N := W6_arr m ρ c 4
  rw [W7_v78 m ρ c, tail_apply, e75]
  simp only [arrAt2_4 (V5 m ρ) c, sq2_eq m ρ c]
  rfl

theorem mse_sum (c : Dev nD) :
    (W7 m ρ c (Proc.devRef .tc main_v79) : S_.Idx → EReal) ix0
      = Spec.mseK (aX m c) (aWl m c) (abl m c) (apv m c) Spec.one (aPI m c) (aPJ m c)
        + Spec.mseK (aX m c) (aWl m c) (abl m c) (apv m c) Spec.zero (aNI m c) (aNJ m c) := by
  have h72 : (W6 m ρ c (Proc.devRef .tc main_v72) : S_.Idx → EReal) = (W5 m ρ c (Proc.devRef .tc main_v72) : S_.Idx → EReal) :=
    W6_of_ne m ρ c main_v72 (by decide)
  rw [W7_v79 m ρ c, addf_apply, h72, mse_pos m ρ c, ← W7_v78 m ρ c, mse_neg m ρ c]

end Cert.KernelIdeal.Hand

end
-- ==== Proof.ValReg.lean ====
import proofs.«404240_j51247549776505_4_alg».proof.Proof.KI.Reg3
import proofs.«404240_j51247549776505_4_alg».proof.Proof.Spec
import proofs.«404240_j51247549776505_4_alg».proof.Proof.LibAcc

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

namespace ValReg

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem negInf_eq_bot : Ideal.ofBits .f32 0xFF800000#32 = (⊥ : EReal) := by
  simp [Ideal.ofBits, Ideal.ieee]

theorem select_cmpi_eq {α : Type} {w : ℕ} (a b : BitVec w) (x y : α) :
    Scalar.select (IntOp.cmpi .eq a b) x y = if a = b then x else y := by
  have e : IntOp.cmpi .eq a b = 1#1 ↔ a = b := by
    show BitVec.ofBool (a == b) = 1#1 ↔ a = b
    by_cases h : a = b
    · subst h; simp
    · have hb : (a == b) = false := by simpa using h
      rw [hb]; simp [h]
  exact if_congr e rfl rfl

theorem laneMax_apply (src : FVec Ideal S10000x3 .f32) (h : S10000x3.Reduces [1] S10000) (hφ : FKind.Formats .f32)
    (hacc : (0xFF800000#32 : BitVec 32) = FKind.maximumf.neutral .f32 hφ) (q : Fin 10000) :
    multiReduction .maximumf [1] S10000 src 0xFF800000#32 h hφ hacc (ix1 q) = Spec.rowMax (fun j => src (ix2 q j)) := by
  refine (Ideal.multiReduction_maximumf_single src _ h hφ hacc (ix1 q)).trans ?_
  have e : (src ∘ h.lift (ix1 q)) = fun j : Fin 3 => src (ix2 q j) := by
    funext j
    refine congrArg src ?_
    funext a
    match a with
    | ⟨0, _⟩ => rfl
    | ⟨1, _⟩ => rfl
  rw [e]
  show Finset.fold max (Ideal.ofBits .f32 0xFF800000#32) (fun j : Fin 3 => src (ix2 q j)) Finset.univ = _
  rw [negInf_eq_bot]
  rfl

theorem pay1_apply (x0 : FVec Ideal S10000x3 .f32) (x1 : IVec S10000x1 32) :
    k3_pay1 (F := Ideal) x0 x1 (ix2 (0 : Fin 1) (0 : Fin 1))
      = ∑ q : Fin 10000, (Spec.zero - Spec.pickK (Spec.logp (fun j => x0 (ix2 q j))) (x1 (ix2 q (0 : Fin 1)))) := by
  unfold k3_pay1
  dsimp only
  rw [shapeCast_self x0, shapeCast_self x1]
  refine (colSum_cell _ _ _ _ _ 0 0).trans (Finset.sum_congr rfl fun q _ => ?_)
  refine (subf_apply _ _ _).trans (congrArg₂ (fun a b : EReal => a - b) rfl ?_)
  refine (laneSum_col _ _ _ _ _ q 0).trans ?_
  unfold Spec.pickK
  refine Finset.sum_congr rfl fun j _ => ?_
  refine (select_apply _ _ _ _).trans ?_
  refine (select_cmpi_eq _ _ _ _).trans ?_
  refine if_congr (Eq.congr ?_ ?_) ?_ rfl
  · exact iota_single_apply .tc S10000x3 32 1 _ (ix2 q j)
  · exact broadcastTo_a1_ab_apply _ _ q j
  · refine (subf_apply _ _ _).trans ?_
    unfold Spec.logp
    refine congrArg₂ (fun a b : EReal => a - b) ?_ ?_
    · refine (subf_apply _ _ _).trans (congrArg₂ (fun a b : EReal => a - b) rfl ?_)
      refine (broadcastTo_a1_ab_apply _ _ q j).trans ?_
      exact (shapeCast_a_a1_apply _ _ q (0 : Fin 1)).trans (laneMax_apply _ _ _ _ q)
    · refine (broadcastTo_a1_ab_apply _ _ q j).trans (congrArg Ideal.log ?_)
      refine (laneSum_col _ _ _ _ _ q 0).trans (Finset.sum_congr rfl fun j' _ => congrArg Ideal.exp ?_)
      refine (subf_apply _ _ _).trans (congrArg₂ (fun a b : EReal => a - b) rfl ?_)
      refine (broadcastTo_a1_ab_apply _ _ q j').trans ?_
      exact (shapeCast_a_a1_apply _ _ q (0 : Fin 1)).trans (laneMax_apply _ _ _ _ q)

end ValReg

variable (V : (c : Dev nD) → (b : Ref sig .tc) → Buf (Elt Ideal) ((c : Thread nD τ).loc b))

def cLg (c : Dev nD) : Fin 600000 → Fin 3 → EReal := fun r j => (V c main_v145 : S600000x3.Idx → EReal) (ix2 r j)
def cTg (c : Dev nD) : Fin 600000 → BitVec 32 := fun r => (V c main_v146 : S600000x1.Idx → BitVec 32) (ix2 r 0)

namespace ValReg

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 3) = t.val / 30 ∧ win3_2.index t (1 : Fin 3) = 0 ∧ win3_2.index t (2 : Fin 3) = 0 :=
  (by decide +kernel : ∀ t : Fin grid3.N, _)

theorem emb3_0 (t : Fin cfg3.N) (q : Fin 10000) (j : Fin 3) (h : 10000 * t.val + q.val < 600000) :
    ((cfg3.win 0).blk t).view.emb (ix2 q j) = ix2 ⟨10000 * t.val + q.val, h⟩ j := by
  obtain ⟨e0, e1, -⟩ := idx_facts3 t
  refine Shape.idx_ext₂ ?_ ?_
  · show win3_0.index t (0 : Fin 2) * 10000 + 1 * q.val = 10000 * t.val + q.val; rw [e0]; omega
  · show win3_0.index t (1 : Fin 2) * 3 + 1 * j.val = j.val; rw [e1]; omega

theorem emb3_1 (t : Fin cfg3.N) (q : Fin 10000) (h : 10000 * t.val + q.val < 600000) :
    ((cfg3.win 1).blk t).view.emb (ix2 q (0 : Fin 1)) = ix2 ⟨10000 * t.val + q.val, h⟩ 0 := by
  obtain ⟨-, -, e0, e1, -⟩ := idx_facts3 t
  refine Shape.idx_ext₂ ?_ ?_
  · show win3_1.index t (0 : Fin 2) * 10000 + 1 * q.val = 10000 * t.val + q.val; rw [e0]; omega
  · show win3_1.index t (1 : Fin 2) * 1 + 1 * 0 = 0; rw [e1]

theorem pay2_eq (x0 : FVec Ideal S10000x3 .f32) (x1 : IVec S10000x1 32) : k3_pay2 (F := Ideal) x0 x1 = k3_pay1 x0 x1 := by
  unfold k3_pay2
  exact shapeCast_self _ _

theorem pay3_apply (x0 : FVec Ideal S10000x3 .f32) (x1 : IVec S10000x1 32) (v : FVec Ideal S1x1 .f32) (i : S1x1.Idx) :
    k3_pay3 (F := Ideal) x0 x1 v i = v i + k3_pay1 x0 x1 i := by
  unfold k3_pay3
  exact congrFun (shapeCast_self _ _) i

theorem pay4_apply (v : FVec Ideal S1x1 .f32) (j : S1x8x128.Idx) :
    k3_pay4 (F := Ideal) v j = v (ix2 (0 : Fin 1) (0 : Fin 1)) := by
  unfold k3_pay4
  exact spread_cell v _ _ j

def part3 (c : Dev nD) (n : ℕ) : EReal :=
  if h : n < cfg3.N then
    (k3_pay1 (iblk3 V c 0 ⟨n, h⟩) (iblk3 V c 1 ⟨n, h⟩) : S1x1.Idx → EReal) (ix2 (0 : Fin 1) (0 : Fin 1))
  else 0

theorem part3_pos (c : Dev nD) (n : ℕ) (h : n < cfg3.N) : part3 V c n
    = (k3_pay1 (iblk3 V c 0 ⟨n, h⟩) (iblk3 V c 1 ⟨n, h⟩) : S1x1.Idx → EReal) (ix2 (0 : Fin 1) (0 : Fin 1)) := dif_pos h

theorem acc3_last (c : Dev nD) (t : Fin cfg3.N) (h29 : t.val % 30 = 29) :
    (acc3 V c t.val t.isLt : S1x1.Idx → EReal) (ix2 (0 : Fin 1) (0 : Fin 1))
      = ∑ j ∈ Finset.range 30, part3 V c (30 * (t.val / 30) + j) :=
  run_sum_last (fun n h => (acc3 V c n h : S1x1.Idx → EReal) (ix2 (0 : Fin 1) (0 : Fin 1))) (part3 V c)
    (fun n h hm => (congrFun ((acc3_first V c ⟨n, h⟩ hm).trans (pay2_eq _ _)) _).trans (part3_pos V c n h).symm)
    (fun n h hm => (congrFun (acc3_next V c ⟨n + 1, h⟩ hm) _).trans
      ((pay3_apply _ _ _ _).trans (congrArg (_ + ·) (part3_pos V c _ h).symm)))
    (by decide) t.val t.isLt h29

theorem part3_eq (c : Dev nD) (t : Fin cfg3.N) :
    part3 V c t.val = ∑ q : Fin 10000,
      (Spec.zero - Spec.pickK
        (Spec.logp (cLg V c ⟨10000 * t.val + q.val, by have := t.isLt; have hN : cfg3.N = 60 := N_3; omega⟩))
        (cTg V c ⟨10000 * t.val + q.val, by have := t.isLt; have hN : cfg3.N = 60 := N_3; omega⟩)) := by
  rw [part3_pos V c _ t.isLt]
  refine (pay1_apply (iblk3 V c 0 t) (iblk3 V c 1 t)).trans (Finset.sum_congr rfl fun q _ => ?_)
  have hb : 10000 * t.val + q.val < 600000 := by have := t.isLt; have hN : cfg3.N = 60 := N_3; omega
  exact congrArg₂ (fun (lg : Fin 3 → EReal) (w : BitVec 32) => Spec.zero - Spec.pickK (Spec.logp lg) w)
    (funext fun j => congrArg (V c main_v145) (emb3_0 t q j hb)) (congrArg (V c main_v146) (emb3_1 t q hb))

def G3 (c : Dev nD) : S2x8x128.Idx → EReal := fun i => ∑ j ∈ Finset.range 30, part3 V c (30 * (i 0).val + j)

theorem flushed3_eq (c : Dev nD) (t : Fin cfg3.N) (hf : (cfg3.win 2).flush t = true) :
    (dat3 V c).flushed 2 t = ((cfg3.win 2).blk t).view.read (Elt Ideal) (G3 V c) := by
  obtain ⟨-, -, -, -, e0, -, -⟩ := idx_facts3 t
  funext y
  have he : ((((cfg3.win 2).blk t).view.emb y) 0).val = t.val / 30 := by
    show win3_2.index t (0 : Fin 3) * 1 + 1 * (y 0).val = t.val / 30
    have hy : (y 0).val < 1 := (y 0).isLt
    rw [e0]; omega
  show k3_pay4 (acc3 V c t.val t.isLt) ((cfg3.win 2).xinj (grid3.coords t) y) = G3 V c (((cfg3.win 2).blk t).view.emb y)
  unfold G3
  rw [he]
  exact (pay4_apply _ _).trans (acc3_last V c t ((flush3_2 t).mp hf))

end ValReg

theorem arrAt3_2 (c : Dev nD) (r : Fin 2) (a : Fin 8) (l : Fin 128) :
    ((dat3 V c).arrAt 2 cfg3.N : S2x8x128.Idx → EReal) (ix3 r a l)
      = ∑ s : Fin 30, ∑ q : Fin 10000,
          (Spec.zero - Spec.pickK (Spec.logp (cLg V c ⟨10000 * (30 * r.val + s.val) + q.val, by omega⟩))
            (cTg V c ⟨10000 * (30 * r.val + s.val) + q.val, by omega⟩)) := by
  have hN : cfg3.N = 60 := N_3
  have hr := r.isLt
  have ht : 30 * r.val + 29 < cfg3.N := by omega
  obtain ⟨-, -, -, -, e0, e1, e2⟩ := ValReg.idx_facts3 ⟨_, ht⟩
  have hmem : (ix3 r a l : S2x8x128.Idx) ∈ ((cfg3.win 2).blk ⟨_, ht⟩).view.set := by
    show _ ∈ ((View.whole main_v147).slice (win3_2.rect ⟨_, ht⟩)).set
    rw [View.set_slice_whole, Rect.mem_set_unit]
    exact mem_slab (ix3 r a l) _ _ (e0.trans (by show (30 * r.val + 29) / 30 = r.val; omega)) rfl e1 rfl e2 rfl
  refine ((dat3 V c).arrAt_apply_of_mem 2 (ValReg.G3 V c) (ValReg.flushed3_eq V c) cfg3.N ⟨_, ht⟩ (ix3 r a l) ht
    ((flush3_2 _).mpr (by show (30 * r.val + 29) % 30 = 29; omega)) hmem).trans ?_
  show ∑ j ∈ Finset.range 30, ValReg.part3 V c (30 * r.val + j) = _
  rw [Finset.sum_range]
  exact Finset.sum_congr rfl fun s _ => ValReg.part3_eq V c ⟨30 * r.val + s.val, by have := s.isLt; omega⟩

end Cert.KernelIdeal.Hand

end
-- ==== Proof.LibStretch.lean ====
-- A straight line of host operations, each writing a buffer of its own, read at one buffer: the fold's value there is the writing operation's result.
import Idealize.ShloMosaic.Lib.StableHlo.Run

noncomputable section

namespace Cert.Stretch

open Idealize.ShloMosaic Idealize.ShloMosaic.StableHlo Idealize.SL.Sem

section Positions
variable {α : Type}

theorem Nodup.not_mem_drop_succ {W : List α} (hW : W.Nodup) (k : ℕ) {y : α} (hk : W[k]? = some y) : y ∉ W.drop (k + 1) := by
  obtain ⟨hk', rfl⟩ := List.getElem?_eq_some_iff.mp hk
  intro hm
  obtain ⟨i, hi, he⟩ := List.getElem_of_mem hm
  rw [List.getElem_drop] at he
  have hlt : k + 1 + i < W.length := by rw [List.length_drop] at hi; omega
  exact (List.pairwise_iff_getElem.mp hW k (k + 1 + i) hk' hlt (by omega)) he.symm

theorem Nodup.not_mem_drop {W : List α} (hW : W.Nodup) (j : ℕ) {k : ℕ} {a : α} (hj : W[j]? = some a) (hjk : j < k) : a ∉ W.drop k := by
  intro hm
  refine Nodup.not_mem_drop_succ hW j hj ?_
  have : W.drop k = (W.drop (j + 1)).drop (k - (j + 1)) := by rw [List.drop_drop]; congr 1; omega
  rw [this] at hm
  exact List.mem_of_mem_drop hm

theorem not_mem_drop_of_not_mem {W : List α} {a : α} (h : a ∉ W) (k : ℕ) : a ∉ W.drop k :=
  fun hm => h (List.mem_of_mem_drop hm)

theorem nodup_of_chain_lt {W : List α} (key : α → ℕ) (h : (W.map key).IsChain (· < ·)) : W.Nodup :=
  List.Nodup.of_map key ((List.IsChain.pairwise h).imp fun hlt => Nat.ne_of_lt hlt)

theorem congrArg3 {α β γ δ : Sort*} (f : α → β → γ → δ) {a a' : α} {b b' : β} {c c' : γ} (ha : a = a') (hb : b = b') (hc : c = c') :
    f a b c = f a' b' c' := by subst ha hb hc; rfl

end Positions

section Stretch
variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

def WritesEach (ops : List (HloOp τ sig Val)) (W : List (Ref sig .tc)) : Prop :=
  List.Forall₂ (fun op w => op.writes = {Proc.devRef (τ := τ) .tc w}) ops W

theorem WritesEach.drop {ops : List (HloOp τ sig Val)} {W : List (Ref sig .tc)} (h : WritesEach ops W) (k : ℕ) :
    WritesEach (ops.drop k) (W.drop k) := List.forall₂_drop k h
theorem WritesEach.take {ops : List (HloOp τ sig Val)} {W : List (Ref sig .tc)} (h : WritesEach ops W) (k : ℕ) :
    WritesEach (ops.take k) (W.take k) := List.forall₂_take k h

theorem WritesEach.after_of_not_mem {ops : List (HloOp τ sig Val)} {W : List (Ref sig .tc)} (h : WritesEach ops W)
    {r : Ref sig .tc} (hr : r ∉ W) (V : Valuation τ sig Val) :
    after ops V (Proc.devRef .tc r) = V (Proc.devRef .tc r) := by
  unfold WritesEach at h
  induction h generalizing V with
  | nil => rfl
  | @cons op w ops W hw _ ih =>
    rw [after_cons, ih (fun hm => hr (List.mem_cons_of_mem _ hm)),
      op.result_of_not_mem V (by
        rw [hw, Finset.mem_singleton]
        exact fun e => hr (Proc.devRef_injective _ e ▸ List.mem_cons_self))]

theorem WritesEach.after_chunk {ops : List (HloOp τ sig Val)} {W : List (Ref sig .tc)} (h : WritesEach ops W) (k n : ℕ)
    {r : Ref sig .tc} (hr : r ∉ W.drop (k + n)) (V : Valuation τ sig Val) :
    after ops V (Proc.devRef .tc r) = after ((ops.drop k).take n) (after (ops.take k) V) (Proc.devRef .tc r) := by
  conv_lhs => rw [← List.take_append_drop k ops, after_append, ← List.take_append_drop n (ops.drop k), after_append]
  refine ((h.drop k).drop n).after_of_not_mem ?_ _
  rwa [List.drop_drop]

theorem WritesEach.after_take {ops : List (HloOp τ sig Val)} {W : List (Ref sig .tc)} (h : WritesEach ops W) (k : ℕ)
    {r : Ref sig .tc} (hr : r ∉ W.drop k) (V : Valuation τ sig Val) :
    after (ops.take k) V (Proc.devRef .tc r) = after ops V (Proc.devRef .tc r) := by
  conv_rhs => rw [← List.take_append_drop k ops, after_append]
  exact ((h.drop k).after_of_not_mem hr _).symm

theorem WritesEach.after_at {ops : List (HloOp τ sig Val)} {W : List (Ref sig .tc)} (h : WritesEach ops W) (k : ℕ)
    {op : HloOp τ sig Val} (hop : ops[k]? = some op) {r : Ref sig .tc} (hr : r ∉ W.drop (k + 1)) (V : Valuation τ sig Val) :
    after ops V (Proc.devRef .tc r) = op.result (after (ops.take k) V) (Proc.devRef .tc r) := by
  obtain ⟨hk, rfl⟩ := List.getElem?_eq_some_iff.mp hop
  conv_lhs => rw [← List.take_append_drop k ops, List.drop_eq_getElem_cons hk, after_append, after_cons]
  exact (h.drop (k + 1)).after_of_not_mem hr _

theorem WritesEach.after_nullary {ops : List (HloOp τ sig Val)} {W : List (Ref sig .tc)} (h : WritesEach ops W) (k : ℕ)
    {y : Ref sig .tc} {v : y.ty.Contents Val} {hy}
    (hop : ops[k]? = some (nullary y v hy)) (hy' : y ∉ W.drop (k + 1)) (V : Valuation τ sig Val) :
    after ops V (Proc.devRef .tc y) = v := by
  rw [h.after_at k hop hy' V, nullary_result]

theorem WritesEach.after_unary {ops : List (HloOp τ sig Val)} {W : List (Ref sig .tc)} (h : WritesEach ops W) (k : ℕ)
    {x y : Ref sig .tc} {f : x.ty.Contents Val → y.ty.Contents Val} {hx hy}
    (hop : ops[k]? = some (unary x y f hx hy)) (hy' : y ∉ W.drop (k + 1)) (hx' : x ∉ W.drop k) (V : Valuation τ sig Val) :
    after ops V (Proc.devRef .tc y) = f (after ops V (Proc.devRef .tc x)) := by
  rw [h.after_at k hop hy' V, unary_result, h.after_take k hx' V]

theorem WritesEach.after_binary {ops : List (HloOp τ sig Val)} {W : List (Ref sig .tc)} (h : WritesEach ops W) (k : ℕ)
    {a b y : Ref sig .tc} {f : a.ty.Contents Val → b.ty.Contents Val → y.ty.Contents Val} {ha hb hy}
    (hop : ops[k]? = some (binary a b y f ha hb hy)) (hy' : y ∉ W.drop (k + 1)) (ha' : a ∉ W.drop k) (hb' : b ∉ W.drop k)
    (V : Valuation τ sig Val) :
    after ops V (Proc.devRef .tc y) = f (after ops V (Proc.devRef .tc a)) (after ops V (Proc.devRef .tc b)) := by
  rw [h.after_at k hop hy' V, binary_result, h.after_take k ha' V, h.after_take k hb' V]

theorem WritesEach.after_ternary {ops : List (HloOp τ sig Val)} {W : List (Ref sig .tc)} (h : WritesEach ops W) (k : ℕ)
    {c a b y : Ref sig .tc} {f : c.ty.Contents Val → a.ty.Contents Val → b.ty.Contents Val → y.ty.Contents Val} {hc ha hb hy}
    (hop : ops[k]? = some (ternary c a b y f hc ha hb hy)) (hy' : y ∉ W.drop (k + 1)) (hc' : c ∉ W.drop k) (ha' : a ∉ W.drop k)
    (hb' : b ∉ W.drop k) (V : Valuation τ sig Val) :
    after ops V (Proc.devRef .tc y)
      = f (after ops V (Proc.devRef .tc c)) (after ops V (Proc.devRef .tc a)) (after ops V (Proc.devRef .tc b)) := by
  rw [h.after_at k hop hy' V, ternary_result, h.after_take k hc' V, h.after_take k ha' V, h.after_take k hb' V]

theorem WritesEach.after_nary {ops : List (HloOp τ sig Val)} {W : List (Ref sig .tc)} (h : WritesEach ops W) (k : ℕ)
    {n : ℕ} {xs : Fin n → Ref sig .tc} {y : Ref sig .tc} {f : ((j : Fin n) → (xs j).ty.Contents Val) → y.ty.Contents Val} {hxs hy}
    (hop : ops[k]? = some (nary xs y f hxs hy)) (hy' : y ∉ W.drop (k + 1)) (hxs' : ∀ j, xs j ∉ W.drop k)
    (V : Valuation τ sig Val) :
    after ops V (Proc.devRef .tc y) = f fun j => after ops V (Proc.devRef .tc (xs j)) := by
  rw [h.after_at k hop hy' V, nary_result]
  exact congrArg f (funext fun j => h.after_take k (hxs' j) V)

theorem WritesEach.after_reshape {ops : List (HloOp τ sig Val)} {W : List (Ref sig .tc)} (h : WritesEach ops W) (k : ℕ)
    {x y : Ref sig .tc} {he : x.ty.elt = y.ty.elt} {hn : x.ty.shape.ShapeCasts y.ty.shape} {hx hy}
    (hop : ops[k]? = some (reshape x y he hn hx hy)) (hy' : y ∉ W.drop (k + 1)) (hx' : x ∉ W.drop k) (V : Valuation τ sig Val) :
    after ops V (Proc.devRef .tc y) = fun i => he ▸ shapeCast y.ty.shape (after ops V (Proc.devRef .tc x)) hn i := by
  rw [h.after_at k hop hy' V, reshape_result, h.after_take k hx' V]

end Stretch

end Cert.Stretch

end
-- ==== Proof.KVLoss.lean ====
import proofs.«404240_j51247549776505_4_alg».proof.Proof.KVMse
import proofs.«404240_j51247549776505_4_alg».proof.Proof.ValReg
import proofs.«404240_j51247549776505_4_alg».proof.Proof.LibStretch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

namespace Loss
open Idealize.ShloMosaic.StableHlo Cert.Stretch

set_option maxHeartbeats 4000000 in
theorem hostOps3_each : WritesEach (hostOps3 : List (HloOp τ sig (Elt Ideal))) hostOps3_W := by
  unfold WritesEach
  repeat (first | exact List.Forall₂.nil | refine List.Forall₂.cons rfl ?_)

set_option maxHeartbeats 4000000 in
theorem hostOps1_each : WritesEach (hostOps1 : List (HloOp τ sig (Elt Ideal))) hostOps1_W := by
  unfold WritesEach
  repeat (first | exact List.Forall₂.nil | refine List.Forall₂.cons rfl ?_)

theorem gatherRows3_apply (x : S50000x3.Idx → EReal) (i : IVec S100000 32) (e : Fin 100000) (d : Fin 3) :
    (Host.gather gather_S50000x3_S100000x1_S100000x3_1_0_n_n_0_1_13 x (Mse.nrm i) : S100000x3.Idx → EReal) (ix2 e d)
      = x (ix2 (Spec.rowOf (i (ix1 e))) d) := by
  show Host.gather (Cert.GatherRows.rowGather 50000 3 100000 gather_S50000x3_S100000x1_S100000x3_1_0_n_n_0_1_13_wf) x (Mse.nrm i) (ix2 e d) = _
  rw [Cert.GatherRows.gather_rows_apply (by norm_num)]
  refine congrArg (fun t => x (ix2 t d)) (Fin.ext ?_)
  show min (Mse.nrm i (ix2 e (0 : Fin 1))).toInt.toNat (50000 - 1) = min (Spec.wrap (i (ix1 e))).toInt.toNat 49999
  rw [Mse.nrm_apply]

-- row 100000 · q + e of six pieces laid end to end is row e of piece q
theorem cat6_apply (x0 x1 x2 x3 x4 x5 : S100000x3.Idx → EReal)
    (h : Shape.Concatenates (([⟨S100000x3, x0⟩, ⟨S100000x3, x1⟩, ⟨S100000x3, x2⟩, ⟨S100000x3, x3⟩, ⟨S100000x3, x4⟩, ⟨S100000x3, x5⟩] :
      List ((s : Shape) × (s.Idx → EReal))).map (·.1)) S600000x3 0)
    (q : Fin 6) (e : Fin 100000) (d : Fin 3) (r : Fin 600000) (hr : r.val = 100000 * q.val + e.val) :
    concatenate S600000x3 0 [⟨S100000x3, x0⟩, ⟨S100000x3, x1⟩, ⟨S100000x3, x2⟩, ⟨S100000x3, x3⟩, ⟨S100000x3, x4⟩, ⟨S100000x3, x5⟩] h (ix2 r d)
      = (![x0, x1, x2, x3, x4, x5] : Fin 6 → S100000x3.Idx → EReal) q (ix2 e d) := by
  refine concatenate_apply_piece (0 : Fin 2) _ h (ix2 r d) q.val (by exact q.isLt) S100000x3 _ ?_ rfl (100000 * q.val) ?_ (ix2 e d)
    (fun b hb => ?_) (by show 100000 * q.val + e.val = r.val; omega)
  · fin_cases q <;> rfl
  · fin_cases q <;> simp
  · match b with
    | ⟨0, _⟩ => exact absurd rfl hb
    | ⟨1, _⟩ => rfl

theorem biasRows_apply (b : S3.Idx → EReal) (r : Fin 600000) (j : Fin 3) :
    broadcastInDim S600000x3 ![0, 1] bcast_S1x3_S600000x3_0_1 (broadcastInDim S1x3 ![1] bcast_S3_S1x3_1 b) (ix2 r j) = b (ix1 j) := by
  refine (broadcastInDim_apply _ _ _ (ix2 r j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

theorem col_apply {α : Type} (x : S600000.Idx → α) (r : Fin 600000) :
    shapeCast S600000x1 x shapeCasts_S600000_S600000x1 (ix2 r (0 : Fin 1)) = x (ix1 r) :=
  shapeCast_apply x _ _ _ (by
    rw [Shape.rowMajor_val_two, Shape.rowMajor_val_one]
    show r.val = r.val * 1 + 0
    omega)

section Generic
variable (V : Valuation τ sig (Elt Ideal))

set_option hygiene false in
local macro "gather_group" k:num x:ident i:ident y:ident : tactic => `(tactic| (
  rw [hostOps3_each.after_chunk $k 9 (r := $y) (by decide),
    ← (hostOps3_each.take $k).after_of_not_mem (r := $x) (by decide) V,
    ← (hostOps3_each.take $k).after_of_not_mem (r := $i) (by decide) V]
  generalize after (List.take $k hostOps3) V = V'
  simp only [hostOps3, List.drop_succ_cons, List.drop_zero, List.take_succ_cons, List.take_zero]
  after_results
  rfl))

theorem ops3_v86 : after hostOps3 V (Proc.devRef .tc main_v86)
    = Host.gather gather_S50000x3_S100000x1_S100000x3_1_0_n_n_0_1_13 (V (Proc.devRef .tc main_v2_2)) (Mse.nrm (V (Proc.devRef .tc main_v4))) := by
  gather_group 5 main_v2_2 main_v4 main_v86
theorem ops3_v93 : after hostOps3 V (Proc.devRef .tc main_v93)
    = Host.gather gather_S50000x3_S100000x1_S100000x3_1_0_n_n_0_1_13 (V (Proc.devRef .tc main_v2_2)) (Mse.nrm (V (Proc.devRef .tc main_v6))) := by
  gather_group 14 main_v2_2 main_v6 main_v93
theorem ops3_v100 : after hostOps3 V (Proc.devRef .tc main_v100)
    = Host.gather gather_S50000x3_S100000x1_S100000x3_1_0_n_n_0_1_13 (V (Proc.devRef .tc main_v2_2)) (Mse.nrm (V (Proc.devRef .tc main_v8))) := by
  gather_group 23 main_v2_2 main_v8 main_v100
theorem ops3_v107 : after hostOps3 V (Proc.devRef .tc main_v107)
    = Host.gather gather_S50000x3_S100000x1_S100000x3_1_0_n_n_0_1_13 (V (Proc.devRef .tc main_v2_2)) (Mse.nrm (V (Proc.devRef .tc main_v10))) := by
  gather_group 32 main_v2_2 main_v10 main_v107
theorem ops3_v114 : after hostOps3 V (Proc.devRef .tc main_v114)
    = Host.gather gather_S50000x3_S100000x1_S100000x3_1_0_n_n_0_1_13 (V (Proc.devRef .tc main_v2_3)) (Mse.nrm (V (Proc.devRef .tc main_v6))) := by
  gather_group 41 main_v2_3 main_v6 main_v114
theorem ops3_v121 : after hostOps3 V (Proc.devRef .tc main_v121)
    = Host.gather gather_S50000x3_S100000x1_S100000x3_1_0_n_n_0_1_13 (V (Proc.devRef .tc main_v2_3)) (Mse.nrm (V (Proc.devRef .tc main_v10))) := by
  gather_group 50 main_v2_3 main_v10 main_v121
theorem ops3_v128 : after hostOps3 V (Proc.devRef .tc main_v128)
    = Host.gather gather_S50000x3_S100000x1_S100000x3_1_0_n_n_0_1_13 (V (Proc.devRef .tc main_v2_3)) (Mse.nrm (V (Proc.devRef .tc main_arg9))) := by
  gather_group 59 main_v2_3 main_arg9 main_v128
theorem ops3_v135 : after hostOps3 V (Proc.devRef .tc main_v135)
    = Host.gather gather_S50000x3_S100000x1_S100000x3_1_0_n_n_0_1_13 (V (Proc.devRef .tc main_v2_3)) (Mse.nrm (V (Proc.devRef .tc main_arg8))) := by
  gather_group 68 main_v2_3 main_arg8 main_v135

theorem ops3_v142 : after hostOps3 V (Proc.devRef .tc main_v142)
    = concatenate S600000x3 0 [⟨S100000x3, after hostOps3 V (Proc.devRef .tc main_v136)⟩, ⟨S100000x3, after hostOps3 V (Proc.devRef .tc main_v137)⟩,
        ⟨S100000x3, after hostOps3 V (Proc.devRef .tc main_v138)⟩, ⟨S100000x3, after hostOps3 V (Proc.devRef .tc main_v139)⟩,
        ⟨S100000x3, after hostOps3 V (Proc.devRef .tc main_v140)⟩, ⟨S100000x3, after hostOps3 V (Proc.devRef .tc main_v141)⟩]
        concatenates_S100000x3_S100000x3_S100000x3_S100000x3_S100000x3_S100000x3_S600000x3_d0 :=
  hostOps3_each.after_nary 83 rfl (by decide) (by decide) V

theorem ops4_v153 : (after hostOps4 V (Proc.devRef .tc main_v153) : S_.Idx → EReal) ix0
    = Ideal.div (∑ r : Fin 2, (V (Proc.devRef .tc main_v147) : S2x8x128.Idx → EReal) (ix3 r 0 0)) Spec.cnt
      + Spec.one * (V (Proc.devRef .tc main_v79) : S_.Idx → EReal) ix0 := by
  dsimp only [hostOps4]
  after_results
  show Ideal.div (Mse.tail (V (Proc.devRef .tc main_v147)) ix0) Spec.cnt + Spec.one * (V (Proc.devRef .tc main_v79) : S_.Idx → EReal) ix0 = _
  rw [Mse.tail_apply]

end Generic

section Carry
variable (c : Dev nD)

theorem W6_of_W2 (b : Ref sig .tc) (h1 : b ∉ (hostOps1_W : List (Ref sig .tc))) (h2 : ∀ w, Pipeline.arrRef spec1 w ≠ b)
    (h3 : b ∉ (hostOps2_W : List (Ref sig .tc))) (h4 : ∀ w, Pipeline.arrRef spec2 w ≠ b) :
    W6 m ρ c (Proc.devRef .tc b) = W2 m ρ c (Proc.devRef .tc b) :=
  (W6_of_ne m ρ c b h4).trans ((W5_of m ρ c b h3).trans ((W4_of_ne m ρ c b h2).trans (W3_of m ρ c b h1)))

theorem W6_of_W3 (b : Ref sig .tc) (h2 : ∀ w, Pipeline.arrRef spec1 w ≠ b)
    (h3 : b ∉ (hostOps2_W : List (Ref sig .tc))) (h4 : ∀ w, Pipeline.arrRef spec2 w ≠ b) :
    W6 m ρ c (Proc.devRef .tc b) = after hostOps1 (W2 m ρ c) (Proc.devRef .tc b) :=
  (W6_of_ne m ρ c b h4).trans ((W5_of m ρ c b h3).trans (W4_of_ne m ρ c b h2))

theorem W6_v4 (e : Fin 100000) : (W6 m ρ c (Proc.devRef .tc main_v4) : S100000.Idx → BitVec 32) (ix1 e) = aPI m c e := by
  rw [W6_of_W3 m ρ c main_v4 (by decide) (by decide) (by decide),
    hostOps1_each.after_reshape 1 rfl (by decide) (by decide), hostOps1_each.after_unary 0 rfl (by decide) (by decide),
    hostOps1_each.after_of_not_mem (r := main_arg6) (by decide), W2_arg m ρ c main_arg6 (by decide)]
  exact (shapeCast_1a_a_apply _ _ e).trans (slice2_axis0_apply 0 _ _ 0 e 0 rfl)
theorem W6_v6 (e : Fin 100000) : (W6 m ρ c (Proc.devRef .tc main_v6) : S100000.Idx → BitVec 32) (ix1 e) = aPJ m c e := by
  rw [W6_of_W3 m ρ c main_v6 (by decide) (by decide) (by decide),
    hostOps1_each.after_reshape 3 rfl (by decide) (by decide), hostOps1_each.after_unary 2 rfl (by decide) (by decide),
    hostOps1_each.after_of_not_mem (r := main_arg6) (by decide), W2_arg m ρ c main_arg6 (by decide)]
  exact (shapeCast_1a_a_apply _ _ e).trans (slice2_axis0_apply 1 _ _ 0 e 1 rfl)
theorem W6_v8 (e : Fin 100000) : (W6 m ρ c (Proc.devRef .tc main_v8) : S100000.Idx → BitVec 32) (ix1 e) = aNI m c e := by
  rw [W6_of_W3 m ρ c main_v8 (by decide) (by decide) (by decide),
    hostOps1_each.after_reshape 5 rfl (by decide) (by decide), hostOps1_each.after_unary 4 rfl (by decide) (by decide),
    hostOps1_each.after_of_not_mem (r := main_arg7) (by decide), W2_arg m ρ c main_arg7 (by decide)]
  exact (shapeCast_1a_a_apply _ _ e).trans (slice2_axis0_apply 0 _ _ 0 e 0 rfl)
theorem W6_v10 (e : Fin 100000) : (W6 m ρ c (Proc.devRef .tc main_v10) : S100000.Idx → BitVec 32) (ix1 e) = aNJ m c e := by
  rw [W6_of_W3 m ρ c main_v10 (by decide) (by decide) (by decide),
    hostOps1_each.after_reshape 7 rfl (by decide) (by decide), hostOps1_each.after_unary 6 rfl (by decide) (by decide),
    hostOps1_each.after_of_not_mem (r := main_arg7) (by decide), W2_arg m ρ c main_arg7 (by decide)]
  exact (shapeCast_1a_a_apply _ _ e).trans (slice2_axis0_apply 1 _ _ 0 e 1 rfl)

theorem W6_arg8 (e : Fin 100000) : (W6 m ρ c (Proc.devRef .tc main_arg8) : S100000.Idx → BitVec 32) (ix1 e) = aPK m c e := by
  rw [W6_of_W2 m ρ c main_arg8 (by decide) (by decide) (by decide) (by decide), W2_arg m ρ c main_arg8 (by decide)]
  rfl
theorem W6_arg9 (e : Fin 100000) : (W6 m ρ c (Proc.devRef .tc main_arg9) : S100000.Idx → BitVec 32) (ix1 e) = aNK m c e := by
  rw [W6_of_W2 m ρ c main_arg9 (by decide) (by decide) (by decide) (by decide), W2_arg m ρ c main_arg9 (by decide)]
  rfl
theorem W6_bias (j : Fin 3) : (W6 m ρ c (Proc.devRef .tc main_arg4) : S3.Idx → EReal) (ix1 j) = arb m c j := by
  rw [W6_of_W2 m ρ c main_arg4 (by decide) (by decide) (by decide) (by decide), W2_arg m ρ c main_arg4 (by decide)]
  rfl
theorem W6_s1 (n : Fin 50000) (j : Fin 3) :
    (W6 m ρ c (Proc.devRef .tc main_v2_2) : S50000x3.Idx → EReal) (ix2 n j) = Spec.s1 (aX m c) (aWl m c) (abl m c) (arW m c) n j := by
  rw [W6_of_W2 m ρ c main_v2_2 (by decide) (by decide) (by decide) (by decide)]
  exact s1_val m ρ c n j
theorem W6_s2 (n : Fin 50000) (j : Fin 3) :
    (W6 m ρ c (Proc.devRef .tc main_v2_3) : S50000x3.Idx → EReal) (ix2 n j) = Spec.s2 (aX m c) (aWl m c) (abl m c) (arW m c) n j := by
  rw [W6_of_W2 m ρ c main_v2_3 (by decide) (by decide) (by decide) (by decide)]
  exact s2_val m ρ c n j

-- a block's row is the sum of the two half projections' rows that its endpoint words name
theorem blk_apply {i1 i2 : IVec S100000 32} {a1 a2 : Fin 100000 → BitVec 32} {Y A B : FVec Ideal S100000x3 .f32} (hY : Y = addf A B)
    (hA : A = Host.gather gather_S50000x3_S100000x1_S100000x3_1_0_n_n_0_1_13 (W6 m ρ c (Proc.devRef .tc main_v2_2)) (Mse.nrm i1))
    (hB : B = Host.gather gather_S50000x3_S100000x1_S100000x3_1_0_n_n_0_1_13 (W6 m ρ c (Proc.devRef .tc main_v2_3)) (Mse.nrm i2))
    (h1 : ∀ e, i1 (ix1 e) = a1 e) (h2 : ∀ e, i2 (ix1 e) = a2 e) (e : Fin 100000) (j : Fin 3) :
    Y (ix2 e j) = Spec.s1 (aX m c) (aWl m c) (abl m c) (arW m c) (Spec.rowOf (a1 e)) j + Spec.s2 (aX m c) (aWl m c) (abl m c) (arW m c) (Spec.rowOf (a2 e)) j := by
  subst hY hA hB
  rw [addf_apply, gatherRows3_apply, gatherRows3_apply, W6_s1, W6_s2, h1, h2]

-- block q takes its left and right endpoint arrays as the specification lists them
attribute [local irreducible] StableHlo.after in
theorem blk_val (q : Fin 6) (e : Fin 100000) (j : Fin 3) :
    (![after hostOps3 (W6 m ρ c) (Proc.devRef .tc main_v136), after hostOps3 (W6 m ρ c) (Proc.devRef .tc main_v137), after hostOps3 (W6 m ρ c) (Proc.devRef .tc main_v138),
        after hostOps3 (W6 m ρ c) (Proc.devRef .tc main_v139), after hostOps3 (W6 m ρ c) (Proc.devRef .tc main_v140), after hostOps3 (W6 m ρ c) (Proc.devRef .tc main_v141)] : Fin 6 → S100000x3.Idx → EReal) q (ix2 e j)
      = Spec.s1 (aX m c) (aWl m c) (abl m c) (arW m c) (Spec.rowOf (Spec.lft (aPI m c) (aPJ m c) (aNI m c) (aNJ m c) q e)) j
        + Spec.s2 (aX m c) (aWl m c) (abl m c) (arW m c) (Spec.rowOf (Spec.rgt (aPJ m c) (aNJ m c) (aPK m c) (aNK m c) q e)) j := by
  match q with
  | ⟨0, _⟩ => exact blk_apply m ρ c (hostOps3_each.after_binary 77 rfl (by decide) (by decide) (by decide) _) (ops3_v86 _) (ops3_v114 _) (W6_v4 m ρ c) (W6_v6 m ρ c) e j
  | ⟨1, _⟩ => exact blk_apply m ρ c (hostOps3_each.after_binary 78 rfl (by decide) (by decide) (by decide) _) (ops3_v100 _) (ops3_v121 _) (W6_v8 m ρ c) (W6_v10 m ρ c) e j
  | ⟨2, _⟩ => exact blk_apply m ρ c (hostOps3_each.after_binary 79 rfl (by decide) (by decide) (by decide) _) (ops3_v100 _) (ops3_v128 _) (W6_v8 m ρ c) (W6_arg9 m ρ c) e j
  | ⟨3, _⟩ => exact blk_apply m ρ c (hostOps3_each.after_binary 80 rfl (by decide) (by decide) (by decide) _) (ops3_v107 _) (ops3_v128 _) (W6_v10 m ρ c) (W6_arg9 m ρ c) e j
  | ⟨4, _⟩ => exact blk_apply m ρ c (hostOps3_each.after_binary 81 rfl (by decide) (by decide) (by decide) _) (ops3_v86 _) (ops3_v135 _) (W6_v4 m ρ c) (W6_arg8 m ρ c) e j
  | ⟨5, _⟩ => exact blk_apply m ρ c (hostOps3_each.after_binary 82 rfl (by decide) (by decide) (by decide) _) (ops3_v93 _) (ops3_v135 _) (W6_v6 m ρ c) (W6_arg8 m ρ c) e j

end Carry

end Loss

-- row r is row r mod 100000 of block r div 100000, plus the bias
theorem logits_val (c : Dev nD) (r : Fin 600000) (j : Fin 3) :
    (W7 m ρ c (Proc.devRef .tc main_v145) : S600000x3.Idx → EReal) (ix2 r j) = Spec.logitK (aX m c) (aWl m c) (abl m c) (arW m c) (arb m c) (aPI m c) (aPJ m c) (aNI m c) (aNJ m c) (aPK m c) (aNK m c) r j := by
  have hr : r.val = 100000 * (Spec.blk r).val + (Spec.edg r).val := (Nat.div_add_mod r.val 100000).symm
  show (StableHlo.after hostOps3 (W6 m ρ c) (Proc.devRef .tc main_v145) : S600000x3.Idx → EReal) (ix2 r j) = _
  rw [Loss.hostOps3_each.after_binary 86 rfl (by decide) (by decide) (by decide), addf_apply, Loss.hostOps3_each.after_unary 85 rfl (by decide) (by decide),
    Loss.hostOps3_each.after_unary 84 rfl (by decide) (by decide), Loss.biasRows_apply, Loss.hostOps3_each.after_of_not_mem (r := main_arg4) (by decide),
    Loss.ops3_v142, Loss.cat6_apply _ _ _ _ _ _ _ (Spec.blk r) (Spec.edg r) j r hr, Loss.W6_bias m ρ c]
  exact congrArg (· + arb m c j) (Loss.blk_val m ρ c (Spec.blk r) (Spec.edg r) j)

theorem tgt_val (c : Dev nD) (r : Fin 600000) :
    (W7 m ρ c (Proc.devRef .tc main_v146) : S600000x1.Idx → BitVec 32) (ix2 r 0) = aTg m c r := by
  show (StableHlo.after hostOps3 (W6 m ρ c) (Proc.devRef .tc main_v146) : S600000x1.Idx → BitVec 32) (ix2 r 0) = _
  rw [Loss.hostOps3_each.after_reshape 87 rfl (by decide) (by decide), Loss.hostOps3_each.after_of_not_mem (r := main_arg10) (by decide),
    Loss.W6_of_W2 m ρ c main_arg10 (by decide) (by decide) (by decide) (by decide), W2_arg m ρ c main_arg10 (by decide)]
  exact Loss.col_apply _ r

-- the two runs' tiled sums over the count, plus the squared-error sums
theorem kernel_loss (c : Dev nD) :
    (W9 m ρ c (Proc.devRef .tc main_v153) : S_.Idx → EReal)
      = fun _ => Spec.lossK (aX m c) (aWl m c) (abl m c) (arW m c) (arb m c) (apv m c) (aPI m c) (aPJ m c) (aNI m c) (aNJ m c) (aPK m c) (aNK m c) (aTg m c) := by
  funext i
  rw [eq_ix0 i]
  have hL : cLg (V7 m ρ) c = Spec.logitK (aX m c) (aWl m c) (abl m c) (arW m c) (arb m c) (aPI m c) (aPJ m c) (aNI m c) (aNJ m c) (aPK m c) (aNK m c) :=
    funext fun r => funext fun j => logits_val m ρ c r j
  have hT : cTg (V7 m ρ) c = aTg m c := funext fun r => tgt_val m ρ c r
  have h147 : W8 m ρ c (Proc.devRef .tc main_v147) = (dat3 (V7 m ρ) c).arrAt 2 cfg3.N := W8_arr m ρ c 2
  have h79 : (W8 m ρ c (Proc.devRef .tc main_v79) : S_.Idx → EReal) ix0
      = Spec.mseK (aX m c) (aWl m c) (abl m c) (apv m c) Spec.one (aPI m c) (aPJ m c)
        + Spec.mseK (aX m c) (aWl m c) (abl m c) (apv m c) Spec.zero (aNI m c) (aNJ m c) := by
    rw [W8_of_ne m ρ c main_v79 (by decide)]
    exact mse_sum m ρ c
  refine (Loss.ops4_v153 (W8 m ρ c)).trans ?_
  rw [h79, h147]
  simp only [arrAt3_2 (V7 m ρ) c, hL, hT]
  rfl

theorem kernel_z (c : Dev nD) :
    (W9 m ρ c (Proc.devRef .tc main_v2_0) : S50000x128.Idx → EReal)
      = fun i => Spec.z (aX m c) (aWl m c) (abl m c) (i 0) (i 1) := by
  funext i
  rw [W9_of m ρ c main_v2_0 (by decide), W8_of_ne m ρ c main_v2_0 (by decide), W7_of m ρ c main_v2_0 (by decide),
    Loss.W6_of_W2 m ρ c main_v2_0 (by decide) (by decide) (by decide) (by decide)]
  conv_lhs => rw [eq_ix2 i]
  exact z_val m ρ c (i 0) (i 1)

end Cert.KernelIdeal.Hand

end
-- ==== Proof.PreFacts.lean ====
-- The precondition read off the launch memory: every float entry is a real number and every label is below 3.
import proofs.«404240_j51247549776505_4_alg».proof.Defs
import proofs.«404240_j51247549776505_4_alg».proof.Proof.KVZ
import proofs.«404240_j51247549776505_4_alg».proof.Proof.Gen.Pre_finite_inputs
import Idealize.ShloMosaic.Lib.ReduceAll
import Idealize.ShloMosaic.Lib.StableHlo.Predicate

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem

variable [hP : Cert.Pre_finite_inputs.Facts]

namespace PreFacts

theorem inf_bits : Ideal.ofBits .f32 0x7F800000#32 = ⊤ := by simp [Ideal.ofBits, Ideal.ieee]

theorem real_of_abs_lt_top (x : EReal) (h : Ideal.cmp .olt (max x (-x)) ⊤ = 1#1) : ∃ r : ℝ, x = (r : EReal) := by
  have hlt : max x (-x) < ⊤ := by
    unfold Ideal.cmp at h
    exact of_decide_eq_true ((StableHlo.Predicate.ofBool_eq_one_iff _).1 h)
  induction x using EReal.rec with
  | bot => exact absurd hlt (by simp)
  | coe r => exact ⟨r, rfl⟩
  | top => exact absurd hlt (by simp)

theorem entry_real {s : Shape} (x : FVec Ideal s .f32) (hb : (⟨0, ![]⟩ : Shape).BroadcastsInDim s ![]) (i : s.Idx)
    (h : cmpf .olt (Host.absf x) (broadcastInDim s ![] hb (constant ⟨0, ![]⟩ .f32 0x7F800000#32)) i = 1#1) :
    ∃ r : ℝ, x i = (r : EReal) := by
  refine real_of_abs_lt_top (x i) ?_
  rw [← inf_bits]
  exact h

theorem word_lt_three (t : BitVec 32) (h : IntOp.andi (IntOp.cmpi .sge t 0#32) (IntOp.cmpi .slt t 3#32) = 1#1) : t.toNat < 3 := by
  obtain ⟨h0, h3⟩ := IntOp.andi_eq_one.1 h
  unfold IntOp.cmpi at h0 h3
  rw [StableHlo.Predicate.ofBool_eq_one_iff] at h0 h3
  have h0' : (0#32 : BitVec 32).toInt ≤ t.toInt := by simpa only [BitVec.sle, decide_eq_true_eq] using h0
  have h3' : t.toInt < (3#32 : BitVec 32).toInt := by simpa only [BitVec.slt, decide_eq_true_eq] using h3
  have z0 : (0#32 : BitVec 32).toInt = 0 := by decide
  have z3 : (3#32 : BitVec 32).toInt = 3 := by decide
  have hlt := t.isLt
  by_cases hm : 2 * t.toNat < 2 ^ 32
  · have ht : t.toInt = (t.toNat : Int) := by rw [BitVec.toInt_eq_toNat_cond, if_pos hm]
    omega
  · have ht : t.toInt = (t.toNat : Int) - (2 ^ 32 : Nat) := by rw [BitVec.toInt_eq_toNat_cond, if_neg hm]
    omega

end PreFacts

open PreFacts

local instance : Subsingleton Cert.Pre_finite_inputs.S_.Idx := ⟨fun a b => funext fun d => d.elim0⟩

theorem pre_facts (m : (ℓ : Loc nD τ sig) → Buf (Elt Ideal) ℓ) (h : Cert.Pre_KernelIdeal m) (c : Dev nD) :
    (∀ n k, ∃ r : ℝ, aX m c n k = (r : EReal)) ∧ (∀ k d, ∃ r : ℝ, aWl m c k d = (r : EReal))
      ∧ (∀ d, ∃ r : ℝ, abl m c d = (r : EReal)) ∧ (∀ k j, ∃ r : ℝ, arW m c k j = (r : EReal))
      ∧ (∀ j, ∃ r : ℝ, arb m c j = (r : EReal)) ∧ (∀ n, ∃ r : ℝ, apv m c n = (r : EReal))
      ∧ (∀ r, (aTg m c r).toNat < 3) := by
  have e := congrFun (h c) ValueIdx.ix0
  dsimp only [Cert.Pre_finite_inputs.fn, Cert.Pre_finite_inputs.fn_part1, Cert.Pre_finite_inputs.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun n k => entry_real _ _ _ (Host.reduce_andi_all _ _ _ _ _ e1 (ix2 n k)),
    fun k d => entry_real _ _ _ (Host.reduce_andi_all _ _ _ _ _ e2 (ix2 k d)),
    fun d => entry_real _ _ _ (Host.reduce_andi_all _ _ _ _ _ e3 (ix1 d)),
    fun k j => entry_real _ _ _ (Host.reduce_andi_all _ _ _ _ _ e4 (ix2 k j)),
    fun j => entry_real _ _ _ (Host.reduce_andi_all _ _ _ _ _ e5 (ix1 j)),
    fun n => entry_real _ _ _ (Host.reduce_andi_all _ _ _ _ _ e6 (ix1 n)),
    fun r => word_lt_three _ (Host.reduce_andi_all _ _ _ _ _ e7 (ix1 r))⟩

end Cert.KernelIdeal.Hand

end
-- ==== Proof.LibTileSum.lean ====
-- Sums over tiled ranges in any additive commutative monoid: tiles of lanes, runs of tiles, a padded tail of zeros.
import Mathlib.Algebra.BigOperators.Fin
import Mathlib.Algebra.BigOperators.Intervals
import Mathlib.Algebra.BigOperators.Group.Finset.Basic
import Mathlib.Order.Interval.Finset.Nat

open scoped BigOperators

namespace Cert.LibTileSum

variable {M : Type*} [AddCommMonoid M]

theorem sum_fin_range (n : ℕ) (f : ℕ → M) : ∑ i : Fin n, f i.val = ∑ j ∈ Finset.range n, f j :=
  (Finset.sum_range f).symm

theorem sum_tiles (T L : ℕ) (f : ℕ → M) :
    ∑ s ∈ Finset.range T, ∑ l : Fin L, f (L * s + l.val) = ∑ j ∈ Finset.range (T * L), f j := by
  induction T with
  | zero => simp
  | succ T ih =>
    rw [Finset.sum_range_succ, ih, Nat.succ_mul, Finset.sum_range_add, Nat.mul_comm T L]
    congr 1
    exact sum_fin_range L fun l => f (L * T + l)

theorem sum_pad (N P : ℕ) (h : N ≤ P) (f : ℕ → M) (hz : ∀ j, N ≤ j → j < P → f j = 0) :
    ∑ j ∈ Finset.range P, f j = ∑ j ∈ Finset.range N, f j := by
  refine (Finset.sum_subset (Finset.range_mono h) fun j hj hn => ?_).symm
  rw [Finset.mem_range] at hj
  rw [Finset.mem_range, Nat.not_lt] at hn
  exact hz j hn hj

theorem sum_groups (G T : ℕ) (f : ℕ → M) :
    ∑ g ∈ Finset.range G, ∑ s ∈ Finset.Ico (T * g) (T * g + T), f s = ∑ s ∈ Finset.range (G * T), f s := by
  induction G with
  | zero => simp
  | succ G ih =>
    rw [Finset.sum_range_succ, ih, Nat.succ_mul, Finset.sum_range_add, Finset.sum_Ico_eq_sum_range,
      Nat.add_sub_cancel_left, Nat.mul_comm T G]

theorem sum_Icc_run (T g : ℕ) (hT : 0 < T) (f : ℕ → M) :
    ∑ s ∈ Finset.Icc (T * g) (T * g + (T - 1)), f s = ∑ s ∈ Finset.Ico (T * g) (T * g + T), f s := by
  refine Finset.sum_congr ?_ fun _ _ => rfl
  generalize T * g = a
  ext s
  rw [Finset.mem_Icc, Finset.mem_Ico]
  omega

end Cert.LibTileSum
-- ==== Proof.Algebra.lean ====
-- The tiled and the plain arrangement of the loss are one number when the float arguments are real and the labels are in range.
import proofs.«404240_j51247549776505_4_alg».proof.Proof.Spec
import proofs.«404240_j51247549776505_4_alg».proof.Proof.LibTileSum
import Idealize.ShloMosaic.PureOps.Ideal.Laws

set_option maxRecDepth 8192

noncomputable section

namespace Cert.Hand.Alg

open Idealize.ShloMosaic Cert.Hand.Spec

theorem mul_self_nonneg' (x : EReal) : 0 ≤ x * x := by
  rcases le_total 0 x with h | h
  · exact mul_nonneg h h
  · have h' : 0 ≤ -x := by
      have := EReal.neg_le_neg_iff.mpr h
      simpa using this
    calc (0 : EReal) ≤ (-x) * (-x) := mul_nonneg h' h'
      _ = x * x := neg_mul_neg x x

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a) (Finset.sum_nonneg fun i _ => hf i), ih]

theorem sum_zero_sub_coe {ι : Type} (s : Finset ι) (f : ι → ℝ) :
    ∑ i ∈ s, ((0 : EReal) - (f i : EReal)) = - ∑ i ∈ s, (f i : EReal) := by
  rw [← coe_sum, ← EReal.coe_neg, ← Finset.sum_neg_distrib, coe_sum]
  refine Finset.sum_congr rfl fun i _ => ?_
  rw [zero_sub, EReal.coe_neg]

theorem sum_tiles3 (A B L : ℕ) (g : ℕ → EReal) :
    ∑ c : Fin A, ∑ s : Fin B, ∑ r : Fin L, g (L * (B * c.val + s.val) + r.val) = ∑ n ∈ Finset.range (A * B * L), g n := by
  rw [← Cert.LibTileSum.sum_tiles (A * B) L g,
    ← Cert.LibTileSum.sum_tiles A B (fun t => ∑ l : Fin L, g (L * t + l.val))]
  exact Cert.LibTileSum.sum_fin_range A (fun c => ∑ s : Fin B, ∑ r : Fin L, g (L * (B * c + s.val) + r.val))

theorem sum_range_dite (N : ℕ) (f : Fin N → EReal) :
    ∑ n ∈ Finset.range N, (if h : n < N then f ⟨n, h⟩ else 0) = ∑ e : Fin N, f e := by
  rw [← Cert.LibTileSum.sum_fin_range N (fun n => if h : n < N then f ⟨n, h⟩ else 0)]
  refine Finset.sum_congr rfl fun e _ => ?_
  rw [dif_pos e.isLt]

theorem zero_eq : zero = 0 := Ideal.ofBits_zero_f32

theorem half_nonneg : (0 : EReal) ≤ half := by
  unfold half
  simp [Ideal.ofBits, Ideal.ieee]
  rw [← EReal.coe_mul]
  exact EReal.coe_nonneg.mpr (by positivity)

theorem cnt_eq : cnt = ((600000 : ℝ) : EReal) := by
  unfold cnt
  simp [Ideal.ofBits, Ideal.ieee]
  rw [← EReal.coe_mul]
  norm_num

section Mse

variable (X : Fin 50000 → Fin 512 → EReal) (Wl : Fin 512 → Fin 128 → EReal) (bl : Fin 128 → EReal) (pv : Fin 50000 → EReal)

theorem sqd_nonneg (l y : EReal) : 0 ≤ sqd l y := mul_self_nonneg' _

theorem mseK_eq (l : EReal) (a b : Fin 100000 → BitVec 32) :
    mseK X Wl bl pv l a b = half * ∑ e : Fin 100000, sqd l (yhat X Wl bl pv a b e) := by
  let D : ℕ → EReal := fun n => if h : n < 100000 then sqd l (yhat X Wl bl pv a b ⟨n, h⟩) else 0
  have hD : ∀ n, 0 ≤ D n := fun n => by
    show 0 ≤ (if h : n < 100000 then sqd l (yhat X Wl bl pv a b ⟨n, h⟩) else 0)
    split_ifs
    · exact sqd_nonneg _ _
    · exact le_rfl
  have step : ∀ (c : Fin 2) (s : Fin 10),
      half * ∑ r : Fin 5000, sqd l (yhat X Wl bl pv a b ⟨5000 * (10 * c.val + s.val) + r.val, by omega⟩)
        = ∑ r : Fin 5000, (fun n => half * D n) (5000 * (10 * c.val + s.val) + r.val) := by
    intro c s
    rw [mul_sum_nonneg _ _ _ (fun r => sqd_nonneg _ _)]
    refine Finset.sum_congr rfl fun r _ => ?_
    have hr : 5000 * (10 * c.val + s.val) + r.val < 100000 := by omega
    show _ = half * (if h : 5000 * (10 * c.val + s.val) + r.val < 100000 then _ else 0)
    rw [dif_pos hr]
  calc mseK X Wl bl pv l a b
      = ∑ c : Fin 2, ∑ s : Fin 10, ∑ r : Fin 5000, (fun n => half * D n) (5000 * (10 * c.val + s.val) + r.val) :=
        Finset.sum_congr rfl fun c _ => Finset.sum_congr rfl fun s _ => step c s
    _ = ∑ n ∈ Finset.range (2 * 10 * 5000), half * D n := sum_tiles3 2 10 5000 (fun n => half * D n)
    _ = half * ∑ n ∈ Finset.range 100000, D n := (mul_sum_nonneg _ _ _ hD).symm
    _ = half * ∑ e : Fin 100000, sqd l (yhat X Wl bl pv a b e) :=
        congrArg _ (sum_range_dite 100000 fun e => sqd l (yhat X Wl bl pv a b e))

theorem sqd_zero (y : EReal) : sqd zero y = y * y := by
  unfold sqd
  rw [zero_eq, zero_sub, neg_mul_neg]

end Mse

def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (hf : ∀ i, IsR (f i)) : IsR (∑ i ∈ s, f i) := by
  choose g hg using hf
  exact ⟨∑ i ∈ s, g i, by rw [coe_sum]; exact Finset.sum_congr rfl fun i _ => hg i⟩

section Nll

variable (X : Fin 50000 → Fin 512 → EReal) (Wl : Fin 512 → Fin 128 → EReal) (bl : Fin 128 → EReal)
  (rW : Fin 256 → Fin 3 → EReal) (rb : Fin 3 → EReal) (pv : Fin 50000 → EReal)
  (pI pJ nI nJ pK nK : Fin 100000 → BitVec 32) (tg : Fin 600000 → BitVec 32)

theorem sum_split256 (f : Fin 256 → EReal) :
    ∑ k, f k = (∑ d : Fin 128, f ⟨d.val, by omega⟩) + ∑ d : Fin 128, f ⟨128 + d.val, by omega⟩ :=
  Fin.sum_univ_add (fun k : Fin (128 + 128) => f k)

theorem logit_eq (r : Fin 600000) (j : Fin 3) :
    logitK X Wl bl rW rb pI pJ nI nJ pK nK r j = logitR X Wl bl rW rb pI pJ nI nJ pK nK r j := by
  unfold logitK logitR s1 s2
  rw [sum_split256]
  congr 1

theorem pickK_eq (lp : Fin 3 → EReal) (t : BitVec 32) (h : t.toNat < 3) : pickK lp t = lp ⟨t.toNat, h⟩ := by
  unfold pickK
  rw [Fin.sum_univ_three, zero_eq]
  have h3 : t.toNat = 0 ∨ t.toNat = 1 ∨ t.toNat = 2 := by omega
  rcases h3 with h0 | h0 | h0
  · have ht : t = 0#32 := BitVec.eq_of_toNat_eq (by simp [h0])
    subst ht
    simp
  · have ht : t = 1#32 := BitVec.eq_of_toNat_eq (by simp [h0])
    subst ht
    simp
  · have ht : t = 2#32 := BitVec.eq_of_toNat_eq (by simp [h0])
    subst ht
    simp

theorem isR_logp (lg : Fin 3 → EReal) (h : ∀ j, IsR (lg j)) (j : Fin 3) : IsR (logp lg j) := by
  choose lr hlr using h
  obtain rfl : lg = fun j => (lr j : EReal) := funext hlr
  obtain ⟨i0, -, hi0⟩ := Finset.exists_mem_eq_sup Finset.univ Finset.univ_nonempty (fun j => (lr j : EReal))
  unfold logp rowMax
  rw [hi0]
  have hs : ∀ j' : Fin 3, Ideal.exp ((lr j' : EReal) - (lr i0 : EReal)) = ((Real.exp (lr j' - lr i0) : ℝ) : EReal) := fun j' => by
    rw [← EReal.coe_sub, Ideal.exp_coe]
  simp only [hs]
  rw [← coe_sum]
  have hpos : 0 < ∑ j' : Fin 3, Real.exp (lr j' - lr i0) := Finset.sum_pos (fun _ _ => Real.exp_pos _) Finset.univ_nonempty
  rw [Ideal.log_coe, if_neg (not_le.mpr hpos), ← EReal.coe_sub, ← EReal.coe_sub]
  exact ⟨_, rfl⟩

variable (hX : ∀ n k, IsR (X n k)) (hW : ∀ k d, IsR (Wl k d)) (hb : ∀ d, IsR (bl d)) (hrW : ∀ k j, IsR (rW k j)) (hrb : ∀ j, IsR (rb j))

include hX hW hb in
theorem isR_z (n : Fin 50000) (d : Fin 128) : IsR (z X Wl bl n d) :=
  (IsR.sum _ _ fun k => (hX n k).mul (hW k d)).add (hb d)

include hX hW hb hrW hrb in
theorem isR_logitR (r : Fin 600000) (j : Fin 3) : IsR (logitR X Wl bl rW rb pI pJ nI nJ pK nK r j) := by
  unfold logitR
  refine (IsR.sum _ _ fun k => IsR.mul ?_ (hrW k j)).add (hrb j)
  split_ifs
  · exact isR_z X Wl bl hX hW hb _ _
  · exact isR_z X Wl bl hX hW hb _ _

include hX hW hb hrW hrb in

theorem nll_eq (hT : ∀ r, (tg r).toNat < 3) :
    nllK X Wl bl rW rb pI pJ nI nJ pK nK tg = nllR X Wl bl rW rb pI pJ nI nJ pK nK tg hT := by
  have hsel : ∀ r : Fin 600000, IsR (logp (logitR X Wl bl rW rb pI pJ nI nJ pK nK r) ⟨(tg r).toNat, hT r⟩) := fun r =>
    isR_logp _ (fun j => isR_logitR X Wl bl rW rb pI pJ nI nJ pK nK hX hW hb hrW hrb r j) _
  choose a ha using hsel
  let D : ℕ → EReal := fun n => if h : n < 600000 then (0 : EReal) - (a ⟨n, h⟩ : EReal) else 0
  have step : ∀ (c : Fin 2) (s : Fin 30) (r : Fin 10000),
      (zero - pickK (logp (logitK X Wl bl rW rb pI pJ nI nJ pK nK ⟨10000 * (30 * c.val + s.val) + r.val, by omega⟩))
        (tg ⟨10000 * (30 * c.val + s.val) + r.val, by omega⟩)) = D (10000 * (30 * c.val + s.val) + r.val) := by
    intro c s r
    have hr : 10000 * (30 * c.val + s.val) + r.val < 600000 := by omega
    show _ = (if h : 10000 * (30 * c.val + s.val) + r.val < 600000 then (0 : EReal) - (a ⟨_, h⟩ : EReal) else 0)
    rw [dif_pos hr, pickK_eq _ _ (hT _), zero_eq, ← ha]
    congr 2
    funext j
    exact logit_eq X Wl bl rW rb pI pJ nI nJ pK nK _ j
  have hsum : (∑ c : Fin 2, ∑ s : Fin 30, ∑ r : Fin 10000,
      (zero - pickK (logp (logitK X Wl bl rW rb pI pJ nI nJ pK nK ⟨10000 * (30 * c.val + s.val) + r.val, by omega⟩))
        (tg ⟨10000 * (30 * c.val + s.val) + r.val, by omega⟩))) = - ∑ r : Fin 600000, (a r : EReal) :=
    calc _ = ∑ c : Fin 2, ∑ s : Fin 30, ∑ r : Fin 10000, D (10000 * (30 * c.val + s.val) + r.val) :=
          Finset.sum_congr rfl fun c _ => Finset.sum_congr rfl fun s _ => Finset.sum_congr rfl fun r _ => step c s r
      _ = ∑ n ∈ Finset.range (2 * 30 * 10000), D n := sum_tiles3 2 30 10000 D
      _ = ∑ r : Fin 600000, ((0 : EReal) - (a r : EReal)) := sum_range_dite 600000 fun r => (0 : EReal) - (a r : EReal)
      _ = - ∑ r : Fin 600000, (a r : EReal) := sum_zero_sub_coe _ _
  unfold nllK nllR
  rw [hsum, Finset.sum_congr rfl fun r _ => ha r, cnt_eq, Ideal.div_coe (by norm_num : (600000 : ℝ) ≠ 0),
    Ideal.div_coe (by norm_num : (600000 : ℝ) ≠ 0), neg_mul]

include hX hW hb hrW hrb in

theorem loss_eq (hT : ∀ r, (tg r).toNat < 3) :
    lossK X Wl bl rW rb pv pI pJ nI nJ pK nK tg = lossR X Wl bl rW rb pv pI pJ nI nJ pK nK tg hT := by
  have h1 := nll_eq X Wl bl rW rb pI pJ nI nJ pK nK tg hX hW hb hrW hrb hT
  have h2 := mseK_eq X Wl bl pv one pI pJ
  have h3 := mseK_eq X Wl bl pv zero nI nJ
  have h4 : (∑ e : Fin 100000, sqd zero (yhat X Wl bl pv nI nJ e))
      = ∑ e : Fin 100000, yhat X Wl bl pv nI nJ e * yhat X Wl bl pv nI nJ e :=
    Finset.sum_congr rfl fun e _ => sqd_zero _
  show nllK X Wl bl rW rb pI pJ nI nJ pK nK tg + one * (mseK X Wl bl pv one pI pJ + mseK X Wl bl pv zero nI nJ) = _
  rw [h1, h2, h3, h4]
  rfl

end Nll

end Cert.Hand.Alg

end
-- ==== Proof.RefMse.lean ====
import proofs.«404240_j51247549776505_4_alg».proof.Proof.ReadP
import proofs.«404240_j51247549776505_4_alg».proof.Proof.Spec
import proofs.«404240_j51247549776505_4_alg».proof.Proof.LibGather
import proofs.«404240_j51247549776505_4_alg».proof.Proof.LibGatherRows
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Cert.Hand
open Idealize.ShloMosaic Idealize.ShloMosaic.TcCoe Idealize.ShloMosaic.ValueIdx
open Idealize.SL.Sem

variable (x0 : S50000x512.Idx → EReal) (x1 : S512x128.Idx → EReal) (x2 : S128.Idx → EReal) (x3 : S256x3.Idx → EReal)
  (x4 : S3.Idx → EReal) (x5 : S50000.Idx → EReal) (x6 x7 : S2x100000.Idx → BitVec 32) (x8 x9 : S100000.Idx → BitVec 32)
  (x10 : S600000.Idx → BitVec 32)

def rX : Fin 50000 → Fin 512 → EReal := fun n k => x0 (ix2 n k)
def rWl : Fin 512 → Fin 128 → EReal := fun k d => x1 (ix2 k d)
def rbl : Fin 128 → EReal := fun d => x2 (ix1 d)
def rrW : Fin 256 → Fin 3 → EReal := fun k j => x3 (ix2 k j)
def rrb : Fin 3 → EReal := fun j => x4 (ix1 j)
def rpv : Fin 50000 → EReal := fun n => x5 (ix1 n)
def rI0 (x : S2x100000.Idx → BitVec 32) : Fin 100000 → BitVec 32 := fun e => x (ix2 0 e)
def rI1 (x : S2x100000.Idx → BitVec 32) : Fin 100000 → BitVec 32 := fun e => x (ix2 1 e)
def rV (x : S100000.Idx → BitVec 32) : Fin 100000 → BitVec 32 := fun e => x (ix1 e)
def rTg : Fin 600000 → BitVec 32 := fun r => x10 (ix1 r)

/-- Entry (n, d) of the product contracts row n of X with column d of W; the bias is read at d. -/
theorem ref_z : (val_main_v3 (F := Ideal) x0 x1 x2 : S50000x128.Idx → EReal) = fun i => Spec.z (rX x0) (rWl x1) (rbl x2) (i 0) (i 1) := by
  funext i
  obtain ⟨n, d, rfl⟩ : ∃ (n : Fin 50000) (d : Fin 128), i = ix2 n d := ⟨i 0, i 1, eq_ix2 i⟩
  have el : ∀ k : Fin 512, lidx_main_v0 (ix2 n d) k = ix2 n k := fun k => eq_ix2 _
  have er : ∀ k : Fin 512, ridx_main_v0 (ix2 n d) k = ix2 k d := fun k => eq_ix2 _
  have eb : idx_main_v1 (idx_main_v2 (ix2 n d)) = ix1 d := eq_ix1 _
  rw [val_main_v3_apply, val_main_v0_apply, val_main_v2_apply, val_main_v1_apply, eb]
  simp only [el, er, Ideal.addf_def]
  rfl

namespace Nll

theorem sum_idx1 {n : Nat} (f : (⟨1, ![n]⟩ : Shape).Idx → EReal) : ∑ j, f j = ∑ r : Fin n, f (ix1 r) :=
  (Equiv.sum_comp idxEquiv1.symm f).symm

end Nll

/-- Row 0 of an edge array, sliced out and flattened: below the extent the flat position is the edge. -/
theorem src0 (x : S2x100000.Idx → BitVec 32) (e : Fin 100000) : val_main_v5 (F := Ideal) x (ix1 e) = rI0 x e :=
  (val_main_v5_apply (F := Ideal) x _).trans ((val_main_v4_apply (F := Ideal) x _).trans (congrArg x (funext fun a => Fin.ext (by
    match a with
    | ⟨0, _⟩ => rfl
    | ⟨1, _⟩ => exact Nat.mod_eq_of_lt e.isLt))))

theorem src1 (x : S2x100000.Idx → BitVec 32) (e : Fin 100000) : val_main_v7 (F := Ideal) x (ix1 e) = rI1 x e :=
  (val_main_v7_apply (F := Ideal) x _).trans ((val_main_v6_apply (F := Ideal) x _).trans (congrArg x (funext fun a => Fin.ext (by
    match a with
    | ⟨0, _⟩ => rfl
    | ⟨1, _⟩ => exact Nat.mod_eq_of_lt e.isLt))))

section
variable (g : S100000.Idx → BitVec 32) (w : Fin 100000 → BitVec 32) (hg : ∀ e, g (ix1 e) = w e) (e : Fin 100000)
include hg

/-- The index column holds each word wrapped by the extent; clamping that gives the row the word names. -/
theorem row_of :
    (⟨min (val_main_v31 (F := Ideal) g (ix2 e (0 : Fin 1))).toInt.toNat (50000 - 1), by omega⟩ : Fin 50000) = Spec.rowOf (w e) := by
  have hi : idx_main_v31 (ix2 e (0 : Fin 1)) = ix1 e := eq_ix1 _
  refine Fin.ext (congrArg (fun t : BitVec 32 => min t.toInt.toNat 49999) ?_)
  rw [val_main_v31_apply, hi, val_main_v30_apply, val_main_v27_apply, val_main_v29_apply, val_main_v26_apply,
    val_main_v28_apply, val_main_c_3_apply, val_main_c_4_apply, hg]
  rfl

/-- Hence a gathered row is the embedding's row of that name. -/
theorem row_read (d : Fin 128) :
    val_main_v32 (F := Ideal) x0 x1 x2 g (ix2 e d) = Spec.z (rX x0) (rWl x1) (rbl x2) (Spec.rowOf (w e)) d :=
  (Cert.GatherRows.gather_rows_apply (A := 50000) (by decide)
      gather_S50000x128_S100000x1_S100000x128_1_0_n_n_0_1_1128_wf (val_main_v3 (F := Ideal) x0 x1 x2) (val_main_v31 (F := Ideal) g) e d).trans
    ((congrArg (fun n : Fin 50000 => val_main_v3 (F := Ideal) x0 x1 x2 (ix2 n d)) (row_of g w hg e)).trans
      (congrFun (ref_z x0 x1 x2) _))

/-- The same row, read in the probability vector. -/
theorem prob_read :
    Host.gather gather_S50000_S100000x1_S100000_n_0_n_n_0_1_1 x5 (val_main_v31 (F := Ideal) g) (ix1 e) = rpv x5 (Spec.rowOf (w e)) :=
  (Cert.Gather.gather_vec_apply (A := 50000) (by decide) (gather_S50000_S100000x1_S100000_n_0_n_n_0_1_1).wf x5
      (val_main_v31 (F := Ideal) g) e).trans (congrArg (fun n : Fin 50000 => x5 (ix1 n)) (row_of g w hg e))

end

/-- Stated for any edge array, so that it serves the positive and the negative edges alike. -/
theorem yhat_at (x : S2x100000.Idx → BitVec 32) (e : Fin 100000) :
    (val_main_v115 (F := Ideal) x0 x1 x2 x5 x : S100000.Idx → EReal) (ix1 e)
      = Spec.yhat (rX x0) (rWl x1) (rbl x2) (rpv x5) (rI0 x) (rI1 x) e := by
  have hu : ∀ d, val_main_v78 (F := Ideal) x0 x1 x2 x (ix2 e d) = _ := row_read x0 x1 x2 _ _ (src0 x) e
  have hv : ∀ d, val_main_v85 (F := Ideal) x0 x1 x2 x (ix2 e d) = _ := row_read x0 x1 x2 _ _ (src1 x) e
  have hp : val_main_v104 (F := Ideal) x5 x (ix1 e) = _ := prob_read x5 _ _ (src0 x) e
  have hq : val_main_v111 (F := Ideal) x5 x (ix1 e) = _ := prob_read x5 _ _ (src1 x) e
  have e1 : ∀ k : Fin 128, idx_main_v93 (ix1 e) k = ix2 e k := fun k => eq_ix2 _
  have e2 : ∀ k : Fin 128, idx_main_call2_v1 (ix1 e) k = ix2 e k := e1
  have e3 : ∀ k : Fin 128, idx_main_call3_v1 (ix1 e) k = ix2 e k := e1
  rw [val_main_v115_apply, val_main_v97_apply, val_main_v96_apply, val_main_cst_19_apply, val_main_v95_apply,
    val_main_v93_apply, val_main_cst_18_apply, val_main_v94_apply,
    val_main_v88_apply, val_main_v86_apply, val_main_call2_v1_apply, val_main_call2_cst_apply, val_main_v87_apply,
    val_main_cst_16_apply,
    val_main_v91_apply, val_main_v89_apply, val_main_call3_v1_apply, val_main_call3_cst_apply, val_main_v90_apply,
    val_main_cst_17_apply,
    val_main_v114_apply, val_main_v113_apply, val_main_cst_24_apply, val_main_v112_apply, hp, hq]
  simp only [val_main_v92_apply, val_main_call2_v0_apply, val_main_call3_v0_apply, e1, e2, e3, hu, hv,
    Ideal.addf_def, Ideal.mulf_def, Ideal.maximumf_def, Ideal.hostDivf_def, Ideal.hostUnary_sqrt_def, Ideal.ofBits_def,
    Ideal.ofBits_zero_f32, zero_add]
  rfl

theorem ref_mse :
    (val_main_v168 (F := Ideal) x0 x1 x2 x5 x6 x7 : S_.Idx → EReal) ix0
      = Spec.half * (∑ e : Fin 100000, Spec.sqd Spec.one (Spec.yhat (rX x0) (rWl x1) (rbl x2) (rpv x5) (rI0 x6) (rI1 x6) e))
        + Spec.half * (∑ e : Fin 100000, Spec.yhat (rX x0) (rWl x1) (rbl x2) (rpv x5) (rI0 x7) (rI1 x7) e * Spec.yhat (rX x0) (rWl x1) (rbl x2) (rpv x5) (rI0 x7) (rI1 x7) e) := by
  have hn : ∀ e, val_main_v159 (F := Ideal) x0 x1 x2 x5 x7 (ix1 e) = _ := yhat_at x0 x1 x2 x5 x7
  rw [val_main_v168_apply, val_main_v164_apply, val_main_v167_apply, val_main_cst_40_apply, val_main_cst_42_apply,
    val_main_v163_apply, val_main_v166_apply, val_main_cst_39_apply, val_main_cst_41_apply, Nll.sum_idx1, Nll.sum_idx1]
  simp only [val_main_v162_apply, val_main_v161_apply, val_main_v160_apply, val_main_cst_38_apply, val_main_v165_apply,
    yhat_at, hn, Ideal.addf_def, Ideal.mulf_def, Ideal.subf_def, Ideal.ofBits_def, Ideal.ofBits_zero_f32, zero_add]
  rfl

end Cert.ReferenceIdeal.RefValue

end
-- ==== Proof.RefNll.lean ====
import proofs.«404240_j51247549776505_4_alg».proof.Proof.RefMse
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Cert.Hand
open Idealize.ShloMosaic Idealize.ShloMosaic.TcCoe Idealize.ShloMosaic.ValueIdx
open Idealize.SL.Sem

variable (x0 : S50000x512.Idx → EReal) (x1 : S512x128.Idx → EReal) (x2 : S128.Idx → EReal) (x3 : S256x3.Idx → EReal)
  (x4 : S3.Idx → EReal) (x5 : S50000.Idx → EReal) (x6 x7 : S2x100000.Idx → BitVec 32) (x8 x9 : S100000.Idx → BitVec 32)
  (x10 : S600000.Idx → BitVec 32)

namespace Nll

/-- A label word below 3 is 0, 1 or 2, and each of the three facts is checked on those words. -/
theorem label_facts (t : BitVec 32) (h : t.toNat < 3) :
    Scalar.select (IntOp.cmpi .slt t 0#32) (IntOp.addi t 3#32) t = t
      ∧ IntOp.andi (IntOp.cmpi .sge t 0#32) (IntOp.cmpi .sle t 2#32) = 1#1 ∧ min t.toInt.toNat (3 - 1) = t.toNat := by
  rcases (by bv_omega : t = 0#32 ∨ t = 1#32 ∨ t = 2#32) with rfl | rfl | rfl <;> decide

theorem negInf_eq_bot : (Ideal.ofBits .f32 0xFF800000#32 : EReal) = ⊥ := by
  simp [Ideal.ofBits, Ideal.ieee]

theorem max_negInf (y : EReal) : max (Ideal.ofBits .f32 0xFF800000#32) y = y := by
  rw [negInf_eq_bot]; exact max_eq_right bot_le

section
variable (X : Fin 50000 → Fin 512 → EReal) (Wl : Fin 512 → Fin 128 → EReal) (bl : Fin 128 → EReal)

/-- Below column 128 the first array is read; from 128 on the second, shifted back by 128. -/
theorem pair_block (a b : Fin 100000 → BitVec 32) (ya yb : S100000x128.Idx → EReal)
    (ha : ∀ e d, ya (ix2 e d) = Spec.z X Wl bl (Spec.rowOf (a e)) d)
    (hb : ∀ e d, yb (ix2 e d) = Spec.z X Wl bl (Spec.rowOf (b e)) d) (e : Fin 100000) (k : Fin 256) :
    concatenate S100000x256 1 [⟨S100000x128, ya⟩, ⟨S100000x128, yb⟩] concatenates_S100000x128_S100000x128_S100000x256_d1 (ix2 e k)
      = if hk : k.val < 128 then Spec.z X Wl bl (Spec.rowOf (a e)) ⟨k.val, hk⟩
        else Spec.z X Wl bl (Spec.rowOf (b e)) ⟨k.val - 128, by omega⟩ := by
  by_cases hk : k.val < 128
  · rw [dif_pos hk, ← ha]
    exact concatenate_pair_apply_left 1 ya yb _ (ix2 e k) rfl _ (fun c => by match c with | ⟨0, _⟩ => rfl | ⟨1, _⟩ => rfl)
  · rw [dif_neg hk, ← hb]
    exact concatenate_pair_apply_right 1 ya yb _ (ix2 e k) rfl rfl _
      (fun c hc => by
        match c, hc with
        | ⟨0, _⟩, _ => rfl
        | ⟨1, _⟩, hc => exact (hc (Fin.ext rfl)).elim)
      (by show k.val - 128 + 128 = k.val; omega)

end

/-- Stacking six equal blocks: the quotient by 100000 picks the block, the remainder the row inside it. -/
theorem concat_blocks (y0 y1 y2 y3 y4 y5 : S100000x256.Idx → EReal)
    (h : Shape.Concatenates [S100000x256, S100000x256, S100000x256, S100000x256, S100000x256, S100000x256] S600000x256 0)
    (r : Fin 600000) (k : Fin 256) :
    concatenate S600000x256 0 [⟨S100000x256, y0⟩, ⟨S100000x256, y1⟩, ⟨S100000x256, y2⟩, ⟨S100000x256, y3⟩,
        ⟨S100000x256, y4⟩, ⟨S100000x256, y5⟩] h (ix2 r k)
      = (![y0, y1, y2, y3, y4, y5] : Fin 6 → _) (Spec.blk r) (ix2 (Spec.edg r) k) :=
  concatenate_ofFn_apply (t := S600000x256) (s₁ := S100000x256) 0 ![y0, y1, y2, y3, y4, y5] h rfl 100000 rfl
    (ix2 r k) (Spec.blk r) rfl (ix2 (Spec.edg r) k) rfl (fun c hc => by
      match c, hc with
      | ⟨0, _⟩, hc => exact (hc (Fin.ext rfl)).elim
      | ⟨1, _⟩, _ => rfl)

theorem lift_lane {R : Nat} (h : (⟨2, ![R, 3]⟩ : Shape).Reduces [1] (⟨1, ![R]⟩ : Shape)) (r : Fin R)
    (k : Fin ((⟨2, ![R, 3]⟩ : Shape).size 1)) : h.lift (ix1 r) k = ix2 r (⟨k.val, k.isLt⟩ : Fin 3) := by
  funext c; apply Fin.ext
  fin_cases c <;> rfl

/-- A fold of max started at ⊥ over three lanes is their supremum. -/
theorem reduce_max_row {R : Nat} (x : (⟨2, ![R, 3]⟩ : Shape).Idx → EReal) (init : (⟨0, ![]⟩ : Shape).Idx → EReal)
    (hinit : ∀ i, init i = Ideal.ofBits .f32 0xFF800000#32)
    (h' : (⟨2, ![R, 3]⟩ : Shape).ReducesTo [1] (⟨1, ![R]⟩ : Shape)) (h : (⟨2, ![R, 3]⟩ : Shape).Reduces [1] (⟨1, ![R]⟩ : Shape))
    (hu : 0 < (⟨0, ![]⟩ : Shape).numel) (r : Fin R) :
    Host.reduce (FloatOps.maximumf (F := Ideal) (φ := .f32)) x init h' hu (ix1 r) = Spec.rowMax fun j => x (ix2 r j) := by
  rw [Host.reduce_eq_fold_single (FloatOps.maximumf (F := Ideal) (φ := .f32)) x _ h' h hu, hinit, negInf_eq_bot,
    show (x ∘ h.lift (ix1 r)) = fun k : Fin 3 => x (ix2 r k) from funext fun k => congrArg x (lift_lane h r k)]
  rfl

theorem lift_unit {R : Nat} (h : (⟨3, ![R, 1, 1]⟩ : Shape).Reduces [2] (⟨2, ![R, 1]⟩ : Shape)) (r : Fin R)
    (k : Fin ((⟨3, ![R, 1, 1]⟩ : Shape).size 2)) : h.lift (ix2 r (0 : Fin 1)) k = ix3 r (0 : Fin 1) (0 : Fin 1) := by
  funext c; apply Fin.ext
  have hk : k.val < 1 := k.isLt
  fin_cases c
  · rfl
  · rfl
  · show k.val = 0; omega

/-- A conjunction folded from 1 over a single lane returns that lane. -/
theorem reduce_and_unit {R : Nat} (x : (⟨3, ![R, 1, 1]⟩ : Shape).Idx → BitVec 1) (init : (⟨0, ![]⟩ : Shape).Idx → BitVec 1)
    (hinit : ∀ i, init i = 1#1)
    (h' : (⟨3, ![R, 1, 1]⟩ : Shape).ReducesTo [2] (⟨2, ![R, 1]⟩ : Shape)) (h : (⟨3, ![R, 1, 1]⟩ : Shape).Reduces [2] (⟨2, ![R, 1]⟩ : Shape))
    (hu : 0 < (⟨0, ![]⟩ : Shape).numel) (r : Fin R) :
    Host.reduce (IntOp.andi (w := 1)) x init h' hu (ix2 r (0 : Fin 1)) = x (ix3 r (0 : Fin 1) (0 : Fin 1)) := by
  rw [Host.reduce_eq_fold_single (IntOp.andi (w := 1)) x _ h' h hu, hinit]
  have hf : (x ∘ h.lift (ix2 r (0 : Fin 1))) = fun _ : Fin 1 => x (ix3 r (0 : Fin 1) (0 : Fin 1)) :=
    funext fun k => congrArg x (lift_unit h r k)
  refine (congrArg (fun f => Finset.fold (IntOp.andi (w := 1)) 1#1 f (Finset.univ : Finset (Fin 1))) hf).trans ?_
  rw [Finset.univ_unique, Finset.fold_singleton]
  generalize x (ix3 r (0 : Fin 1) (0 : Fin 1)) = v
  revert v; decide

/-- Each of the six blocks pairs two gathered arrays; the block number selects which two. -/
theorem feat (r : Fin 600000) (k : Fin 256) :
    val_main_v60 (F := Ideal) x0 x1 x2 x6 x7 x8 x9 (ix2 r k)
      = if hk : k.val < 128 then
          Spec.z (rX x0) (rWl x1) (rbl x2) (Spec.rowOf (Spec.lft (rI0 x6) (rI1 x6) (rI0 x7) (rI1 x7) (Spec.blk r) (Spec.edg r))) ⟨k.val, hk⟩
        else
          Spec.z (rX x0) (rWl x1) (rbl x2) (Spec.rowOf (Spec.rgt (rI1 x6) (rI1 x7) (rV x8) (rV x9) (Spec.blk r) (Spec.edg r))) ⟨k.val - 128, by omega⟩ := by
  have a0 := row_read x0 x1 x2 _ _ (src0 x6)
  have a1 := row_read x0 x1 x2 _ _ (src1 x6)
  have b0 := row_read x0 x1 x2 _ _ (src0 x7)
  have b1 := row_read x0 x1 x2 _ _ (src1 x7)
  have c8 := row_read x0 x1 x2 x8 (rV x8) (fun _ => rfl)
  have c9 := row_read x0 x1 x2 x9 (rV x9) (fun _ => rfl)
  unfold val_main_v60
  refine (concat_blocks _ _ _ _ _ _ _ r k).trans ?_
  generalize Spec.edg r = e
  generalize Spec.blk r = q
  fin_cases q
  · exact pair_block _ _ _ _ _ _ _ a0 a1 e k
  · exact pair_block _ _ _ _ _ _ _ b0 b1 e k
  · exact pair_block _ _ _ _ _ _ _ b0 c9 e k
  · exact pair_block _ _ _ _ _ _ _ b1 c9 e k
  · exact pair_block _ _ _ _ _ _ _ a0 c8 e k
  · exact pair_block _ _ _ _ _ _ _ a1 c8 e k

/-- Entry j contracts the 256 features of row r with column j of the weight; the bias is added after. -/
theorem logit (r : Fin 600000) (j : Fin 3) :
    val_main_v64 (F := Ideal) x0 x1 x2 x3 x4 x6 x7 x8 x9 (ix2 r j) = Spec.logitR (rX x0) (rWl x1) (rbl x2) (rrW x3) (rrb x4) (rI0 x6) (rI1 x6) (rI0 x7) (rI1 x7) (rV x8) (rV x9) r j := by
  have el : ∀ k : Fin 256, lidx_main_v61 (ix2 r j) k = ix2 r k := fun k => eq_ix2 _
  have er : ∀ k : Fin 256, ridx_main_v61 (ix2 r j) k = ix2 k j := fun k => eq_ix2 _
  have eb : idx_main_v62 (idx_main_v63 (ix2 r j)) = ix1 j := eq_ix1 _
  rw [val_main_v64_apply, val_main_v61_apply, val_main_v63_apply, val_main_v62_apply, eb, Ideal.addf_def]
  unfold Spec.logitR
  refine congrArg₂ (· + ·) (Finset.sum_congr rfl fun k _ => ?_) rfl
  rw [el, er, feat]
  rfl

/-- The extra max with ⊥ is absorbed, leaving the supremum of the row's three logits. -/
theorem rowmax (r : Fin 600000) :
    val_main_call0_v2 (F := Ideal) x0 x1 x2 x3 x4 x6 x7 x8 x9 (ix1 r) = Spec.rowMax fun j => val_main_v64 (F := Ideal) x0 x1 x2 x3 x4 x6 x7 x8 x9 (ix2 r j) := by
  rw [val_main_call0_v2_apply, val_main_call0_v1_apply, val_main_call0_cst_0_apply]
  refine (max_negInf _).trans ?_
  unfold val_main_call0_v0
  exact reduce_max_row (val_main_v64 (F := Ideal) x0 x1 x2 x3 x4 x6 x7 x8 x9) (val_main_call0_cst (F := Ideal)) (fun _ => rfl) _ (by decide) _ r

theorem logsm (r : Fin 600000) (j : Fin 3) :
    val_main_v65 (F := Ideal) x0 x1 x2 x3 x4 x6 x7 x8 x9 (ix2 r j) = Spec.logp (fun j' => val_main_v64 (F := Ideal) x0 x1 x2 x3 x4 x6 x7 x8 x9 (ix2 r j')) j := by
  have e3 : ∀ j' : Fin 3, idx_main_call0_v3 (idx_main_call0_v4 (ix2 r j')) = ix1 r := fun _ => eq_ix1 _
  have e8 : idx_main_call0_v8 (idx_main_call0_v10 (ix2 r j)) = ix1 r := e3 j
  have e7 : ∀ k : Fin 3, idx_main_call0_v7 (ix1 r) k = ix2 r k := fun k => eq_ix2 _
  rw [val_main_v65_apply, val_main_call0_v10_apply, val_main_call0_v9_apply, val_main_call0_v8_apply, e8,
    val_main_call0_v7_apply, val_main_call0_cst_1_apply]
  unfold Spec.logp
  simp only [e7, val_main_call0_v6_apply, val_main_call0_v5_apply, val_main_call0_v4_apply, val_main_call0_v3_apply, e3,
    rowmax, Ideal.subf_def, Ideal.hostUnary_log_def, Ideal.hostUnary_exp_def, Ideal.ofBits_def, Ideal.ofBits_zero_f32,
    zero_add]

/-- Wrapping by the extent 3 leaves an in-range label unchanged. -/
theorem label_word (hT : ∀ r, (rTg x10 r).toNat < 3) (r : Fin 600000) :
    val_main_call1_v5 (F := Ideal) x10 (ix3 r (0 : Fin 1) (0 : Fin 1)) = rTg x10 r := by
  have e5 : idx_main_call1_v5 (ix3 r (0 : Fin 1) (0 : Fin 1)) = ix2 r (0 : Fin 1) := funext fun a => Fin.ext (by
    match a with
    | ⟨0, _⟩ => show ((r.val * 1 + 0) * 1 + 0) / 1 = r.val; omega
    | ⟨1, _⟩ => rfl)
  have e6 : idx_main_v66 (ix2 r (0 : Fin 1)) = ix1 r := eq_ix1 _
  rw [val_main_call1_v5_apply, e5, val_main_call1_v4_apply, val_main_call1_v1_apply, val_main_call1_v3_apply,
    val_main_call1_v0_apply, val_main_call1_v2_apply, val_main_call1_c_apply, val_main_call1_c_0_apply, val_main_v66_apply, e6]
  exact (label_facts _ (hT r)).1

/-- Both range tests hold for such a label, so their conjunction is 1. -/
theorem label_mask (hT : ∀ r, (rTg x10 r).toNat < 3) (r : Fin 600000) :
    val_main_call1_v12 (F := Ideal) x10 (ix2 r (0 : Fin 1)) = 1#1 := by
  unfold val_main_call1_v12
  refine (reduce_and_unit (val_main_call1_v11 (F := Ideal) x10) (val_main_call1_c_3 (F := Ideal)) (fun _ => rfl) _ (by decide) _ r).trans ?_
  rw [val_main_call1_v11_apply, val_main_call1_v7_apply, val_main_call1_v10_apply, val_main_call1_v6_apply, val_main_call1_v9_apply,
    val_main_call1_v8_apply, val_main_call1_c_2_apply, val_main_call1_c_1_apply, label_word x10 hT r]
  exact (label_facts _ (hT r)).2.1

/-- With the mask set the select keeps the gathered entry, and its column is the label's number. -/
theorem take (hT : ∀ r, (rTg x10 r).toNat < 3) (r : Fin 600000) :
    val_main_v67 (F := Ideal) x0 x1 x2 x3 x4 x6 x7 x8 x9 x10 (ix2 r (0 : Fin 1))
      = val_main_v65 (F := Ideal) x0 x1 x2 x3 x4 x6 x7 x8 x9 (ix2 r ⟨(rTg x10 r).toNat, hT r⟩) := by
  rw [val_main_v67_apply, label_mask x10 hT r]
  refine (Cert.GatherRows.gather_along_apply (C := 3) (by decide) gather_S600000x3_S600000x1x1_S600000x1_n_1_0_0_1_2_11_wf
    (val_main_v65 (F := Ideal) x0 x1 x2 x3 x4 x6 x7 x8 x9) (val_main_call1_v5 (F := Ideal) x10) r).trans ?_
  exact congrArg (fun j => val_main_v65 (F := Ideal) x0 x1 x2 x3 x4 x6 x7 x8 x9 (ix2 r j)) (Fin.ext (by
    show min (val_main_call1_v5 (F := Ideal) x10 (ix3 r (0 : Fin 1) (0 : Fin 1))).toInt.toNat (3 - 1) = _
    rw [label_word x10 hT r]; exact (label_facts _ (hT r)).2.2))

end Nll

open Nll

/-- Summand by summand: the taken entry is the log-soft-max of the row's logits at the row's label. -/
theorem ref_nll (hT : ∀ r, (rTg x10 r).toNat < 3) :
    (val_main_v71 (F := Ideal) x0 x1 x2 x3 x4 x6 x7 x8 x9 x10 : S_.Idx → EReal) ix0
      = Spec.nllR (rX x0) (rWl x1) (rbl x2) (rrW x3) (rrb x4) (rI0 x6) (rI1 x6) (rI0 x7) (rI1 x7) (rV x8) (rV x9) (rTg x10) hT := by
  have e8 : ∀ r : Fin 600000, idx_main_v68 (ix1 r) = ix2 r (0 : Fin 1) := fun r => funext fun a => Fin.ext (by
    match a with
    | ⟨0, _⟩ => show r.val / 1 = r.val; omega
    | ⟨1, _⟩ => rfl)
  rw [val_main_v71_apply, val_main_v70_apply, val_main_v69_apply, val_main_cst_apply, val_main_cst_11_apply]
  unfold Spec.nllR
  simp only [Ideal.hostNegf_def, Ideal.negf_def, Ideal.hostDivf_def, Ideal.ofBits_def, Ideal.ofBits_zero_f32, zero_add]
  rw [sum_idx1]
  refine congrArg (fun s => - Ideal.div s Spec.cnt) (Finset.sum_congr rfl fun r _ => ?_)
  rw [val_main_v68_apply, e8, take x0 x1 x2 x3 x4 x6 x7 x8 x9 x10 hT r, logsm]
  exact congrArg (fun lg => Spec.logp lg ⟨(rTg x10 r).toNat, hT r⟩) (funext fun j => logit x0 x1 x2 x3 x4 x6 x7 x8 x9 r j)

end Cert.ReferenceIdeal.RefValue

end
-- ==== Proof.RefValue.lean ====
import proofs.«404240_j51247549776505_4_alg».proof.Proof.RefNll
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Cert.Hand
open Idealize.ShloMosaic Idealize.ShloMosaic.TcCoe Idealize.ShloMosaic.ValueIdx
open Idealize.SL.Sem

variable (x0 : S50000x512.Idx → EReal) (x1 : S512x128.Idx → EReal) (x2 : S128.Idx → EReal) (x3 : S256x3.Idx → EReal)
  (x4 : S3.Idx → EReal) (x5 : S50000.Idx → EReal) (x6 x7 : S2x100000.Idx → BitVec 32) (x8 x9 : S100000.Idx → BitVec 32)
  (x10 : S600000.Idx → BitVec 32)

/-- The loss is the soft-max head plus the squared-error head, each already a function of the argument arrays. -/
theorem ref_loss (hT : ∀ r, (rTg x10 r).toNat < 3) :
    (val_main_v170 (F := Ideal) x0 x1 x2 x3 x4 x5 x6 x7 x8 x9 x10 : S_.Idx → EReal)
      = fun _ => Spec.lossR (rX x0) (rWl x1) (rbl x2) (rrW x3) (rrb x4) (rpv x5) (rI0 x6) (rI1 x6) (rI0 x7) (rI1 x7) (rV x8) (rV x9) (rTg x10) hT := by
  funext i
  obtain rfl : i = ix0 := eq_ix0 i
  rw [val_main_v170_apply, val_main_v169_apply, val_main_cst_43_apply,
    ref_nll x0 x1 x2 x3 x4 x6 x7 x8 x9 x10 hT, ref_mse x0 x1 x2 x5 x6 x7]
  rfl

end Cert.ReferenceIdeal.RefValue

end
-- ==== Proof.RefRunStages.lean ====
import proofs.«404240_j51247549776505_4_alg».proof.Proof.ReadP
import proofs.«404240_j51247549776505_4_alg».proof.Proof.LibStretch

set_option maxRecDepth 16384

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo
open Cert.Stretch

variable {F : FTy → Type} [FloatOps F]

abbrev W : List (Ref sig .tc) :=
  [main_v0, main_v1, main_v2, main_v3, main_v4, main_v5, main_v6, main_v7, main_v8, main_v9, main_v10, main_v11, main_c, main_v12, main_v13, main_c_0, main_v14, main_v15, main_v16, main_v17, main_v18, main_c_1, main_v19, main_v20, main_c_2, main_v21, main_v22, main_v23, main_v24, main_v25, main_c_3, main_v26, main_v27, main_c_4, main_v28, main_v29, main_v30, main_v31, main_v32, main_c_5, main_v33, main_v34, main_c_6, main_v35, main_v36, main_v37, main_v38, main_v39, main_c_7, main_v40, main_v41, main_c_8, main_v42, main_v43, main_v44, main_v45, main_v46, main_c_9, main_v47, main_v48, main_c_10, main_v49, main_v50, main_v51, main_v52, main_v53, main_v54, main_v55, main_v56, main_v57, main_v58, main_v59, main_v60, main_v61, main_v62, main_v63, main_v64, main_call0_cst, main_call0_v0, main_call0_cst_0, main_call0_v1, main_call0_v2, main_call0_v3, main_call0_v4, main_call0_v5, main_call0_v6, main_call0_cst_1, main_call0_v7, main_call0_v8, main_call0_v9, main_call0_v10, main_v65, main_v66, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v67, main_v68, main_cst, main_v69, main_cst_11, main_v70, main_v71, main_c_12, main_v72, main_v73, main_c_13, main_v74, main_v75, main_v76, main_v77, main_v78, main_c_14, main_v79, main_v80, main_c_15, main_v81, main_v82, main_v83, main_v84, main_v85, main_call2_v0, main_call2_cst, main_call2_v1, main_v86, main_cst_16, main_v87, main_v88, main_call3_v0, main_call3_cst, main_call3_v1, main_v89, main_cst_17, main_v90, main_v91, main_v92, main_cst_18, main_v93, main_v94, main_v95, main_cst_19, main_v96, main_v97, main_c_20, main_v98, main_v99, main_c_21, main_v100, main_v101, main_v102, main_v103, main_v104, main_c_22, main_v105, main_v106, main_c_23, main_v107, main_v108, main_v109, main_v110, main_v111, main_v112, main_cst_24, main_v113, main_v114, main_v115, main_c_25, main_v116, main_v117, main_c_26, main_v118, main_v119, main_v120, main_v121, main_v122, main_c_27, main_v123, main_v124, main_c_28, main_v125, main_v126, main_v127, main_v128, main_v129, main_call4_v0, main_call4_cst, main_call4_v1, main_v130, main_cst_29, main_v131, main_v132, main_call5_v0, main_call5_cst, main_call5_v1, main_v133, main_cst_30, main_v134, main_v135, main_v136, main_cst_31, main_v137, main_v138, main_v139, main_cst_32, main_v140, main_v141, main_c_33, main_v142, main_v143, main_c_34, main_v144, main_v145, main_v146, main_v147, main_v148, main_c_35, main_v149, main_v150, main_c_36, main_v151, main_v152, main_v153, main_v154, main_v155, main_v156, main_cst_37, main_v157, main_v158, main_v159, main_cst_38, main_v160, main_v161, main_v162, main_cst_39, main_v163, main_cst_40, main_v164, main_v165, main_cst_41, main_v166, main_cst_42, main_v167, main_v168, main_cst_43, main_v169, main_v170]

set_option maxHeartbeats 40000000 in
theorem ops_each : WritesEach (ops : List (HloOp τ sig (Elt F))) W := by
  unfold WritesEach
  repeat (first | exact List.Forall₂.nil | refine List.Forall₂.cons rfl ?_)

theorem W_nodup : (W : List (Ref sig .tc)).Nodup := nodup_of_chain_lt (fun r => r.idx.val) (by decide)

theorem arg0_not_written : main_arg0 ∉ (W : List (Ref sig .tc)) := by decide
theorem arg1_not_written : main_arg1 ∉ (W : List (Ref sig .tc)) := by decide
theorem arg2_not_written : main_arg2 ∉ (W : List (Ref sig .tc)) := by decide
theorem arg3_not_written : main_arg3 ∉ (W : List (Ref sig .tc)) := by decide
theorem arg4_not_written : main_arg4 ∉ (W : List (Ref sig .tc)) := by decide
theorem arg5_not_written : main_arg5 ∉ (W : List (Ref sig .tc)) := by decide
theorem arg6_not_written : main_arg6 ∉ (W : List (Ref sig .tc)) := by decide
theorem arg7_not_written : main_arg7 ∉ (W : List (Ref sig .tc)) := by decide
theorem arg8_not_written : main_arg8 ∉ (W : List (Ref sig .tc)) := by decide
theorem arg9_not_written : main_arg9 ∉ (W : List (Ref sig .tc)) := by decide
theorem arg10_not_written : main_arg10 ∉ (W : List (Ref sig .tc)) := by decide

section Stages
variable (V : Valuation τ sig (Elt F))

theorem old (j : ℕ) {k : ℕ} {a : Ref sig .tc} (hj : (W : List (Ref sig .tc))[j]? = some a) (hjk : j < k) : a ∉ (W : List (Ref sig .tc)).drop k :=
  Nodup.not_mem_drop W_nodup j hj hjk

-- the step lemmas at this line: operation k's own reference is written by no later operation, its number being later than every earlier one's
theorem step0 (k : ℕ) {y : Ref sig .tc} {v : y.ty.Contents (Elt F)} {hy} (hop : (ops : List (HloOp τ sig (Elt F)))[k]? = some (nullary y v hy))
    (hk : (W : List (Ref sig .tc))[k]? = some y) : after ops V (Proc.devRef .tc y) = v :=
  (ops_each (F := F)).after_nullary k hop (Nodup.not_mem_drop_succ W_nodup k hk) V
theorem step1 (k : ℕ) {x y : Ref sig .tc} {f : x.ty.Contents (Elt F) → y.ty.Contents (Elt F)} {hx hy}
    (hop : (ops : List (HloOp τ sig (Elt F)))[k]? = some (unary x y f hx hy)) (hk : (W : List (Ref sig .tc))[k]? = some y)
    (hx' : x ∉ (W : List (Ref sig .tc)).drop k) : after ops V (Proc.devRef .tc y) = f (after ops V (Proc.devRef .tc x)) :=
  (ops_each (F := F)).after_unary k hop (Nodup.not_mem_drop_succ W_nodup k hk) hx' V
theorem step2 (k : ℕ) {a b y : Ref sig .tc} {f : a.ty.Contents (Elt F) → b.ty.Contents (Elt F) → y.ty.Contents (Elt F)} {ha hb hy}
    (hop : (ops : List (HloOp τ sig (Elt F)))[k]? = some (binary a b y f ha hb hy)) (hk : (W : List (Ref sig .tc))[k]? = some y)
    (ha' : a ∉ (W : List (Ref sig .tc)).drop k) (hb' : b ∉ (W : List (Ref sig .tc)).drop k) :
    after ops V (Proc.devRef .tc y) = f (after ops V (Proc.devRef .tc a)) (after ops V (Proc.devRef .tc b)) :=
  (ops_each (F := F)).after_binary k hop (Nodup.not_mem_drop_succ W_nodup k hk) ha' hb' V
theorem step3 (k : ℕ) {c a b y : Ref sig .tc} {f : c.ty.Contents (Elt F) → a.ty.Contents (Elt F) → b.ty.Contents (Elt F) → y.ty.Contents (Elt F)} {hc ha hb hy}
    (hop : (ops : List (HloOp τ sig (Elt F)))[k]? = some (ternary c a b y f hc ha hb hy)) (hk : (W : List (Ref sig .tc))[k]? = some y)
    (hc' : c ∉ (W : List (Ref sig .tc)).drop k) (ha' : a ∉ (W : List (Ref sig .tc)).drop k) (hb' : b ∉ (W : List (Ref sig .tc)).drop k) :
    after ops V (Proc.devRef .tc y) = f (after ops V (Proc.devRef .tc c)) (after ops V (Proc.devRef .tc a)) (after ops V (Proc.devRef .tc b)) :=
  (ops_each (F := F)).after_ternary k hop (Nodup.not_mem_drop_succ W_nodup k hk) hc' ha' hb' V
theorem stepN (k : ℕ) {n : ℕ} {xs : Fin n → Ref sig .tc} {y : Ref sig .tc} {f : ((j : Fin n) → (xs j).ty.Contents (Elt F)) → y.ty.Contents (Elt F)} {hxs hy}
    (hop : (ops : List (HloOp τ sig (Elt F)))[k]? = some (nary xs y f hxs hy)) (hk : (W : List (Ref sig .tc))[k]? = some y)
    (hxs' : ∀ j, xs j ∉ (W : List (Ref sig .tc)).drop k) : after ops V (Proc.devRef .tc y) = f fun j => after ops V (Proc.devRef .tc (xs j)) :=
  (ops_each (F := F)).after_nary k hop (Nodup.not_mem_drop_succ W_nodup k hk) hxs' V
theorem stepR (k : ℕ) {x y : Ref sig .tc} {he : x.ty.elt = y.ty.elt} {hn : x.ty.shape.ShapeCasts y.ty.shape} {hx hy}
    (hop : (ops : List (HloOp τ sig (Elt F)))[k]? = some (reshape x y he hn hx hy)) (hk : (W : List (Ref sig .tc))[k]? = some y)
    (hx' : x ∉ (W : List (Ref sig .tc)).drop k) :
    after ops V (Proc.devRef .tc y) = fun i => he ▸ shapeCast y.ty.shape (after ops V (Proc.devRef .tc x)) hn i :=
  (ops_each (F := F)).after_reshape k hop (Nodup.not_mem_drop_succ W_nodup k hk) hx' V

theorem st_main_arg0 : after ops V (Proc.devRef .tc main_arg0) = V (Proc.devRef .tc main_arg0) := (ops_each (F := F)).after_of_not_mem arg0_not_written V
theorem st_main_arg1 : after ops V (Proc.devRef .tc main_arg1) = V (Proc.devRef .tc main_arg1) := (ops_each (F := F)).after_of_not_mem arg1_not_written V
theorem st_main_arg2 : after ops V (Proc.devRef .tc main_arg2) = V (Proc.devRef .tc main_arg2) := (ops_each (F := F)).after_of_not_mem arg2_not_written V
theorem st_main_arg3 : after ops V (Proc.devRef .tc main_arg3) = V (Proc.devRef .tc main_arg3) := (ops_each (F := F)).after_of_not_mem arg3_not_written V
theorem st_main_arg4 : after ops V (Proc.devRef .tc main_arg4) = V (Proc.devRef .tc main_arg4) := (ops_each (F := F)).after_of_not_mem arg4_not_written V
theorem st_main_arg5 : after ops V (Proc.devRef .tc main_arg5) = V (Proc.devRef .tc main_arg5) := (ops_each (F := F)).after_of_not_mem arg5_not_written V
theorem st_main_arg6 : after ops V (Proc.devRef .tc main_arg6) = V (Proc.devRef .tc main_arg6) := (ops_each (F := F)).after_of_not_mem arg6_not_written V
theorem st_main_arg7 : after ops V (Proc.devRef .tc main_arg7) = V (Proc.devRef .tc main_arg7) := (ops_each (F := F)).after_of_not_mem arg7_not_written V
theorem st_main_arg8 : after ops V (Proc.devRef .tc main_arg8) = V (Proc.devRef .tc main_arg8) := (ops_each (F := F)).after_of_not_mem arg8_not_written V
theorem st_main_arg9 : after ops V (Proc.devRef .tc main_arg9) = V (Proc.devRef .tc main_arg9) := (ops_each (F := F)).after_of_not_mem arg9_not_written V
theorem st_main_arg10 : after ops V (Proc.devRef .tc main_arg10) = V (Proc.devRef .tc main_arg10) := (ops_each (F := F)).after_of_not_mem arg10_not_written V

theorem st_main_v0 : after ops V (Proc.devRef .tc main_v0) = val_main_v0 (F := F) (V (Proc.devRef .tc main_arg0)) (V (Proc.devRef .tc main_arg1)) := by
  rw [step2 V 0 rfl rfl (not_mem_drop_of_not_mem arg0_not_written 0) (not_mem_drop_of_not_mem arg1_not_written 0), st_main_arg0, st_main_arg1]; rfl
theorem st_main_v1 : after ops V (Proc.devRef .tc main_v1) = val_main_v1 (F := F) (V (Proc.devRef .tc main_arg2)) := by
  rw [step1 V 1 rfl rfl (not_mem_drop_of_not_mem arg2_not_written 1), st_main_arg2]; rfl
theorem st_main_v2 : after ops V (Proc.devRef .tc main_v2) = val_main_v2 (F := F) (V (Proc.devRef .tc main_arg2)) := by
  rw [step1 V 2 rfl rfl (old 1 rfl (by decide)), st_main_v1]; rfl
theorem st_main_v3 : after ops V (Proc.devRef .tc main_v3) = val_main_v3 (F := F) (V (Proc.devRef .tc main_arg0)) (V (Proc.devRef .tc main_arg1)) (V (Proc.devRef .tc main_arg2)) := by
  rw [step2 V 3 rfl rfl (old 0 rfl (by decide)) (old 2 rfl (by decide)), st_main_v0, st_main_v2]; rfl
theorem st_main_v4 : after ops V (Proc.devRef .tc main_v4) = val_main_v4 (F := F) (V (Proc.devRef .tc main_arg6)) := by
  rw [step1 V 4 rfl rfl (not_mem_drop_of_not_mem arg6_not_written 4), st_main_arg6]; rfl
theorem st_main_v5 : after ops V (Proc.devRef .tc main_v5) = val_main_v5 (F := F) (V (Proc.devRef .tc main_arg6)) := by
  rw [stepR V 5 rfl rfl (old 4 rfl (by decide)), st_main_v4]; rfl
theorem st_main_v6 : after ops V (Proc.devRef .tc main_v6) = val_main_v6 (F := F) (V (Proc.devRef .tc main_arg6)) := by
  rw [step1 V 6 rfl rfl (not_mem_drop_of_not_mem arg6_not_written 6), st_main_arg6]; rfl
theorem st_main_v7 : after ops V (Proc.devRef .tc main_v7) = val_main_v7 (F := F) (V (Proc.devRef .tc main_arg6)) := by
  rw [stepR V 7 rfl rfl (old 6 rfl (by decide)), st_main_v6]; rfl
theorem st_main_v8 : after ops V (Proc.devRef .tc main_v8) = val_main_v8 (F := F) (V (Proc.devRef .tc main_arg7)) := by
  rw [step1 V 8 rfl rfl (not_mem_drop_of_not_mem arg7_not_written 8), st_main_arg7]; rfl
theorem st_main_v9 : after ops V (Proc.devRef .tc main_v9) = val_main_v9 (F := F) (V (Proc.devRef .tc main_arg7)) := by
  rw [stepR V 9 rfl rfl (old 8 rfl (by decide)), st_main_v8]; rfl
theorem st_main_v10 : after ops V (Proc.devRef .tc main_v10) = val_main_v10 (F := F) (V (Proc.devRef .tc main_arg7)) := by
  rw [step1 V 10 rfl rfl (not_mem_drop_of_not_mem arg7_not_written 10), st_main_arg7]; rfl
theorem st_main_v11 : after ops V (Proc.devRef .tc main_v11) = val_main_v11 (F := F) (V (Proc.devRef .tc main_arg7)) := by
  rw [stepR V 11 rfl rfl (old 10 rfl (by decide)), st_main_v10]; rfl
theorem st_main_c : after ops V (Proc.devRef .tc main_c) = val_main_c (F := F) := by
  rw [step0 V 12 rfl rfl]; rfl
theorem st_main_v12 : after ops V (Proc.devRef .tc main_v12) = val_main_v12 (F := F) := by
  rw [step1 V 13 rfl rfl (old 12 rfl (by decide)), st_main_c]; rfl
theorem st_main_v13 : after ops V (Proc.devRef .tc main_v13) = val_main_v13 (F := F) (V (Proc.devRef .tc main_arg6)) := by
  rw [step2 V 14 rfl rfl (old 5 rfl (by decide)) (old 13 rfl (by decide)), st_main_v5, st_main_v12]; rfl
theorem st_main_c_0 : after ops V (Proc.devRef .tc main_c_0) = val_main_c_0 (F := F) := by
  rw [step0 V 15 rfl rfl]; rfl
theorem st_main_v14 : after ops V (Proc.devRef .tc main_v14) = val_main_v14 (F := F) := by
  rw [step1 V 16 rfl rfl (old 15 rfl (by decide)), st_main_c_0]; rfl
theorem st_main_v15 : after ops V (Proc.devRef .tc main_v15) = val_main_v15 (F := F) (V (Proc.devRef .tc main_arg6)) := by
  rw [step2 V 17 rfl rfl (old 5 rfl (by decide)) (old 16 rfl (by decide)), st_main_v5, st_main_v14]; rfl
theorem st_main_v16 : after ops V (Proc.devRef .tc main_v16) = val_main_v16 (F := F) (V (Proc.devRef .tc main_arg6)) := by
  rw [step3 V 18 rfl rfl (old 14 rfl (by decide)) (old 17 rfl (by decide)) (old 5 rfl (by decide)), st_main_v13, st_main_v15, st_main_v5]; rfl
theorem st_main_v17 : after ops V (Proc.devRef .tc main_v17) = val_main_v17 (F := F) (V (Proc.devRef .tc main_arg6)) := by
  rw [step1 V 19 rfl rfl (old 18 rfl (by decide)), st_main_v16]; rfl
theorem st_main_v18 : after ops V (Proc.devRef .tc main_v18) = val_main_v18 (F := F) (V (Proc.devRef .tc main_arg0)) (V (Proc.devRef .tc main_arg1)) (V (Proc.devRef .tc main_arg2)) (V (Proc.devRef .tc main_arg6)) := by
  rw [step2 V 20 rfl rfl (old 3 rfl (by decide)) (old 19 rfl (by decide)), st_main_v3, st_main_v17]; rfl
theorem st_main_c_1 : after ops V (Proc.devRef .tc main_c_1) = val_main_c_1 (F := F) := by
  rw [step0 V 21 rfl rfl]; rfl
theorem st_main_v19 : after ops V (Proc.devRef .tc main_v19) = val_main_v19 (F := F) := by
  rw [step1 V 22 rfl rfl (old 21 rfl (by decide)), st_main_c_1]; rfl
theorem st_main_v20 : after ops V (Proc.devRef .tc main_v20) = val_main_v20 (F := F) (V (Proc.devRef .tc main_arg6)) := by
  rw [step2 V 23 rfl rfl (old 7 rfl (by decide)) (old 22 rfl (by decide)), st_main_v7, st_main_v19]; rfl
theorem st_main_c_2 : after ops V (Proc.devRef .tc main_c_2) = val_main_c_2 (F := F) := by
  rw [step0 V 24 rfl rfl]; rfl
theorem st_main_v21 : after ops V (Proc.devRef .tc main_v21) = val_main_v21 (F := F) := by
  rw [step1 V 25 rfl rfl (old 24 rfl (by decide)), st_main_c_2]; rfl
theorem st_main_v22 : after ops V (Proc.devRef .tc main_v22) = val_main_v22 (F := F) (V (Proc.devRef .tc main_arg6)) := by
  rw [step2 V 26 rfl rfl (old 7 rfl (by decide)) (old 25 rfl (by decide)), st_main_v7, st_main_v21]; rfl
theorem st_main_v23 : after ops V (Proc.devRef .tc main_v23) = val_main_v23 (F := F) (V (Proc.devRef .tc main_arg6)) := by
  rw [step3 V 27 rfl rfl (old 23 rfl (by decide)) (old 26 rfl (by decide)) (old 7 rfl (by decide)), st_main_v20, st_main_v22, st_main_v7]; rfl
theorem st_main_v24 : after ops V (Proc.devRef .tc main_v24) = val_main_v24 (F := F) (V (Proc.devRef .tc main_arg6)) := by
  rw [step1 V 28 rfl rfl (old 27 rfl (by decide)), st_main_v23]; rfl
theorem st_main_v25 : after ops V (Proc.devRef .tc main_v25) = val_main_v25 (F := F) (V (Proc.devRef .tc main_arg0)) (V (Proc.devRef .tc main_arg1)) (V (Proc.devRef .tc main_arg2)) (V (Proc.devRef .tc main_arg6)) := by
  rw [step2 V 29 rfl rfl (old 3 rfl (by decide)) (old 28 rfl (by decide)), st_main_v3, st_main_v24]; rfl
theorem st_main_c_3 : after ops V (Proc.devRef .tc main_c_3) = val_main_c_3 (F := F) := by
  rw [step0 V 30 rfl rfl]; rfl
theorem st_main_v26 : after ops V (Proc.devRef .tc main_v26) = val_main_v26 (F := F) := by
  rw [step1 V 31 rfl rfl (old 30 rfl (by decide)), st_main_c_3]; rfl
theorem st_main_v27 : after ops V (Proc.devRef .tc main_v27) = val_main_v27 (F := F) (V (Proc.devRef .tc main_arg8)) := by
  rw [step2 V 32 rfl rfl (not_mem_drop_of_not_mem arg8_not_written 32) (old 31 rfl (by decide)), st_main_arg8, st_main_v26]; rfl
theorem st_main_c_4 : after ops V (Proc.devRef .tc main_c_4) = val_main_c_4 (F := F) := by
  rw [step0 V 33 rfl rfl]; rfl
theorem st_main_v28 : after ops V (Proc.devRef .tc main_v28) = val_main_v28 (F := F) := by
  rw [step1 V 34 rfl rfl (old 33 rfl (by decide)), st_main_c_4]; rfl
theorem st_main_v29 : after ops V (Proc.devRef .tc main_v29) = val_main_v29 (F := F) (V (Proc.devRef .tc main_arg8)) := by
  rw [step2 V 35 rfl rfl (not_mem_drop_of_not_mem arg8_not_written 35) (old 34 rfl (by decide)), st_main_arg8, st_main_v28]; rfl
theorem st_main_v30 : after ops V (Proc.devRef .tc main_v30) = val_main_v30 (F := F) (V (Proc.devRef .tc main_arg8)) := by
  rw [step3 V 36 rfl rfl (old 32 rfl (by decide)) (old 35 rfl (by decide)) (not_mem_drop_of_not_mem arg8_not_written 36), st_main_v27, st_main_v29, st_main_arg8]; rfl
theorem st_main_v31 : after ops V (Proc.devRef .tc main_v31) = val_main_v31 (F := F) (V (Proc.devRef .tc main_arg8)) := by
  rw [step1 V 37 rfl rfl (old 36 rfl (by decide)), st_main_v30]; rfl
theorem st_main_v32 : after ops V (Proc.devRef .tc main_v32) = val_main_v32 (F := F) (V (Proc.devRef .tc main_arg0)) (V (Proc.devRef .tc main_arg1)) (V (Proc.devRef .tc main_arg2)) (V (Proc.devRef .tc main_arg8)) := by
  rw [step2 V 38 rfl rfl (old 3 rfl (by decide)) (old 37 rfl (by decide)), st_main_v3, st_main_v31]; rfl
theorem st_main_c_5 : after ops V (Proc.devRef .tc main_c_5) = val_main_c_5 (F := F) := by
  rw [step0 V 39 rfl rfl]; rfl
theorem st_main_v33 : after ops V (Proc.devRef .tc main_v33) = val_main_v33 (F := F) := by
  rw [step1 V 40 rfl rfl (old 39 rfl (by decide)), st_main_c_5]; rfl
theorem st_main_v34 : after ops V (Proc.devRef .tc main_v34) = val_main_v34 (F := F) (V (Proc.devRef .tc main_arg7)) := by
  rw [step2 V 41 rfl rfl (old 9 rfl (by decide)) (old 40 rfl (by decide)), st_main_v9, st_main_v33]; rfl
theorem st_main_c_6 : after ops V (Proc.devRef .tc main_c_6) = val_main_c_6 (F := F) := by
  rw [step0 V 42 rfl rfl]; rfl
theorem st_main_v35 : after ops V (Proc.devRef .tc main_v35) = val_main_v35 (F := F) := by
  rw [step1 V 43 rfl rfl (old 42 rfl (by decide)), st_main_c_6]; rfl
theorem st_main_v36 : after ops V (Proc.devRef .tc main_v36) = val_main_v36 (F := F) (V (Proc.devRef .tc main_arg7)) := by
  rw [step2 V 44 rfl rfl (old 9 rfl (by decide)) (old 43 rfl (by decide)), st_main_v9, st_main_v35]; rfl
theorem st_main_v37 : after ops V (Proc.devRef .tc main_v37) = val_main_v37 (F := F) (V (Proc.devRef .tc main_arg7)) := by
  rw [step3 V 45 rfl rfl (old 41 rfl (by decide)) (old 44 rfl (by decide)) (old 9 rfl (by decide)), st_main_v34, st_main_v36, st_main_v9]; rfl
theorem st_main_v38 : after ops V (Proc.devRef .tc main_v38) = val_main_v38 (F := F) (V (Proc.devRef .tc main_arg7)) := by
  rw [step1 V 46 rfl rfl (old 45 rfl (by decide)), st_main_v37]; rfl
theorem st_main_v39 : after ops V (Proc.devRef .tc main_v39) = val_main_v39 (F := F) (V (Proc.devRef .tc main_arg0)) (V (Proc.devRef .tc main_arg1)) (V (Proc.devRef .tc main_arg2)) (V (Proc.devRef .tc main_arg7)) := by
  rw [step2 V 47 rfl rfl (old 3 rfl (by decide)) (old 46 rfl (by decide)), st_main_v3, st_main_v38]; rfl
theorem st_main_c_7 : after ops V (Proc.devRef .tc main_c_7) = val_main_c_7 (F := F) := by
  rw [step0 V 48 rfl rfl]; rfl
theorem st_main_v40 : after ops V (Proc.devRef .tc main_v40) = val_main_v40 (F := F) := by
  rw [step1 V 49 rfl rfl (old 48 rfl (by decide)), st_main_c_7]; rfl
theorem st_main_v41 : after ops V (Proc.devRef .tc main_v41) = val_main_v41 (F := F) (V (Proc.devRef .tc main_arg7)) := by
  rw [step2 V 50 rfl rfl (old 11 rfl (by decide)) (old 49 rfl (by decide)), st_main_v11, st_main_v40]; rfl
theorem st_main_c_8 : after ops V (Proc.devRef .tc main_c_8) = val_main_c_8 (F := F) := by
  rw [step0 V 51 rfl rfl]; rfl
theorem st_main_v42 : after ops V (Proc.devRef .tc main_v42) = val_main_v42 (F := F) := by
  rw [step1 V 52 rfl rfl (old 51 rfl (by decide)), st_main_c_8]; rfl
theorem st_main_v43 : after ops V (Proc.devRef .tc main_v43) = val_main_v43 (F := F) (V (Proc.devRef .tc main_arg7)) := by
  rw [step2 V 53 rfl rfl (old 11 rfl (by decide)) (old 52 rfl (by decide)), st_main_v11, st_main_v42]; rfl
theorem st_main_v44 : after ops V (Proc.devRef .tc main_v44) = val_main_v44 (F := F) (V (Proc.devRef .tc main_arg7)) := by
  rw [step3 V 54 rfl rfl (old 50 rfl (by decide)) (old 53 rfl (by decide)) (old 11 rfl (by decide)), st_main_v41, st_main_v43, st_main_v11]; rfl
theorem st_main_v45 : after ops V (Proc.devRef .tc main_v45) = val_main_v45 (F := F) (V (Proc.devRef .tc main_arg7)) := by
  rw [step1 V 55 rfl rfl (old 54 rfl (by decide)), st_main_v44]; rfl
theorem st_main_v46 : after ops V (Proc.devRef .tc main_v46) = val_main_v46 (F := F) (V (Proc.devRef .tc main_arg0)) (V (Proc.devRef .tc main_arg1)) (V (Proc.devRef .tc main_arg2)) (V (Proc.devRef .tc main_arg7)) := by
  rw [step2 V 56 rfl rfl (old 3 rfl (by decide)) (old 55 rfl (by decide)), st_main_v3, st_main_v45]; rfl
theorem st_main_c_9 : after ops V (Proc.devRef .tc main_c_9) = val_main_c_9 (F := F) := by
  rw [step0 V 57 rfl rfl]; rfl
theorem st_main_v47 : after ops V (Proc.devRef .tc main_v47) = val_main_v47 (F := F) := by
  rw [step1 V 58 rfl rfl (old 57 rfl (by decide)), st_main_c_9]; rfl
theorem st_main_v48 : after ops V (Proc.devRef .tc main_v48) = val_main_v48 (F := F) (V (Proc.devRef .tc main_arg9)) := by
  rw [step2 V 59 rfl rfl (not_mem_drop_of_not_mem arg9_not_written 59) (old 58 rfl (by decide)), st_main_arg9, st_main_v47]; rfl
theorem st_main_c_10 : after ops V (Proc.devRef .tc main_c_10) = val_main_c_10 (F := F) := by
  rw [step0 V 60 rfl rfl]; rfl
theorem st_main_v49 : after ops V (Proc.devRef .tc main_v49) = val_main_v49 (F := F) := by
  rw [step1 V 61 rfl rfl (old 60 rfl (by decide)), st_main_c_10]; rfl
theorem st_main_v50 : after ops V (Proc.devRef .tc main_v50) = val_main_v50 (F := F) (V (Proc.devRef .tc main_arg9)) := by
  rw [step2 V 62 rfl rfl (not_mem_drop_of_not_mem arg9_not_written 62) (old 61 rfl (by decide)), st_main_arg9, st_main_v49]; rfl
theorem st_main_v51 : after ops V (Proc.devRef .tc main_v51) = val_main_v51 (F := F) (V (Proc.devRef .tc main_arg9)) := by
  rw [step3 V 63 rfl rfl (old 59 rfl (by decide)) (old 62 rfl (by decide)) (not_mem_drop_of_not_mem arg9_not_written 63), st_main_v48, st_main_v50, st_main_arg9]; rfl
theorem st_main_v52 : after ops V (Proc.devRef .tc main_v52) = val_main_v52 (F := F) (V (Proc.devRef .tc main_arg9)) := by
  rw [step1 V 64 rfl rfl (old 63 rfl (by decide)), st_main_v51]; rfl
theorem st_main_v53 : after ops V (Proc.devRef .tc main_v53) = val_main_v53 (F := F) (V (Proc.devRef .tc main_arg0)) (V (Proc.devRef .tc main_arg1)) (V (Proc.devRef .tc main_arg2)) (V (Proc.devRef .tc main_arg9)) := by
  rw [step2 V 65 rfl rfl (old 3 rfl (by decide)) (old 64 rfl (by decide)), st_main_v3, st_main_v52]; rfl
theorem st_main_v54 : after ops V (Proc.devRef .tc main_v54) = val_main_v54 (F := F) (V (Proc.devRef .tc main_arg0)) (V (Proc.devRef .tc main_arg1)) (V (Proc.devRef .tc main_arg2)) (V (Proc.devRef .tc main_arg6)) := by
  rw [step2 V 66 rfl rfl (old 20 rfl (by decide)) (old 29 rfl (by decide)), st_main_v18, st_main_v25]; rfl
theorem st_main_v55 : after ops V (Proc.devRef .tc main_v55) = val_main_v55 (F := F) (V (Proc.devRef .tc main_arg0)) (V (Proc.devRef .tc main_arg1)) (V (Proc.devRef .tc main_arg2)) (V (Proc.devRef .tc main_arg7)) := by
  rw [step2 V 67 rfl rfl (old 47 rfl (by decide)) (old 56 rfl (by decide)), st_main_v39, st_main_v46]; rfl
theorem st_main_v56 : after ops V (Proc.devRef .tc main_v56) = val_main_v56 (F := F) (V (Proc.devRef .tc main_arg0)) (V (Proc.devRef .tc main_arg1)) (V (Proc.devRef .tc main_arg2)) (V (Proc.devRef .tc main_arg7)) (V (Proc.devRef .tc main_arg9)) := by
  rw [step2 V 68 rfl rfl (old 47 rfl (by decide)) (old 65 rfl (by decide)), st_main_v39, st_main_v53]; rfl
theorem st_main_v57 : after ops V (Proc.devRef .tc main_v57) = val_main_v57 (F := F) (V (Proc.devRef .tc main_arg0)) (V (Proc.devRef .tc main_arg1)) (V (Proc.devRef .tc main_arg2)) (V (Proc.devRef .tc main_arg7)) (V (Proc.devRef .tc main_arg9)) := by
  rw [step2 V 69 rfl rfl (old 56 rfl (by decide)) (old 65 rfl (by decide)), st_main_v46, st_main_v53]; rfl
theorem st_main_v58 : after ops V (Proc.devRef .tc main_v58) = val_main_v58 (F := F) (V (Proc.devRef .tc main_arg0)) (V (Proc.devRef .tc main_arg1)) (V (Proc.devRef .tc main_arg2)) (V (Proc.devRef .tc main_arg6)) (V (Proc.devRef .tc main_arg8)) := by
  rw [step2 V 70 rfl rfl (old 20 rfl (by decide)) (old 38 rfl (by decide)), st_main_v18, st_main_v32]; rfl
theorem st_main_v59 : after ops V (Proc.devRef .tc main_v59) = val_main_v59 (F := F) (V (Proc.devRef .tc main_arg0)) (V (Proc.devRef .tc main_arg1)) (V (Proc.devRef .tc main_arg2)) (V (Proc.devRef .tc main_arg6)) (V (Proc.devRef .tc main_arg8)) := by
  rw [step2 V 71 rfl rfl (old 29 rfl (by decide)) (old 38 rfl (by decide)), st_main_v25, st_main_v32]; rfl
theorem step_main_v60 : after ops V (Proc.devRef .tc main_v60)
    = concatenate S600000x256 0 [⟨S100000x256, (after ops V (Proc.devRef .tc main_v54))⟩, ⟨S100000x256, (after ops V (Proc.devRef .tc main_v55))⟩, ⟨S100000x256, (after ops V (Proc.devRef .tc main_v56))⟩, ⟨S100000x256, (after ops V (Proc.devRef .tc main_v57))⟩, ⟨S100000x256, (after ops V (Proc.devRef .tc main_v58))⟩, ⟨S100000x256, (after ops V (Proc.devRef .tc main_v59))⟩] concatenates_S100000x256_S100000x256_S100000x256_S100000x256_S100000x256_S100000x256_S600000x256_d0 :=
  stepN V 72 rfl rfl (by decide)
theorem st_main_v60 : after ops V (Proc.devRef .tc main_v60) = val_main_v60 (F := F) (V (Proc.devRef .tc main_arg0)) (V (Proc.devRef .tc main_arg1)) (V (Proc.devRef .tc main_arg2)) (V (Proc.devRef .tc main_arg6)) (V (Proc.devRef .tc main_arg7)) (V (Proc.devRef .tc main_arg8)) (V (Proc.devRef .tc main_arg9)) := by
  rw [step_main_v60, st_main_v54, st_main_v55, st_main_v56, st_main_v57, st_main_v58, st_main_v59]; rfl
theorem st_main_v61 : after ops V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  rw [step2 V 73 rfl rfl (old 72 rfl (by decide)) (not_mem_drop_of_not_mem arg3_not_written 73), st_main_v60, st_main_arg3]; rfl
theorem st_main_v62 : after ops V (Proc.devRef .tc main_v62) = val_main_v62 (F := F) (V (Proc.devRef .tc main_arg4)) := by
  rw [step1 V 74 rfl rfl (not_mem_drop_of_not_mem arg4_not_written 74), st_main_arg4]; rfl
theorem st_main_v63 : after ops V (Proc.devRef .tc main_v63) = val_main_v63 (F := F) (V (Proc.devRef .tc main_arg4)) := by
  rw [step1 V 75 rfl rfl (old 74 rfl (by decide)), st_main_v62]; rfl
theorem st_main_v64 : after ops V (Proc.devRef .tc main_v64) = val_main_v64 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  rw [step2 V 76 rfl rfl (old 73 rfl (by decide)) (old 75 rfl (by decide)), st_main_v61, st_main_v63]; rfl
theorem st_main_call0_cst : after ops V (Proc.devRef .tc main_call0_cst) = val_main_call0_cst (F := F) := by
  rw [step0 V 77 rfl rfl]; rfl
theorem st_main_call0_v0 : after ops V (Proc.devRef .tc main_call0_v0) = val_main_call0_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step2 V 78 rfl rfl (old 76 rfl (by decide)) (old 77 rfl (by decide))
  rw [st_main_v64, st_main_call0_cst] at h
  exact h.trans ((cast_eq _ _).trans ((congrArg₂ (((fun x v => Host.reduce FloatOps.maximumf x v reducesTo_S600000x3_S600000_d1 h_S_)) : (⟨S600000x3, .f32⟩ : BufTy).Contents (Elt F) → (⟨S_, .f32⟩ : BufTy).Contents (Elt F) → (⟨S600000, .f32⟩ : BufTy).Contents (Elt F)) (cast_eq _ _) (cast_eq _ _)).trans rfl))
theorem st_main_call0_cst_0 : after ops V (Proc.devRef .tc main_call0_cst_0) = val_main_call0_cst_0 (F := F) := by
  rw [step0 V 79 rfl rfl]; rfl
theorem st_main_call0_v1 : after ops V (Proc.devRef .tc main_call0_v1) = val_main_call0_v1 (F := F) := by
  have h := step1 V 80 rfl rfl (old 79 rfl (by decide))
  rw [st_main_call0_cst_0] at h
  exact h.trans ((cast_eq _ _).trans ((congrArg (((broadcastInDim S600000 ![] bcast_S_S600000)) : (⟨S_, .f32⟩ : BufTy).Contents (Elt F) → (⟨S600000, .f32⟩ : BufTy).Contents (Elt F)) (cast_eq _ _)).trans rfl))
theorem st_main_call0_v2 : after ops V (Proc.devRef .tc main_call0_v2) = val_main_call0_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step2 V 81 rfl rfl (old 80 rfl (by decide)) (old 78 rfl (by decide))
  rw [st_main_call0_v1, st_main_call0_v0] at h
  exact h.trans ((cast_eq _ _).trans ((congrArg₂ ((maximumf) : (⟨S600000, .f32⟩ : BufTy).Contents (Elt F) → (⟨S600000, .f32⟩ : BufTy).Contents (Elt F) → (⟨S600000, .f32⟩ : BufTy).Contents (Elt F)) (cast_eq _ _) (cast_eq _ _)).trans rfl))
theorem st_main_call0_v3 : after ops V (Proc.devRef .tc main_call0_v3) = val_main_call0_v3 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 82 rfl rfl (old 81 rfl (by decide))
  rw [st_main_call0_v2] at h
  exact h.trans ((cast_eq _ _).trans ((congrArg (((broadcastInDim S600000x1 ![0] bcast_S600000_S600000x1_0)) : (⟨S600000, .f32⟩ : BufTy).Contents (Elt F) → (⟨S600000x1, .f32⟩ : BufTy).Contents (Elt F)) (cast_eq _ _)).trans rfl))
theorem st_main_call0_v4 : after ops V (Proc.devRef .tc main_call0_v4) = val_main_call0_v4 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 83 rfl rfl (old 82 rfl (by decide))
  rw [st_main_call0_v3] at h
  exact h.trans ((cast_eq _ _).trans ((congrArg (((broadcastInDim S600000x3 ![0, 1] bcast_S600000x1_S600000x3_0_1)) : (⟨S600000x1, .f32⟩ : BufTy).Contents (Elt F) → (⟨S600000x3, .f32⟩ : BufTy).Contents (Elt F)) (cast_eq _ _)).trans rfl))
theorem st_main_call0_v5 : after ops V (Proc.devRef .tc main_call0_v5) = val_main_call0_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step2 V 84 rfl rfl (old 76 rfl (by decide)) (old 83 rfl (by decide))
  rw [st_main_v64, st_main_call0_v4] at h
  exact h.trans ((cast_eq _ _).trans ((congrArg₂ ((subf) : (⟨S600000x3, .f32⟩ : BufTy).Contents (Elt F) → (⟨S600000x3, .f32⟩ : BufTy).Contents (Elt F) → (⟨S600000x3, .f32⟩ : BufTy).Contents (Elt F)) (cast_eq _ _) (cast_eq _ _)).trans rfl))
theorem st_main_call0_v6 : after ops V (Proc.devRef .tc main_call0_v6) = val_main_call0_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 85 rfl rfl (old 84 rfl (by decide))
  rw [st_main_call0_v5] at h
  exact h.trans ((cast_eq _ _).trans ((congrArg ((Host.exp) : (⟨S600000x3, .f32⟩ : BufTy).Contents (Elt F) → (⟨S600000x3, .f32⟩ : BufTy).Contents (Elt F)) (cast_eq _ _)).trans rfl))
theorem st_main_call0_cst_1 : after ops V (Proc.devRef .tc main_call0_cst_1) = val_main_call0_cst_1 (F := F) := by
  rw [step0 V 86 rfl rfl]; rfl
theorem st_main_call0_v7 : after ops V (Proc.devRef .tc main_call0_v7) = val_main_call0_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step2 V 87 rfl rfl (old 85 rfl (by decide)) (old 86 rfl (by decide))
  rw [st_main_call0_v6, st_main_call0_cst_1] at h
  exact h.trans ((cast_eq _ _).trans ((congrArg₂ (((fun x v => Host.reduceAdd x v reducesTo_S600000x3_S600000_d1 h_S_)) : (⟨S600000x3, .f32⟩ : BufTy).Contents (Elt F) → (⟨S_, .f32⟩ : BufTy).Contents (Elt F) → (⟨S600000, .f32⟩ : BufTy).Contents (Elt F)) (cast_eq _ _) (cast_eq _ _)).trans rfl))
theorem st_main_call0_v8 : after ops V (Proc.devRef .tc main_call0_v8) = val_main_call0_v8 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 88 rfl rfl (old 87 rfl (by decide))
  rw [st_main_call0_v7] at h
  exact h.trans ((cast_eq _ _).trans ((congrArg (((broadcastInDim S600000x1 ![0] bcast_S600000_S600000x1_0)) : (⟨S600000, .f32⟩ : BufTy).Contents (Elt F) → (⟨S600000x1, .f32⟩ : BufTy).Contents (Elt F)) (cast_eq _ _)).trans rfl))
theorem st_main_call0_v9 : after ops V (Proc.devRef .tc main_call0_v9) = val_main_call0_v9 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 89 rfl rfl (old 88 rfl (by decide))
  rw [st_main_call0_v8] at h
  exact h.trans ((cast_eq _ _).trans ((congrArg ((Host.log) : (⟨S600000x1, .f32⟩ : BufTy).Contents (Elt F) → (⟨S600000x1, .f32⟩ : BufTy).Contents (Elt F)) (cast_eq _ _)).trans rfl))
theorem st_main_call0_v10 : after ops V (Proc.devRef .tc main_call0_v10) = val_main_call0_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step1 V 90 rfl rfl (old 89 rfl (by decide))
  rw [st_main_call0_v9] at h
  exact h.trans ((cast_eq _ _).trans ((congrArg (((broadcastInDim S600000x3 ![0, 1] bcast_S600000x1_S600000x3_0_1)) : (⟨S600000x1, .f32⟩ : BufTy).Contents (Elt F) → (⟨S600000x3, .f32⟩ : BufTy).Contents (Elt F)) (cast_eq _ _)).trans rfl))
theorem st_main_v65 : after ops V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) := by
  have h := step2 V 91 rfl rfl (old 84 rfl (by decide)) (old 90 rfl (by decide))
  rw [st_main_call0_v5, st_main_call0_v10] at h
  exact h.trans ((cast_eq _ _).trans ((congrArg₂ ((subf) : (⟨S600000x3, .f32⟩ : BufTy).Contents (Elt F) → (⟨S600000x3, .f32⟩ : BufTy).Contents (Elt F) → (⟨S600000x3, .f32⟩ : BufTy).Contents (Elt F)) (cast_eq _ _) (cast_eq _ _)).trans rfl))
theorem st_main_v66 : after ops V (Proc.devRef .tc main_v66) = val_main_v66 (F := F) (V (Proc.devRef .tc main_arg10)) := by
  rw [step1 V 92 rfl rfl (not_mem_drop_of_not_mem arg10_not_written 92), st_main_arg10]; rfl
theorem st_main_call1_c : after ops V (Proc.devRef .tc main_call1_c) = val_main_call1_c (F := F) := by
  rw [step0 V 93 rfl rfl]; rfl
theorem st_main_call1_v0 : after ops V (Proc.devRef .tc main_call1_v0) = val_main_call1_v0 (F := F) := by
  have h := step1 V 94 rfl rfl (old 93 rfl (by decide))
  rw [st_main_call1_c] at h
  exact h.trans ((cast_eq _ _).trans ((congrArg (((broadcastInDim S600000x1 ![] bcast_S_S600000x1)) : (⟨S_, .i32⟩ : BufTy).Contents (Elt F) → (⟨S600000x1, .i32⟩ : BufTy).Contents (Elt F)) (cast_eq _ _)).trans rfl))
theorem st_main_call1_v1 : after ops V (Proc.devRef .tc main_call1_v1) = val_main_call1_v1 (F := F) (V (Proc.devRef .tc main_arg10)) := by
  have h := step2 V 95 rfl rfl (old 92 rfl (by decide)) (old 94 rfl (by decide))
  rw [st_main_v66, st_main_call1_v0] at h
  exact h.trans ((cast_eq _ _).trans ((congrArg₂ (((cmpi .slt)) : (⟨S600000x1, .i32⟩ : BufTy).Contents (Elt F) → (⟨S600000x1, .i32⟩ : BufTy).Contents (Elt F) → (⟨S600000x1, .i1⟩ : BufTy).Contents (Elt F)) (cast_eq _ _) (cast_eq _ _)).trans rfl))
theorem st_main_call1_c_0 : after ops V (Proc.devRef .tc main_call1_c_0) = val_main_call1_c_0 (F := F) := by
  rw [step0 V 96 rfl rfl]; rfl
theorem st_main_call1_v2 : after ops V (Proc.devRef .tc main_call1_v2) = val_main_call1_v2 (F := F) := by
  have h := step1 V 97 rfl rfl (old 96 rfl (by decide))
  rw [st_main_call1_c_0] at h
  exact h.trans ((cast_eq _ _).trans ((congrArg (((broadcastInDim S600000x1 ![] bcast_S_S600000x1)) : (⟨S_, .i32⟩ : BufTy).Contents (Elt F) → (⟨S600000x1, .i32⟩ : BufTy).Contents (Elt F)) (cast_eq _ _)).trans rfl))
theorem st_main_call1_v3 : after ops V (Proc.devRef .tc main_call1_v3) = val_main_call1_v3 (F := F) (V (Proc.devRef .tc main_arg10)) := by
  have h := step2 V 98 rfl rfl (old 92 rfl (by decide)) (old 97 rfl (by decide))
  rw [st_main_v66, st_main_call1_v2] at h
  exact h.trans ((cast_eq _ _).trans ((congrArg₂ ((addi) : (⟨S600000x1, .i32⟩ : BufTy).Contents (Elt F) → (⟨S600000x1, .i32⟩ : BufTy).Contents (Elt F) → (⟨S600000x1, .i32⟩ : BufTy).Contents (Elt F)) (cast_eq _ _) (cast_eq _ _)).trans rfl))
theorem st_main_call1_v4 : after ops V (Proc.devRef .tc main_call1_v4) = val_main_call1_v4 (F := F) (V (Proc.devRef .tc main_arg10)) := by
  have h := step3 V 99 rfl rfl (old 95 rfl (by decide)) (old 98 rfl (by decide)) (old 92 rfl (by decide))
  rw [st_main_call1_v1, st_main_call1_v3, st_main_v66] at h
  exact h.trans ((cast_eq _ _).trans ((congrArg3 ((select) : (⟨S600000x1, .i1⟩ : BufTy).Contents (Elt F) → (⟨S600000x1, .i32⟩ : BufTy).Contents (Elt F) → (⟨S600000x1, .i32⟩ : BufTy).Contents (Elt F) → (⟨S600000x1, .i32⟩ : BufTy).Contents (Elt F)) (cast_eq _ _) (cast_eq _ _) (cast_eq _ _)).trans rfl))
theorem st_main_call1_v5 : after ops V (Proc.devRef .tc main_call1_v5) = val_main_call1_v5 (F := F) (V (Proc.devRef .tc main_arg10)) := by
  rw [stepR V 100 rfl rfl (old 99 rfl (by decide)), st_main_call1_v4]; rfl
theorem st_main_call1_c_1 : after ops V (Proc.devRef .tc main_call1_c_1) = val_main_call1_c_1 (F := F) := by
  rw [step0 V 101 rfl rfl]; rfl
theorem st_main_call1_c_2 : after ops V (Proc.devRef .tc main_call1_c_2) = val_main_call1_c_2 (F := F) := by
  rw [step0 V 102 rfl rfl]; rfl
theorem st_main_call1_v6 : after ops V (Proc.devRef .tc main_call1_v6) = val_main_call1_v6 (F := F) := by
  have h := step1 V 103 rfl rfl (old 102 rfl (by decide))
  rw [st_main_call1_c_2] at h
  exact h.trans ((cast_eq _ _).trans ((congrArg (((broadcastInDim S600000x1x1 ![] bcast_S_S600000x1x1)) : (⟨S_, .i32⟩ : BufTy).Contents (Elt F) → (⟨S600000x1x1, .i32⟩ : BufTy).Contents (Elt F)) (cast_eq _ _)).trans rfl))
theorem st_main_call1_v7 : after ops V (Proc.devRef .tc main_call1_v7) = val_main_call1_v7 (F := F) (V (Proc.devRef .tc main_arg10)) := by
  have h := step2 V 104 rfl rfl (old 100 rfl (by decide)) (old 103 rfl (by decide))
  rw [st_main_call1_v5, st_main_call1_v6] at h
  exact h.trans ((cast_eq _ _).trans ((congrArg₂ (((cmpi .sge)) : (⟨S600000x1x1, .i32⟩ : BufTy).Contents (Elt F) → (⟨S600000x1x1, .i32⟩ : BufTy).Contents (Elt F) → (⟨S600000x1x1, .i1⟩ : BufTy).Contents (Elt F)) (cast_eq _ _) (cast_eq _ _)).trans rfl))
theorem st_main_call1_v8 : after ops V (Proc.devRef .tc main_call1_v8) = val_main_call1_v8 (F := F) := by
  have h := step1 V 105 rfl rfl (old 101 rfl (by decide))
  rw [st_main_call1_c_1] at h
  exact h.trans ((cast_eq _ _).trans ((congrArg (((broadcastInDim S1x1x1 ![2] bcast_S1_S1x1x1_2)) : (⟨S1, .i32⟩ : BufTy).Contents (Elt F) → (⟨S1x1x1, .i32⟩ : BufTy).Contents (Elt F)) (cast_eq _ _)).trans rfl))
theorem st_main_call1_v9 : after ops V (Proc.devRef .tc main_call1_v9) = val_main_call1_v9 (F := F) := by
  have h := step1 V 106 rfl rfl (old 105 rfl (by decide))
  rw [st_main_call1_v8] at h
  exact h.trans ((cast_eq _ _).trans ((congrArg (((broadcastInDim S600000x1x1 ![0, 1, 2] bcast_S1x1x1_S600000x1x1_0_1_2)) : (⟨S1x1x1, .i32⟩ : BufTy).Contents (Elt F) → (⟨S600000x1x1, .i32⟩ : BufTy).Contents (Elt F)) (cast_eq _ _)).trans rfl))
theorem st_main_call1_v10 : after ops V (Proc.devRef .tc main_call1_v10) = val_main_call1_v10 (F := F) (V (Proc.devRef .tc main_arg10)) := by
  have h := step2 V 107 rfl rfl (old 100 rfl (by decide)) (old 106 rfl (by decide))
  rw [st_main_call1_v5, st_main_call1_v9] at h
  exact h.trans ((cast_eq _ _).trans ((congrArg₂ (((cmpi .sle)) : (⟨S600000x1x1, .i32⟩ : BufTy).Contents (Elt F) → (⟨S600000x1x1, .i32⟩ : BufTy).Contents (Elt F) → (⟨S600000x1x1, .i1⟩ : BufTy).Contents (Elt F)) (cast_eq _ _) (cast_eq _ _)).trans rfl))
theorem st_main_call1_v11 : after ops V (Proc.devRef .tc main_call1_v11) = val_main_call1_v11 (F := F) (V (Proc.devRef .tc main_arg10)) := by
  have h := step2 V 108 rfl rfl (old 104 rfl (by decide)) (old 107 rfl (by decide))
  rw [st_main_call1_v7, st_main_call1_v10] at h
  exact h.trans ((cast_eq _ _).trans ((congrArg₂ ((andi) : (⟨S600000x1x1, .i1⟩ : BufTy).Contents (Elt F) → (⟨S600000x1x1, .i1⟩ : BufTy).Contents (Elt F) → (⟨S600000x1x1, .i1⟩ : BufTy).Contents (Elt F)) (cast_eq _ _) (cast_eq _ _)).trans rfl))
theorem st_main_call1_c_3 : after ops V (Proc.devRef .tc main_call1_c_3) = val_main_call1_c_3 (F := F) := by
  rw [step0 V 109 rfl rfl]; rfl
theorem st_main_call1_v12 : after ops V (Proc.devRef .tc main_call1_v12) = val_main_call1_v12 (F := F) (V (Proc.devRef .tc main_arg10)) := by
  have h := step2 V 110 rfl rfl (old 108 rfl (by decide)) (old 109 rfl (by decide))
  rw [st_main_call1_v11, st_main_call1_c_3] at h
  exact h.trans ((cast_eq _ _).trans ((congrArg₂ (((fun x v => Host.reduce IntOp.andi x v reducesTo_S600000x1x1_S600000x1_d2 h_S_)) : (⟨S600000x1x1, .i1⟩ : BufTy).Contents (Elt F) → (⟨S_, .i1⟩ : BufTy).Contents (Elt F) → (⟨S600000x1, .i1⟩ : BufTy).Contents (Elt F)) (cast_eq _ _) (cast_eq _ _)).trans rfl))
theorem st_main_call1_v13 : after ops V (Proc.devRef .tc main_call1_v13) = val_main_call1_v13 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  have h := step2 V 111 rfl rfl (old 91 rfl (by decide)) (old 100 rfl (by decide))
  rw [st_main_v65, st_main_call1_v5] at h
  exact h.trans ((cast_eq _ _).trans ((congrArg₂ (((fun x i => Host.gather gather_S600000x3_S600000x1x1_S600000x1_n_1_0_0_1_2_11 x i)) : (⟨S600000x3, .f32⟩ : BufTy).Contents (Elt F) → (⟨S600000x1x1, .i32⟩ : BufTy).Contents (Elt F) → (⟨S600000x1, .f32⟩ : BufTy).Contents (Elt F)) (cast_eq _ _) (cast_eq _ _)).trans rfl))
theorem st_main_call1_cst : after ops V (Proc.devRef .tc main_call1_cst) = val_main_call1_cst (F := F) := by
  rw [step0 V 112 rfl rfl]; rfl
theorem st_main_call1_v14 : after ops V (Proc.devRef .tc main_call1_v14) = val_main_call1_v14 (F := F) := by
  have h := step1 V 113 rfl rfl (old 112 rfl (by decide))
  rw [st_main_call1_cst] at h
  exact h.trans ((cast_eq _ _).trans ((congrArg (((broadcastInDim S600000x1 ![] bcast_S_S600000x1)) : (⟨S_, .f32⟩ : BufTy).Contents (Elt F) → (⟨S600000x1, .f32⟩ : BufTy).Contents (Elt F)) (cast_eq _ _)).trans rfl))
theorem st_main_v67 : after ops V (Proc.devRef .tc main_v67) = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  have h := step3 V 114 rfl rfl (old 110 rfl (by decide)) (old 111 rfl (by decide)) (old 113 rfl (by decide))
  rw [st_main_call1_v12, st_main_call1_v13, st_main_call1_v14] at h
  exact h.trans ((cast_eq _ _).trans ((congrArg3 ((select) : (⟨S600000x1, .i1⟩ : BufTy).Contents (Elt F) → (⟨S600000x1, .f32⟩ : BufTy).Contents (Elt F) → (⟨S600000x1, .f32⟩ : BufTy).Contents (Elt F) → (⟨S600000x1, .f32⟩ : BufTy).Contents (Elt F)) (cast_eq _ _) (cast_eq _ _) (cast_eq _ _)).trans rfl))
theorem st_main_v68 : after ops V (Proc.devRef .tc main_v68) = val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  rw [stepR V 115 rfl rfl (old 114 rfl (by decide)), st_main_v67]; rfl
theorem st_main_cst : after ops V (Proc.devRef .tc main_cst) = val_main_cst (F := F) := by
  rw [step0 V 116 rfl rfl]; rfl
theorem st_main_v69 : after ops V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  rw [step2 V 117 rfl rfl (old 115 rfl (by decide)) (old 116 rfl (by decide)), st_main_v68, st_main_cst]; rfl
theorem st_main_cst_11 : after ops V (Proc.devRef .tc main_cst_11) = val_main_cst_11 (F := F) := by
  rw [step0 V 118 rfl rfl]; rfl
theorem st_main_v70 : after ops V (Proc.devRef .tc main_v70) = val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  rw [step2 V 119 rfl rfl (old 117 rfl (by decide)) (old 118 rfl (by decide)), st_main_v69, st_main_cst_11]; rfl
theorem st_main_v71 : after ops V (Proc.devRef .tc main_v71) = val_main_v71 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) := by
  rw [step1 V 120 rfl rfl (old 119 rfl (by decide)), st_main_v70]; rfl
theorem st_main_c_12 : after ops V (Proc.devRef .tc main_c_12) = val_main_c_12 (F := F) := by
  rw [step0 V 121 rfl rfl]; rfl
theorem st_main_v72 : after ops V (Proc.devRef .tc main_v72) = val_main_v72 (F := F) := by
  rw [step1 V 122 rfl rfl (old 121 rfl (by decide)), st_main_c_12]; rfl
theorem st_main_v73 : after ops V (Proc.devRef .tc main_v73) = val_main_v73 (F := F) (V (Proc.devRef .tc main_arg6)) := by
  rw [step2 V 123 rfl rfl (old 5 rfl (by decide)) (old 122 rfl (by decide)), st_main_v5, st_main_v72]; rfl
theorem st_main_c_13 : after ops V (Proc.devRef .tc main_c_13) = val_main_c_13 (F := F) := by
  rw [step0 V 124 rfl rfl]; rfl
theorem st_main_v74 : after ops V (Proc.devRef .tc main_v74) = val_main_v74 (F := F) := by
  rw [step1 V 125 rfl rfl (old 124 rfl (by decide)), st_main_c_13]; rfl
theorem st_main_v75 : after ops V (Proc.devRef .tc main_v75) = val_main_v75 (F := F) (V (Proc.devRef .tc main_arg6)) := by
  rw [step2 V 126 rfl rfl (old 5 rfl (by decide)) (old 125 rfl (by decide)), st_main_v5, st_main_v74]; rfl
theorem st_main_v76 : after ops V (Proc.devRef .tc main_v76) = val_main_v76 (F := F) (V (Proc.devRef .tc main_arg6)) := by
  rw [step3 V 127 rfl rfl (old 123 rfl (by decide)) (old 126 rfl (by decide)) (old 5 rfl (by decide)), st_main_v73, st_main_v75, st_main_v5]; rfl
theorem st_main_v77 : after ops V (Proc.devRef .tc main_v77) = val_main_v77 (F := F) (V (Proc.devRef .tc main_arg6)) := by
  rw [step1 V 128 rfl rfl (old 127 rfl (by decide)), st_main_v76]; rfl
theorem st_main_v78 : after ops V (Proc.devRef .tc main_v78) = val_main_v78 (F := F) (V (Proc.devRef .tc main_arg0)) (V (Proc.devRef .tc main_arg1)) (V (Proc.devRef .tc main_arg2)) (V (Proc.devRef .tc main_arg6)) := by
  rw [step2 V 129 rfl rfl (old 3 rfl (by decide)) (old 128 rfl (by decide)), st_main_v3, st_main_v77]; rfl
theorem st_main_c_14 : after ops V (Proc.devRef .tc main_c_14) = val_main_c_14 (F := F) := by
  rw [step0 V 130 rfl rfl]; rfl
theorem st_main_v79 : after ops V (Proc.devRef .tc main_v79) = val_main_v79 (F := F) := by
  rw [step1 V 131 rfl rfl (old 130 rfl (by decide)), st_main_c_14]; rfl
theorem st_main_v80 : after ops V (Proc.devRef .tc main_v80) = val_main_v80 (F := F) (V (Proc.devRef .tc main_arg6)) := by
  rw [step2 V 132 rfl rfl (old 7 rfl (by decide)) (old 131 rfl (by decide)), st_main_v7, st_main_v79]; rfl
theorem st_main_c_15 : after ops V (Proc.devRef .tc main_c_15) = val_main_c_15 (F := F) := by
  rw [step0 V 133 rfl rfl]; rfl
theorem st_main_v81 : after ops V (Proc.devRef .tc main_v81) = val_main_v81 (F := F) := by
  rw [step1 V 134 rfl rfl (old 133 rfl (by decide)), st_main_c_15]; rfl
theorem st_main_v82 : after ops V (Proc.devRef .tc main_v82) = val_main_v82 (F := F) (V (Proc.devRef .tc main_arg6)) := by
  rw [step2 V 135 rfl rfl (old 7 rfl (by decide)) (old 134 rfl (by decide)), st_main_v7, st_main_v81]; rfl
theorem st_main_v83 : after ops V (Proc.devRef .tc main_v83) = val_main_v83 (F := F) (V (Proc.devRef .tc main_arg6)) := by
  rw [step3 V 136 rfl rfl (old 132 rfl (by decide)) (old 135 rfl (by decide)) (old 7 rfl (by decide)), st_main_v80, st_main_v82, st_main_v7]; rfl
theorem st_main_v84 : after ops V (Proc.devRef .tc main_v84) = val_main_v84 (F := F) (V (Proc.devRef .tc main_arg6)) := by
  rw [step1 V 137 rfl rfl (old 136 rfl (by decide)), st_main_v83]; rfl
theorem st_main_v85 : after ops V (Proc.devRef .tc main_v85) = val_main_v85 (F := F) (V (Proc.devRef .tc main_arg0)) (V (Proc.devRef .tc main_arg1)) (V (Proc.devRef .tc main_arg2)) (V (Proc.devRef .tc main_arg6)) := by
  rw [step2 V 138 rfl rfl (old 3 rfl (by decide)) (old 137 rfl (by decide)), st_main_v3, st_main_v84]; rfl
theorem st_main_call2_v0 : after ops V (Proc.devRef .tc main_call2_v0) = val_main_call2_v0 (F := F) (V (Proc.devRef .tc main_arg0)) (V (Proc.devRef .tc main_arg1)) (V (Proc.devRef .tc main_arg2)) (V (Proc.devRef .tc main_arg6)) := by
  have h := step2 V 139 rfl rfl (old 129 rfl (by decide)) (old 129 rfl (by decide))
  rw [st_main_v78] at h
  exact h.trans ((cast_eq _ _).trans ((congrArg₂ ((mulf) : (⟨S100000x128, .f32⟩ : BufTy).Contents (Elt F) → (⟨S100000x128, .f32⟩ : BufTy).Contents (Elt F) → (⟨S100000x128, .f32⟩ : BufTy).Contents (Elt F)) (cast_eq _ _) (cast_eq _ _)).trans rfl))
theorem st_main_call2_cst : after ops V (Proc.devRef .tc main_call2_cst) = val_main_call2_cst (F := F) := by
  rw [step0 V 140 rfl rfl]; rfl
theorem st_main_call2_v1 : after ops V (Proc.devRef .tc main_call2_v1) = val_main_call2_v1 (F := F) (V (Proc.devRef .tc main_arg0)) (V (Proc.devRef .tc main_arg1)) (V (Proc.devRef .tc main_arg2)) (V (Proc.devRef .tc main_arg6)) := by
  have h := step2 V 141 rfl rfl (old 139 rfl (by decide)) (old 140 rfl (by decide))
  rw [st_main_call2_v0, st_main_call2_cst] at h
  exact h.trans ((cast_eq _ _).trans ((congrArg₂ (((fun x v => Host.reduceAdd x v reducesTo_S100000x128_S100000_d1 h_S_)) : (⟨S100000x128, .f32⟩ : BufTy).Contents (Elt F) → (⟨S_, .f32⟩ : BufTy).Contents (Elt F) → (⟨S100000, .f32⟩ : BufTy).Contents (Elt F)) (cast_eq _ _) (cast_eq _ _)).trans rfl))
theorem st_main_v86 : after ops V (Proc.devRef .tc main_v86) = val_main_v86 (F := F) (V (Proc.devRef .tc main_arg0)) (V (Proc.devRef .tc main_arg1)) (V (Proc.devRef .tc main_arg2)) (V (Proc.devRef .tc main_arg6)) := by
  have h := step1 V 142 rfl rfl (old 141 rfl (by decide))
  rw [st_main_call2_v1] at h
  exact h.trans ((cast_eq _ _).trans ((congrArg ((Host.sqrt) : (⟨S100000, .f32⟩ : BufTy).Contents (Elt F) → (⟨S100000, .f32⟩ : BufTy).Contents (Elt F)) (cast_eq _ _)).trans rfl))
theorem st_main_cst_16 : after ops V (Proc.devRef .tc main_cst_16) = val_main_cst_16 (F := F) := by
  rw [step0 V 143 rfl rfl]; rfl
theorem st_main_v87 : after ops V (Proc.devRef .tc main_v87) = val_main_v87 (F := F) := by
  rw [step1 V 144 rfl rfl (old 143 rfl (by decide)), st_main_cst_16]; rfl
theorem st_main_v88 : after ops V (Proc.devRef .tc main_v88) = val_main_v88 (F := F) (V (Proc.devRef .tc main_arg0)) (V (Proc.devRef .tc main_arg1)) (V (Proc.devRef .tc main_arg2)) (V (Proc.devRef .tc main_arg6)) := by
  rw [step2 V 145 rfl rfl (old 142 rfl (by decide)) (old 144 rfl (by decide)), st_main_v86, st_main_v87]; rfl
theorem st_main_call3_v0 : after ops V (Proc.devRef .tc main_call3_v0) = val_main_call3_v0 (F := F) (V (Proc.devRef .tc main_arg0)) (V (Proc.devRef .tc main_arg1)) (V (Proc.devRef .tc main_arg2)) (V (Proc.devRef .tc main_arg6)) := by
  have h := step2 V 146 rfl rfl (old 138 rfl (by decide)) (old 138 rfl (by decide))
  rw [st_main_v85] at h
  exact h.trans ((cast_eq _ _).trans ((congrArg₂ ((mulf) : (⟨S100000x128, .f32⟩ : BufTy).Contents (Elt F) → (⟨S100000x128, .f32⟩ : BufTy).Contents (Elt F) → (⟨S100000x128, .f32⟩ : BufTy).Contents (Elt F)) (cast_eq _ _) (cast_eq _ _)).trans rfl))
theorem st_main_call3_cst : after ops V (Proc.devRef .tc main_call3_cst) = val_main_call3_cst (F := F) := by
  rw [step0 V 147 rfl rfl]; rfl
theorem st_main_call3_v1 : after ops V (Proc.devRef .tc main_call3_v1) = val_main_call3_v1 (F := F) (V (Proc.devRef .tc main_arg0)) (V (Proc.devRef .tc main_arg1)) (V (Proc.devRef .tc main_arg2)) (V (Proc.devRef .tc main_arg6)) := by
  have h := step2 V 148 rfl rfl (old 146 rfl (by decide)) (old 147 rfl (by decide))
  rw [st_main_call3_v0, st_main_call3_cst] at h
  exact h.trans ((cast_eq _ _).trans ((congrArg₂ (((fun x v => Host.reduceAdd x v reducesTo_S100000x128_S100000_d1 h_S_)) : (⟨S100000x128, .f32⟩ : BufTy).Contents (Elt F) → (⟨S_, .f32⟩ : BufTy).Contents (Elt F) → (⟨S100000, .f32⟩ : BufTy).Contents (Elt F)) (cast_eq _ _) (cast_eq _ _)).trans rfl))
theorem st_main_v89 : after ops V (Proc.devRef .tc main_v89) = val_main_v89 (F := F) (V (Proc.devRef .tc main_arg0)) (V (Proc.devRef .tc main_arg1)) (V (Proc.devRef .tc main_arg2)) (V (Proc.devRef .tc main_arg6)) := by
  have h := step1 V 149 rfl rfl (old 148 rfl (by decide))
  rw [st_main_call3_v1] at h
  exact h.trans ((cast_eq _ _).trans ((congrArg ((Host.sqrt) : (⟨S100000, .f32⟩ : BufTy).Contents (Elt F) → (⟨S100000, .f32⟩ : BufTy).Contents (Elt F)) (cast_eq _ _)).trans rfl))
theorem st_main_cst_17 : after ops V (Proc.devRef .tc main_cst_17) = val_main_cst_17 (F := F) := by
  rw [step0 V 150 rfl rfl]; rfl
theorem st_main_v90 : after ops V (Proc.devRef .tc main_v90) = val_main_v90 (F := F) := by
  rw [step1 V 151 rfl rfl (old 150 rfl (by decide)), st_main_cst_17]; rfl
theorem st_main_v91 : after ops V (Proc.devRef .tc main_v91) = val_main_v91 (F := F) (V (Proc.devRef .tc main_arg0)) (V (Proc.devRef .tc main_arg1)) (V (Proc.devRef .tc main_arg2)) (V (Proc.devRef .tc main_arg6)) := by
  rw [step2 V 152 rfl rfl (old 149 rfl (by decide)) (old 151 rfl (by decide)), st_main_v89, st_main_v90]; rfl
theorem st_main_v92 : after ops V (Proc.devRef .tc main_v92) = val_main_v92 (F := F) (V (Proc.devRef .tc main_arg0)) (V (Proc.devRef .tc main_arg1)) (V (Proc.devRef .tc main_arg2)) (V (Proc.devRef .tc main_arg6)) := by
  rw [step2 V 153 rfl rfl (old 129 rfl (by decide)) (old 138 rfl (by decide)), st_main_v78, st_main_v85]; rfl
theorem st_main_cst_18 : after ops V (Proc.devRef .tc main_cst_18) = val_main_cst_18 (F := F) := by
  rw [step0 V 154 rfl rfl]; rfl
theorem st_main_v93 : after ops V (Proc.devRef .tc main_v93) = val_main_v93 (F := F) (V (Proc.devRef .tc main_arg0)) (V (Proc.devRef .tc main_arg1)) (V (Proc.devRef .tc main_arg2)) (V (Proc.devRef .tc main_arg6)) := by
  rw [step2 V 155 rfl rfl (old 153 rfl (by decide)) (old 154 rfl (by decide)), st_main_v92, st_main_cst_18]; rfl
theorem st_main_v94 : after ops V (Proc.devRef .tc main_v94) = val_main_v94 (F := F) (V (Proc.devRef .tc main_arg0)) (V (Proc.devRef .tc main_arg1)) (V (Proc.devRef .tc main_arg2)) (V (Proc.devRef .tc main_arg6)) := by
  rw [step2 V 156 rfl rfl (old 145 rfl (by decide)) (old 152 rfl (by decide)), st_main_v88, st_main_v91]; rfl
theorem st_main_v95 : after ops V (Proc.devRef .tc main_v95) = val_main_v95 (F := F) (V (Proc.devRef .tc main_arg0)) (V (Proc.devRef .tc main_arg1)) (V (Proc.devRef .tc main_arg2)) (V (Proc.devRef .tc main_arg6)) := by
  rw [step2 V 157 rfl rfl (old 155 rfl (by decide)) (old 156 rfl (by decide)), st_main_v93, st_main_v94]; rfl
theorem st_main_cst_19 : after ops V (Proc.devRef .tc main_cst_19) = val_main_cst_19 (F := F) := by
  rw [step0 V 158 rfl rfl]; rfl
theorem st_main_v96 : after ops V (Proc.devRef .tc main_v96) = val_main_v96 (F := F) := by
  rw [step1 V 159 rfl rfl (old 158 rfl (by decide)), st_main_cst_19]; rfl
theorem st_main_v97 : after ops V (Proc.devRef .tc main_v97) = val_main_v97 (F := F) (V (Proc.devRef .tc main_arg0)) (V (Proc.devRef .tc main_arg1)) (V (Proc.devRef .tc main_arg2)) (V (Proc.devRef .tc main_arg6)) := by
  rw [step2 V 160 rfl rfl (old 159 rfl (by decide)) (old 157 rfl (by decide)), st_main_v96, st_main_v95]; rfl
theorem st_main_c_20 : after ops V (Proc.devRef .tc main_c_20) = val_main_c_20 (F := F) := by
  rw [step0 V 161 rfl rfl]; rfl
theorem st_main_v98 : after ops V (Proc.devRef .tc main_v98) = val_main_v98 (F := F) := by
  rw [step1 V 162 rfl rfl (old 161 rfl (by decide)), st_main_c_20]; rfl
theorem st_main_v99 : after ops V (Proc.devRef .tc main_v99) = val_main_v99 (F := F) (V (Proc.devRef .tc main_arg6)) := by
  rw [step2 V 163 rfl rfl (old 5 rfl (by decide)) (old 162 rfl (by decide)), st_main_v5, st_main_v98]; rfl
theorem st_main_c_21 : after ops V (Proc.devRef .tc main_c_21) = val_main_c_21 (F := F) := by
  rw [step0 V 164 rfl rfl]; rfl
theorem st_main_v100 : after ops V (Proc.devRef .tc main_v100) = val_main_v100 (F := F) := by
  rw [step1 V 165 rfl rfl (old 164 rfl (by decide)), st_main_c_21]; rfl
theorem st_main_v101 : after ops V (Proc.devRef .tc main_v101) = val_main_v101 (F := F) (V (Proc.devRef .tc main_arg6)) := by
  rw [step2 V 166 rfl rfl (old 5 rfl (by decide)) (old 165 rfl (by decide)), st_main_v5, st_main_v100]; rfl
theorem st_main_v102 : after ops V (Proc.devRef .tc main_v102) = val_main_v102 (F := F) (V (Proc.devRef .tc main_arg6)) := by
  rw [step3 V 167 rfl rfl (old 163 rfl (by decide)) (old 166 rfl (by decide)) (old 5 rfl (by decide)), st_main_v99, st_main_v101, st_main_v5]; rfl
theorem st_main_v103 : after ops V (Proc.devRef .tc main_v103) = val_main_v103 (F := F) (V (Proc.devRef .tc main_arg6)) := by
  rw [step1 V 168 rfl rfl (old 167 rfl (by decide)), st_main_v102]; rfl
theorem st_main_v104 : after ops V (Proc.devRef .tc main_v104) = val_main_v104 (F := F) (V (Proc.devRef .tc main_arg5)) (V (Proc.devRef .tc main_arg6)) := by
  rw [step2 V 169 rfl rfl (not_mem_drop_of_not_mem arg5_not_written 169) (old 168 rfl (by decide)), st_main_arg5, st_main_v103]; rfl
theorem st_main_c_22 : after ops V (Proc.devRef .tc main_c_22) = val_main_c_22 (F := F) := by
  rw [step0 V 170 rfl rfl]; rfl
theorem st_main_v105 : after ops V (Proc.devRef .tc main_v105) = val_main_v105 (F := F) := by
  rw [step1 V 171 rfl rfl (old 170 rfl (by decide)), st_main_c_22]; rfl
theorem st_main_v106 : after ops V (Proc.devRef .tc main_v106) = val_main_v106 (F := F) (V (Proc.devRef .tc main_arg6)) := by
  rw [step2 V 172 rfl rfl (old 7 rfl (by decide)) (old 171 rfl (by decide)), st_main_v7, st_main_v105]; rfl
theorem st_main_c_23 : after ops V (Proc.devRef .tc main_c_23) = val_main_c_23 (F := F) := by
  rw [step0 V 173 rfl rfl]; rfl
theorem st_main_v107 : after ops V (Proc.devRef .tc main_v107) = val_main_v107 (F := F) := by
  rw [step1 V 174 rfl rfl (old 173 rfl (by decide)), st_main_c_23]; rfl
theorem st_main_v108 : after ops V (Proc.devRef .tc main_v108) = val_main_v108 (F := F) (V (Proc.devRef .tc main_arg6)) := by
  rw [step2 V 175 rfl rfl (old 7 rfl (by decide)) (old 174 rfl (by decide)), st_main_v7, st_main_v107]; rfl
theorem st_main_v109 : after ops V (Proc.devRef .tc main_v109) = val_main_v109 (F := F) (V (Proc.devRef .tc main_arg6)) := by
  rw [step3 V 176 rfl rfl (old 172 rfl (by decide)) (old 175 rfl (by decide)) (old 7 rfl (by decide)), st_main_v106, st_main_v108, st_main_v7]; rfl
theorem st_main_v110 : after ops V (Proc.devRef .tc main_v110) = val_main_v110 (F := F) (V (Proc.devRef .tc main_arg6)) := by
  rw [step1 V 177 rfl rfl (old 176 rfl (by decide)), st_main_v109]; rfl
theorem st_main_v111 : after ops V (Proc.devRef .tc main_v111) = val_main_v111 (F := F) (V (Proc.devRef .tc main_arg5)) (V (Proc.devRef .tc main_arg6)) := by
  rw [step2 V 178 rfl rfl (not_mem_drop_of_not_mem arg5_not_written 178) (old 177 rfl (by decide)), st_main_arg5, st_main_v110]; rfl
theorem st_main_v112 : after ops V (Proc.devRef .tc main_v112) = val_main_v112 (F := F) (V (Proc.devRef .tc main_arg5)) (V (Proc.devRef .tc main_arg6)) := by
  rw [step2 V 179 rfl rfl (old 169 rfl (by decide)) (old 178 rfl (by decide)), st_main_v104, st_main_v111]; rfl
theorem st_main_cst_24 : after ops V (Proc.devRef .tc main_cst_24) = val_main_cst_24 (F := F) := by
  rw [step0 V 180 rfl rfl]; rfl
theorem st_main_v113 : after ops V (Proc.devRef .tc main_v113) = val_main_v113 (F := F) := by
  rw [step1 V 181 rfl rfl (old 180 rfl (by decide)), st_main_cst_24]; rfl
theorem st_main_v114 : after ops V (Proc.devRef .tc main_v114) = val_main_v114 (F := F) (V (Proc.devRef .tc main_arg5)) (V (Proc.devRef .tc main_arg6)) := by
  rw [step2 V 182 rfl rfl (old 181 rfl (by decide)) (old 179 rfl (by decide)), st_main_v113, st_main_v112]; rfl
theorem st_main_v115 : after ops V (Proc.devRef .tc main_v115) = val_main_v115 (F := F) (V (Proc.devRef .tc main_arg0)) (V (Proc.devRef .tc main_arg1)) (V (Proc.devRef .tc main_arg2)) (V (Proc.devRef .tc main_arg5)) (V (Proc.devRef .tc main_arg6)) := by
  rw [step2 V 183 rfl rfl (old 160 rfl (by decide)) (old 182 rfl (by decide)), st_main_v97, st_main_v114]; rfl
theorem st_main_c_25 : after ops V (Proc.devRef .tc main_c_25) = val_main_c_25 (F := F) := by
  rw [step0 V 184 rfl rfl]; rfl
theorem st_main_v116 : after ops V (Proc.devRef .tc main_v116) = val_main_v116 (F := F) := by
  rw [step1 V 185 rfl rfl (old 184 rfl (by decide)), st_main_c_25]; rfl
theorem st_main_v117 : after ops V (Proc.devRef .tc main_v117) = val_main_v117 (F := F) (V (Proc.devRef .tc main_arg7)) := by
  rw [step2 V 186 rfl rfl (old 9 rfl (by decide)) (old 185 rfl (by decide)), st_main_v9, st_main_v116]; rfl
theorem st_main_c_26 : after ops V (Proc.devRef .tc main_c_26) = val_main_c_26 (F := F) := by
  rw [step0 V 187 rfl rfl]; rfl
theorem st_main_v118 : after ops V (Proc.devRef .tc main_v118) = val_main_v118 (F := F) := by
  rw [step1 V 188 rfl rfl (old 187 rfl (by decide)), st_main_c_26]; rfl
theorem st_main_v119 : after ops V (Proc.devRef .tc main_v119) = val_main_v119 (F := F) (V (Proc.devRef .tc main_arg7)) := by
  rw [step2 V 189 rfl rfl (old 9 rfl (by decide)) (old 188 rfl (by decide)), st_main_v9, st_main_v118]; rfl
theorem st_main_v120 : after ops V (Proc.devRef .tc main_v120) = val_main_v120 (F := F) (V (Proc.devRef .tc main_arg7)) := by
  rw [step3 V 190 rfl rfl (old 186 rfl (by decide)) (old 189 rfl (by decide)) (old 9 rfl (by decide)), st_main_v117, st_main_v119, st_main_v9]; rfl
theorem st_main_v121 : after ops V (Proc.devRef .tc main_v121) = val_main_v121 (F := F) (V (Proc.devRef .tc main_arg7)) := by
  rw [step1 V 191 rfl rfl (old 190 rfl (by decide)), st_main_v120]; rfl
theorem st_main_v122 : after ops V (Proc.devRef .tc main_v122) = val_main_v122 (F := F) (V (Proc.devRef .tc main_arg0)) (V (Proc.devRef .tc main_arg1)) (V (Proc.devRef .tc main_arg2)) (V (Proc.devRef .tc main_arg7)) := by
  rw [step2 V 192 rfl rfl (old 3 rfl (by decide)) (old 191 rfl (by decide)), st_main_v3, st_main_v121]; rfl
theorem st_main_c_27 : after ops V (Proc.devRef .tc main_c_27) = val_main_c_27 (F := F) := by
  rw [step0 V 193 rfl rfl]; rfl
theorem st_main_v123 : after ops V (Proc.devRef .tc main_v123) = val_main_v123 (F := F) := by
  rw [step1 V 194 rfl rfl (old 193 rfl (by decide)), st_main_c_27]; rfl
theorem st_main_v124 : after ops V (Proc.devRef .tc main_v124) = val_main_v124 (F := F) (V (Proc.devRef .tc main_arg7)) := by
  rw [step2 V 195 rfl rfl (old 11 rfl (by decide)) (old 194 rfl (by decide)), st_main_v11, st_main_v123]; rfl
theorem st_main_c_28 : after ops V (Proc.devRef .tc main_c_28) = val_main_c_28 (F := F) := by
  rw [step0 V 196 rfl rfl]; rfl
theorem st_main_v125 : after ops V (Proc.devRef .tc main_v125) = val_main_v125 (F := F) := by
  rw [step1 V 197 rfl rfl (old 196 rfl (by decide)), st_main_c_28]; rfl
theorem st_main_v126 : after ops V (Proc.devRef .tc main_v126) = val_main_v126 (F := F) (V (Proc.devRef .tc main_arg7)) := by
  rw [step2 V 198 rfl rfl (old 11 rfl (by decide)) (old 197 rfl (by decide)), st_main_v11, st_main_v125]; rfl
theorem st_main_v127 : after ops V (Proc.devRef .tc main_v127) = val_main_v127 (F := F) (V (Proc.devRef .tc main_arg7)) := by
  rw [step3 V 199 rfl rfl (old 195 rfl (by decide)) (old 198 rfl (by decide)) (old 11 rfl (by decide)), st_main_v124, st_main_v126, st_main_v11]; rfl
theorem st_main_v128 : after ops V (Proc.devRef .tc main_v128) = val_main_v128 (F := F) (V (Proc.devRef .tc main_arg7)) := by
  rw [step1 V 200 rfl rfl (old 199 rfl (by decide)), st_main_v127]; rfl
theorem st_main_v129 : after ops V (Proc.devRef .tc main_v129) = val_main_v129 (F := F) (V (Proc.devRef .tc main_arg0)) (V (Proc.devRef .tc main_arg1)) (V (Proc.devRef .tc main_arg2)) (V (Proc.devRef .tc main_arg7)) := by
  rw [step2 V 201 rfl rfl (old 3 rfl (by decide)) (old 200 rfl (by decide)), st_main_v3, st_main_v128]; rfl
theorem st_main_call4_v0 : after ops V (Proc.devRef .tc main_call4_v0) = val_main_call4_v0 (F := F) (V (Proc.devRef .tc main_arg0)) (V (Proc.devRef .tc main_arg1)) (V (Proc.devRef .tc main_arg2)) (V (Proc.devRef .tc main_arg7)) := by
  have h := step2 V 202 rfl rfl (old 192 rfl (by decide)) (old 192 rfl (by decide))
  rw [st_main_v122] at h
  exact h.trans ((cast_eq _ _).trans ((congrArg₂ ((mulf) : (⟨S100000x128, .f32⟩ : BufTy).Contents (Elt F) → (⟨S100000x128, .f32⟩ : BufTy).Contents (Elt F) → (⟨S100000x128, .f32⟩ : BufTy).Contents (Elt F)) (cast_eq _ _) (cast_eq _ _)).trans rfl))
theorem st_main_call4_cst : after ops V (Proc.devRef .tc main_call4_cst) = val_main_call4_cst (F := F) := by
  rw [step0 V 203 rfl rfl]; rfl
theorem st_main_call4_v1 : after ops V (Proc.devRef .tc main_call4_v1) = val_main_call4_v1 (F := F) (V (Proc.devRef .tc main_arg0)) (V (Proc.devRef .tc main_arg1)) (V (Proc.devRef .tc main_arg2)) (V (Proc.devRef .tc main_arg7)) := by
  have h := step2 V 204 rfl rfl (old 202 rfl (by decide)) (old 203 rfl (by decide))
  rw [st_main_call4_v0, st_main_call4_cst] at h
  exact h.trans ((cast_eq _ _).trans ((congrArg₂ (((fun x v => Host.reduceAdd x v reducesTo_S100000x128_S100000_d1 h_S_)) : (⟨S100000x128, .f32⟩ : BufTy).Contents (Elt F) → (⟨S_, .f32⟩ : BufTy).Contents (Elt F) → (⟨S100000, .f32⟩ : BufTy).Contents (Elt F)) (cast_eq _ _) (cast_eq _ _)).trans rfl))
theorem st_main_v130 : after ops V (Proc.devRef .tc main_v130) = val_main_v130 (F := F) (V (Proc.devRef .tc main_arg0)) (V (Proc.devRef .tc main_arg1)) (V (Proc.devRef .tc main_arg2)) (V (Proc.devRef .tc main_arg7)) := by
  have h := step1 V 205 rfl rfl (old 204 rfl (by decide))
  rw [st_main_call4_v1] at h
  exact h.trans ((cast_eq _ _).trans ((congrArg ((Host.sqrt) : (⟨S100000, .f32⟩ : BufTy).Contents (Elt F) → (⟨S100000, .f32⟩ : BufTy).Contents (Elt F)) (cast_eq _ _)).trans rfl))
theorem st_main_cst_29 : after ops V (Proc.devRef .tc main_cst_29) = val_main_cst_29 (F := F) := by
  rw [step0 V 206 rfl rfl]; rfl
theorem st_main_v131 : after ops V (Proc.devRef .tc main_v131) = val_main_v131 (F := F) := by
  rw [step1 V 207 rfl rfl (old 206 rfl (by decide)), st_main_cst_29]; rfl
theorem st_main_v132 : after ops V (Proc.devRef .tc main_v132) = val_main_v132 (F := F) (V (Proc.devRef .tc main_arg0)) (V (Proc.devRef .tc main_arg1)) (V (Proc.devRef .tc main_arg2)) (V (Proc.devRef .tc main_arg7)) := by
  rw [step2 V 208 rfl rfl (old 205 rfl (by decide)) (old 207 rfl (by decide)), st_main_v130, st_main_v131]; rfl
theorem st_main_call5_v0 : after ops V (Proc.devRef .tc main_call5_v0) = val_main_call5_v0 (F := F) (V (Proc.devRef .tc main_arg0)) (V (Proc.devRef .tc main_arg1)) (V (Proc.devRef .tc main_arg2)) (V (Proc.devRef .tc main_arg7)) := by
  have h := step2 V 209 rfl rfl (old 201 rfl (by decide)) (old 201 rfl (by decide))
  rw [st_main_v129] at h
  exact h.trans ((cast_eq _ _).trans ((congrArg₂ ((mulf) : (⟨S100000x128, .f32⟩ : BufTy).Contents (Elt F) → (⟨S100000x128, .f32⟩ : BufTy).Contents (Elt F) → (⟨S100000x128, .f32⟩ : BufTy).Contents (Elt F)) (cast_eq _ _) (cast_eq _ _)).trans rfl))
theorem st_main_call5_cst : after ops V (Proc.devRef .tc main_call5_cst) = val_main_call5_cst (F := F) := by
  rw [step0 V 210 rfl rfl]; rfl
theorem st_main_call5_v1 : after ops V (Proc.devRef .tc main_call5_v1) = val_main_call5_v1 (F := F) (V (Proc.devRef .tc main_arg0)) (V (Proc.devRef .tc main_arg1)) (V (Proc.devRef .tc main_arg2)) (V (Proc.devRef .tc main_arg7)) := by
  have h := step2 V 211 rfl rfl (old 209 rfl (by decide)) (old 210 rfl (by decide))
  rw [st_main_call5_v0, st_main_call5_cst] at h
  exact h.trans ((cast_eq _ _).trans ((congrArg₂ (((fun x v => Host.reduceAdd x v reducesTo_S100000x128_S100000_d1 h_S_)) : (⟨S100000x128, .f32⟩ : BufTy).Contents (Elt F) → (⟨S_, .f32⟩ : BufTy).Contents (Elt F) → (⟨S100000, .f32⟩ : BufTy).Contents (Elt F)) (cast_eq _ _) (cast_eq _ _)).trans rfl))
theorem st_main_v133 : after ops V (Proc.devRef .tc main_v133) = val_main_v133 (F := F) (V (Proc.devRef .tc main_arg0)) (V (Proc.devRef .tc main_arg1)) (V (Proc.devRef .tc main_arg2)) (V (Proc.devRef .tc main_arg7)) := by
  have h := step1 V 212 rfl rfl (old 211 rfl (by decide))
  rw [st_main_call5_v1] at h
  exact h.trans ((cast_eq _ _).trans ((congrArg ((Host.sqrt) : (⟨S100000, .f32⟩ : BufTy).Contents (Elt F) → (⟨S100000, .f32⟩ : BufTy).Contents (Elt F)) (cast_eq _ _)).trans rfl))
theorem st_main_cst_30 : after ops V (Proc.devRef .tc main_cst_30) = val_main_cst_30 (F := F) := by
  rw [step0 V 213 rfl rfl]; rfl
theorem st_main_v134 : after ops V (Proc.devRef .tc main_v134) = val_main_v134 (F := F) := by
  rw [step1 V 214 rfl rfl (old 213 rfl (by decide)), st_main_cst_30]; rfl
theorem st_main_v135 : after ops V (Proc.devRef .tc main_v135) = val_main_v135 (F := F) (V (Proc.devRef .tc main_arg0)) (V (Proc.devRef .tc main_arg1)) (V (Proc.devRef .tc main_arg2)) (V (Proc.devRef .tc main_arg7)) := by
  rw [step2 V 215 rfl rfl (old 212 rfl (by decide)) (old 214 rfl (by decide)), st_main_v133, st_main_v134]; rfl
theorem st_main_v136 : after ops V (Proc.devRef .tc main_v136) = val_main_v136 (F := F) (V (Proc.devRef .tc main_arg0)) (V (Proc.devRef .tc main_arg1)) (V (Proc.devRef .tc main_arg2)) (V (Proc.devRef .tc main_arg7)) := by
  rw [step2 V 216 rfl rfl (old 192 rfl (by decide)) (old 201 rfl (by decide)), st_main_v122, st_main_v129]; rfl
theorem st_main_cst_31 : after ops V (Proc.devRef .tc main_cst_31) = val_main_cst_31 (F := F) := by
  rw [step0 V 217 rfl rfl]; rfl
theorem st_main_v137 : after ops V (Proc.devRef .tc main_v137) = val_main_v137 (F := F) (V (Proc.devRef .tc main_arg0)) (V (Proc.devRef .tc main_arg1)) (V (Proc.devRef .tc main_arg2)) (V (Proc.devRef .tc main_arg7)) := by
  rw [step2 V 218 rfl rfl (old 216 rfl (by decide)) (old 217 rfl (by decide)), st_main_v136, st_main_cst_31]; rfl
theorem st_main_v138 : after ops V (Proc.devRef .tc main_v138) = val_main_v138 (F := F) (V (Proc.devRef .tc main_arg0)) (V (Proc.devRef .tc main_arg1)) (V (Proc.devRef .tc main_arg2)) (V (Proc.devRef .tc main_arg7)) := by
  rw [step2 V 219 rfl rfl (old 208 rfl (by decide)) (old 215 rfl (by decide)), st_main_v132, st_main_v135]; rfl
theorem st_main_v139 : after ops V (Proc.devRef .tc main_v139) = val_main_v139 (F := F) (V (Proc.devRef .tc main_arg0)) (V (Proc.devRef .tc main_arg1)) (V (Proc.devRef .tc main_arg2)) (V (Proc.devRef .tc main_arg7)) := by
  rw [step2 V 220 rfl rfl (old 218 rfl (by decide)) (old 219 rfl (by decide)), st_main_v137, st_main_v138]; rfl
theorem st_main_cst_32 : after ops V (Proc.devRef .tc main_cst_32) = val_main_cst_32 (F := F) := by
  rw [step0 V 221 rfl rfl]; rfl
theorem st_main_v140 : after ops V (Proc.devRef .tc main_v140) = val_main_v140 (F := F) := by
  rw [step1 V 222 rfl rfl (old 221 rfl (by decide)), st_main_cst_32]; rfl
theorem st_main_v141 : after ops V (Proc.devRef .tc main_v141) = val_main_v141 (F := F) (V (Proc.devRef .tc main_arg0)) (V (Proc.devRef .tc main_arg1)) (V (Proc.devRef .tc main_arg2)) (V (Proc.devRef .tc main_arg7)) := by
  rw [step2 V 223 rfl rfl (old 222 rfl (by decide)) (old 220 rfl (by decide)), st_main_v140, st_main_v139]; rfl
theorem st_main_c_33 : after ops V (Proc.devRef .tc main_c_33) = val_main_c_33 (F := F) := by
  rw [step0 V 224 rfl rfl]; rfl
theorem st_main_v142 : after ops V (Proc.devRef .tc main_v142) = val_main_v142 (F := F) := by
  rw [step1 V 225 rfl rfl (old 224 rfl (by decide)), st_main_c_33]; rfl
theorem st_main_v143 : after ops V (Proc.devRef .tc main_v143) = val_main_v143 (F := F) (V (Proc.devRef .tc main_arg7)) := by
  rw [step2 V 226 rfl rfl (old 9 rfl (by decide)) (old 225 rfl (by decide)), st_main_v9, st_main_v142]; rfl
theorem st_main_c_34 : after ops V (Proc.devRef .tc main_c_34) = val_main_c_34 (F := F) := by
  rw [step0 V 227 rfl rfl]; rfl
theorem st_main_v144 : after ops V (Proc.devRef .tc main_v144) = val_main_v144 (F := F) := by
  rw [step1 V 228 rfl rfl (old 227 rfl (by decide)), st_main_c_34]; rfl
theorem st_main_v145 : after ops V (Proc.devRef .tc main_v145) = val_main_v145 (F := F) (V (Proc.devRef .tc main_arg7)) := by
  rw [step2 V 229 rfl rfl (old 9 rfl (by decide)) (old 228 rfl (by decide)), st_main_v9, st_main_v144]; rfl
theorem st_main_v146 : after ops V (Proc.devRef .tc main_v146) = val_main_v146 (F := F) (V (Proc.devRef .tc main_arg7)) := by
  rw [step3 V 230 rfl rfl (old 226 rfl (by decide)) (old 229 rfl (by decide)) (old 9 rfl (by decide)), st_main_v143, st_main_v145, st_main_v9]; rfl
theorem st_main_v147 : after ops V (Proc.devRef .tc main_v147) = val_main_v147 (F := F) (V (Proc.devRef .tc main_arg7)) := by
  rw [step1 V 231 rfl rfl (old 230 rfl (by decide)), st_main_v146]; rfl
theorem st_main_v148 : after ops V (Proc.devRef .tc main_v148) = val_main_v148 (F := F) (V (Proc.devRef .tc main_arg5)) (V (Proc.devRef .tc main_arg7)) := by
  rw [step2 V 232 rfl rfl (not_mem_drop_of_not_mem arg5_not_written 232) (old 231 rfl (by decide)), st_main_arg5, st_main_v147]; rfl
theorem st_main_c_35 : after ops V (Proc.devRef .tc main_c_35) = val_main_c_35 (F := F) := by
  rw [step0 V 233 rfl rfl]; rfl
theorem st_main_v149 : after ops V (Proc.devRef .tc main_v149) = val_main_v149 (F := F) := by
  rw [step1 V 234 rfl rfl (old 233 rfl (by decide)), st_main_c_35]; rfl
theorem st_main_v150 : after ops V (Proc.devRef .tc main_v150) = val_main_v150 (F := F) (V (Proc.devRef .tc main_arg7)) := by
  rw [step2 V 235 rfl rfl (old 11 rfl (by decide)) (old 234 rfl (by decide)), st_main_v11, st_main_v149]; rfl
theorem st_main_c_36 : after ops V (Proc.devRef .tc main_c_36) = val_main_c_36 (F := F) := by
  rw [step0 V 236 rfl rfl]; rfl
theorem st_main_v151 : after ops V (Proc.devRef .tc main_v151) = val_main_v151 (F := F) := by
  rw [step1 V 237 rfl rfl (old 236 rfl (by decide)), st_main_c_36]; rfl
theorem st_main_v152 : after ops V (Proc.devRef .tc main_v152) = val_main_v152 (F := F) (V (Proc.devRef .tc main_arg7)) := by
  rw [step2 V 238 rfl rfl (old 11 rfl (by decide)) (old 237 rfl (by decide)), st_main_v11, st_main_v151]; rfl
theorem st_main_v153 : after ops V (Proc.devRef .tc main_v153) = val_main_v153 (F := F) (V (Proc.devRef .tc main_arg7)) := by
  rw [step3 V 239 rfl rfl (old 235 rfl (by decide)) (old 238 rfl (by decide)) (old 11 rfl (by decide)), st_main_v150, st_main_v152, st_main_v11]; rfl
theorem st_main_v154 : after ops V (Proc.devRef .tc main_v154) = val_main_v154 (F := F) (V (Proc.devRef .tc main_arg7)) := by
  rw [step1 V 240 rfl rfl (old 239 rfl (by decide)), st_main_v153]; rfl
theorem st_main_v155 : after ops V (Proc.devRef .tc main_v155) = val_main_v155 (F := F) (V (Proc.devRef .tc main_arg5)) (V (Proc.devRef .tc main_arg7)) := by
  rw [step2 V 241 rfl rfl (not_mem_drop_of_not_mem arg5_not_written 241) (old 240 rfl (by decide)), st_main_arg5, st_main_v154]; rfl
theorem st_main_v156 : after ops V (Proc.devRef .tc main_v156) = val_main_v156 (F := F) (V (Proc.devRef .tc main_arg5)) (V (Proc.devRef .tc main_arg7)) := by
  rw [step2 V 242 rfl rfl (old 232 rfl (by decide)) (old 241 rfl (by decide)), st_main_v148, st_main_v155]; rfl
theorem st_main_cst_37 : after ops V (Proc.devRef .tc main_cst_37) = val_main_cst_37 (F := F) := by
  rw [step0 V 243 rfl rfl]; rfl
theorem st_main_v157 : after ops V (Proc.devRef .tc main_v157) = val_main_v157 (F := F) := by
  rw [step1 V 244 rfl rfl (old 243 rfl (by decide)), st_main_cst_37]; rfl
theorem st_main_v158 : after ops V (Proc.devRef .tc main_v158) = val_main_v158 (F := F) (V (Proc.devRef .tc main_arg5)) (V (Proc.devRef .tc main_arg7)) := by
  rw [step2 V 245 rfl rfl (old 244 rfl (by decide)) (old 242 rfl (by decide)), st_main_v157, st_main_v156]; rfl
theorem st_main_v159 : after ops V (Proc.devRef .tc main_v159) = val_main_v159 (F := F) (V (Proc.devRef .tc main_arg0)) (V (Proc.devRef .tc main_arg1)) (V (Proc.devRef .tc main_arg2)) (V (Proc.devRef .tc main_arg5)) (V (Proc.devRef .tc main_arg7)) := by
  rw [step2 V 246 rfl rfl (old 223 rfl (by decide)) (old 245 rfl (by decide)), st_main_v141, st_main_v158]; rfl
theorem st_main_cst_38 : after ops V (Proc.devRef .tc main_cst_38) = val_main_cst_38 (F := F) := by
  rw [step0 V 247 rfl rfl]; rfl
theorem st_main_v160 : after ops V (Proc.devRef .tc main_v160) = val_main_v160 (F := F) := by
  rw [step1 V 248 rfl rfl (old 247 rfl (by decide)), st_main_cst_38]; rfl
theorem st_main_v161 : after ops V (Proc.devRef .tc main_v161) = val_main_v161 (F := F) (V (Proc.devRef .tc main_arg0)) (V (Proc.devRef .tc main_arg1)) (V (Proc.devRef .tc main_arg2)) (V (Proc.devRef .tc main_arg5)) (V (Proc.devRef .tc main_arg6)) := by
  rw [step2 V 249 rfl rfl (old 248 rfl (by decide)) (old 183 rfl (by decide)), st_main_v160, st_main_v115]; rfl
theorem st_main_v162 : after ops V (Proc.devRef .tc main_v162) = val_main_v162 (F := F) (V (Proc.devRef .tc main_arg0)) (V (Proc.devRef .tc main_arg1)) (V (Proc.devRef .tc main_arg2)) (V (Proc.devRef .tc main_arg5)) (V (Proc.devRef .tc main_arg6)) := by
  rw [step2 V 250 rfl rfl (old 249 rfl (by decide)) (old 249 rfl (by decide)), st_main_v161]; rfl
theorem st_main_cst_39 : after ops V (Proc.devRef .tc main_cst_39) = val_main_cst_39 (F := F) := by
  rw [step0 V 251 rfl rfl]; rfl
theorem st_main_v163 : after ops V (Proc.devRef .tc main_v163) = val_main_v163 (F := F) (V (Proc.devRef .tc main_arg0)) (V (Proc.devRef .tc main_arg1)) (V (Proc.devRef .tc main_arg2)) (V (Proc.devRef .tc main_arg5)) (V (Proc.devRef .tc main_arg6)) := by
  rw [step2 V 252 rfl rfl (old 250 rfl (by decide)) (old 251 rfl (by decide)), st_main_v162, st_main_cst_39]; rfl
theorem st_main_cst_40 : after ops V (Proc.devRef .tc main_cst_40) = val_main_cst_40 (F := F) := by
  rw [step0 V 253 rfl rfl]; rfl
theorem st_main_v164 : after ops V (Proc.devRef .tc main_v164) = val_main_v164 (F := F) (V (Proc.devRef .tc main_arg0)) (V (Proc.devRef .tc main_arg1)) (V (Proc.devRef .tc main_arg2)) (V (Proc.devRef .tc main_arg5)) (V (Proc.devRef .tc main_arg6)) := by
  rw [step2 V 254 rfl rfl (old 253 rfl (by decide)) (old 252 rfl (by decide)), st_main_cst_40, st_main_v163]; rfl
theorem st_main_v165 : after ops V (Proc.devRef .tc main_v165) = val_main_v165 (F := F) (V (Proc.devRef .tc main_arg0)) (V (Proc.devRef .tc main_arg1)) (V (Proc.devRef .tc main_arg2)) (V (Proc.devRef .tc main_arg5)) (V (Proc.devRef .tc main_arg7)) := by
  rw [step2 V 255 rfl rfl (old 246 rfl (by decide)) (old 246 rfl (by decide)), st_main_v159]; rfl
theorem st_main_cst_41 : after ops V (Proc.devRef .tc main_cst_41) = val_main_cst_41 (F := F) := by
  rw [step0 V 256 rfl rfl]; rfl
theorem st_main_v166 : after ops V (Proc.devRef .tc main_v166) = val_main_v166 (F := F) (V (Proc.devRef .tc main_arg0)) (V (Proc.devRef .tc main_arg1)) (V (Proc.devRef .tc main_arg2)) (V (Proc.devRef .tc main_arg5)) (V (Proc.devRef .tc main_arg7)) := by
  rw [step2 V 257 rfl rfl (old 255 rfl (by decide)) (old 256 rfl (by decide)), st_main_v165, st_main_cst_41]; rfl
theorem st_main_cst_42 : after ops V (Proc.devRef .tc main_cst_42) = val_main_cst_42 (F := F) := by
  rw [step0 V 258 rfl rfl]; rfl
theorem st_main_v167 : after ops V (Proc.devRef .tc main_v167) = val_main_v167 (F := F) (V (Proc.devRef .tc main_arg0)) (V (Proc.devRef .tc main_arg1)) (V (Proc.devRef .tc main_arg2)) (V (Proc.devRef .tc main_arg5)) (V (Proc.devRef .tc main_arg7)) := by
  rw [step2 V 259 rfl rfl (old 258 rfl (by decide)) (old 257 rfl (by decide)), st_main_cst_42, st_main_v166]; rfl
theorem st_main_v168 : after ops V (Proc.devRef .tc main_v168) = val_main_v168 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) := by
  rw [step2 V 260 rfl rfl (old 254 rfl (by decide)) (old 259 rfl (by decide)), st_main_v164, st_main_v167]; rfl
theorem st_main_cst_43 : after ops V (Proc.devRef .tc main_cst_43) = val_main_cst_43 (F := F) := by
  rw [step0 V 261 rfl rfl]; rfl
theorem st_main_v169 : after ops V (Proc.devRef .tc main_v169) = val_main_v169 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) := by
  rw [step2 V 262 rfl rfl (old 261 rfl (by decide)) (old 260 rfl (by decide)), st_main_cst_43, st_main_v168]; rfl
theorem st_main_v170 : after ops V (Proc.devRef .tc main_v170) = val_main_v170 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [step2 V 263 rfl rfl (old 120 rfl (by decide)) (old 262 rfl (by decide)), st_main_v71, st_main_v169]; rfl

end Stages

end Cert.ReferenceIdeal.RefRun

end
-- ==== Proof.RefRun.lean ====
-- The reference's run: every execution ends with the two results at the last stages' values and the arguments as launched.
import proofs.«404240_j51247549776505_4_alg».proof.Proof.RefRunStages

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v3) = val_main_v3 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v170).trans (st_main_v170 _), (h c main_v3).trans (st_main_v3 _),
      (h c main_arg0).trans (st_main_arg0 _),
      (h c main_arg1).trans (st_main_arg1 _),
      (h c main_arg2).trans (st_main_arg2 _),
      (h c main_arg3).trans (st_main_arg3 _),
      (h c main_arg4).trans (st_main_arg4 _),
      (h c main_arg5).trans (st_main_arg5 _),
      (h c main_arg6).trans (st_main_arg6 _),
      (h c main_arg7).trans (st_main_arg7 _),
      (h c main_arg8).trans (st_main_arg8 _),
      (h c main_arg9).trans (st_main_arg9 _),
      (h c main_arg10).trans (st_main_arg10 _)⟩)
    (run_seq scopedRefs_eq scopedSems_eq defs main (fun _ => ops) main_eq (fun _ => ops_sub) m ρ (fun _ => ops_fresh))

end Cert.ReferenceIdeal.RefRun

end
-- ==== Proof.lean ====
-- The five claims: the kernel program's frames from the run of @main's nine items, the reference's from the run of its operations; the two results are the specification's two arrangements of one number.
import proofs.«404240_j51247549776505_4_alg».proof.Defs
import proofs.«404240_j51247549776505_4_alg».proof.Proof.Gen.Kernel
import proofs.«404240_j51247549776505_4_alg».proof.Proof.Gen.KernelIdeal
import proofs.«404240_j51247549776505_4_alg».proof.Proof.Gen.ReferenceIdeal
import proofs.«404240_j51247549776505_4_alg».proof.Proof.Gen.Pre_finite_inputs
import proofs.«404240_j51247549776505_4_alg».proof.Proof.K.Run
import proofs.«404240_j51247549776505_4_alg».proof.Proof.KVLoss
import proofs.«404240_j51247549776505_4_alg».proof.Proof.PreFacts
import proofs.«404240_j51247549776505_4_alg».proof.Proof.Algebra
import proofs.«404240_j51247549776505_4_alg».proof.Proof.RefValue
import proofs.«404240_j51247549776505_4_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem Cert.Hand

section Claims

variable [hK : Cert.Kernel.Facts] [hKI : Cert.KernelIdeal.Facts] [hRI : Cert.ReferenceIdeal.Facts] [hP : Cert.Pre_finite_inputs.Facts]

theorem frame_ki : Cert.frame_KernelIdeal := fun m ρ _ =>
  (θ_run Cert.KernelIdeal.defs _ _).mono (fun _ h c => (h c).2) (Cert.KernelIdeal.Hand.run_post (F := Ideal) m ρ)

theorem frame_k : Cert.frame_Kernel := fun m ρ _ =>
  (θ_run Cert.Kernel.defs _ _).mono (fun _ h c => (h c).2) (Cert.Kernel.Hand.run_post (F := Bits) m ρ)

theorem frame_ri : Cert.frame_ReferenceIdeal := fun m ρ _ =>
  (θ_run Cert.ReferenceIdeal.defs _ _).mono (fun _ h c => (h c).2.2)
    (Cert.ReferenceIdeal.RefRun.run (F := Ideal) m ρ)

theorem preserves : Cert.preserves_Kernel_KernelIdeal := trivial

open Cert.KernelIdeal.Hand in
theorem algebraic : Cert.algebraic_KernelIdeal_ReferenceIdeal := by
  intro m ρ m' ρ' hpre hagree
  refine ⟨fun c => Cert.KernelIdeal.Hand.W9 m ρ c (Proc.devRef .tc Cert.KernelIdeal.main_v153),
    fun c => Cert.KernelIdeal.Hand.W9 m ρ c (Proc.devRef .tc Cert.KernelIdeal.main_v2_0),
    (θ_run Cert.KernelIdeal.defs _ _).mono (fun r h c => ⟨(h c).1 _ (by decide), (h c).1 _ (by decide), (h c).2⟩)
      (Cert.KernelIdeal.Hand.run_post (F := Ideal) m ρ), ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · obtain ⟨hX, hW, hb, hrW, hrb, -, hT⟩ := Cert.KernelIdeal.Hand.pre_facts m hpre c
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    beta_reduce
    rw [Cert.KernelIdeal.Hand.kernel_loss m ρ c]
    refine (Cert.ReferenceIdeal.RefValue.ref_loss _ _ _ _ _ _ _ _ _ _ _ hT).trans ?_
    funext _
    exact (Alg.loss_eq _ _ _ _ _ _ _ _ _ _ _ _ _ hX hW hb hrW hrb hT).symm
  · rw [(hagree c).1, (hagree c).2.1, (hagree c).2.2.1]
    beta_reduce
    rw [Cert.KernelIdeal.Hand.kernel_z m ρ c]
    exact Cert.ReferenceIdeal.RefValue.ref_z _ _ _

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
